-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S1600000 : Shape := ⟨1, ![1600000]⟩
abbrev S1600000x1 : Shape := ⟨2, ![1600000, 1]⟩
abbrev S100000x1 : Shape := ⟨2, ![100000, 1]⟩
abbrev S48x128 : Shape := ⟨2, ![48, 128]⟩
abbrev S128 : Shape := ⟨1, ![128]⟩
abbrev S128x128 : Shape := ⟨2, ![128, 128]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg1 main_v34
  let main_c_13 : IVec S_ 1 := constantI S_ 1 1#1
  let main_v36 : IVec S_ 1 := (fun x v => Host.reduce IntOp.andi x v reducesTo_S1600000_S_d0 h_S_) main_v35 main_c_13
  let main_v37 : IVec S_ 1 := andi main_v33 main_v36
  let main_c_14 : IVec S_ 32 := constantI S_ 32 100000#32
  let main_v38 : IVec S1600000 32 := broadcastInDim S1600000 ![] bcast_S_S1600000 main_c_14
  let main_v39 : IVec S1600000 1 := cmpi .slt main_arg1 main_v38
  let main_c_15 : IVec S_ 1 := constantI S_ 1 1#1
  let main_v40 : IVec S_ 1 := (fun x v => Host.reduce IntOp.andi x v reducesTo_S1600000_S_d0 h_S_) main_v39 main_c_15
  let main_v41 : IVec S_ 1 := andi main_v37 main_v40
  main_v41

def fn_part1 {F : FTy → Type} [FloatOps F] (main_arg1 : IVec S1600000 32) (main_arg6 : FVec F S128 .f32) (main_arg7 : FVec F S128x128 .f32) (main_arg8 : FVec F S128 .f32) (main_v13 : IVec S_ 1) (main_v16 : IVec S48x128 1) : IVec S_ 1 :=
  let main_c_5 : IVec S_ 1 := constantI S_ 1 1#1
  let main_v17 : IVec S_ 1 := (fun x v => Host.reduce IntOp.andi x v reducesTo_S48x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S100000x48 .f32) (main_arg1 : IVec S1600000 32) (main_arg2 : IVec S1600000 32) (main_arg3 : FVec F S1600000x1 .f32) (main_arg4 : FVec F S100000x1 .f32) (main_arg5 : FVec F S48x128 .f32) (main_arg6 : FVec F S128 .f32) (main_arg7 : FVec F S128x128 .f32) (main_arg8 : FVec F S128 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S1600000x1 .f32 := Host.absf main_arg3
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S48x128 .f32 := Host.absf main_arg5
  let main_cst_4 : FVec F S_ .f32 := constant S_ .f32 0x7F800000#32
  let main_v15 : FVec F S48x128 .f32 := broadcastInDim S48x128 ![] bcast_S_S48x128 main_cst_4
  let main_v16 : IVec S48x128 1 := cmpf .olt main_v14 main_v15
  fn_part1 (F := F) main_arg1 main_arg6 main_arg7 main_arg8 main_v13 main_v16
-- ==== Kernel.lean ====
abbrev S100000x48 : Shape := ⟨2, ![100000, 48]⟩
abbrev S1600000 : Shape := ⟨1, ![1600000]⟩
abbrev S1600000x1 : Shape := ⟨2, ![1600000, 1]⟩
abbrev S100000x1 : Shape := ⟨2, ![100000, 1]⟩
abbrev S48x128 : Shape := ⟨2, ![48, 128]⟩
abbrev S128 : Shape := ⟨1, ![128]⟩
abbrev S128x128 : Shape := ⟨2, ![128, 128]⟩
abbrev S100000 : Shape := ⟨1, ![100000]⟩
abbrev S_ : Shape := ⟨0, ![]⟩
abbrev S1600512 : Shape := ⟨1, ![1600512]⟩
abbrev S100352 : Shape := ⟨1, ![100352]⟩
abbrev S100352x48 : Shape := ⟨2, ![100352, 48]⟩
abbrev S1600512x48 : Shape := ⟨2, ![1600512, 48]⟩
abbrev S3072 : Shape := ⟨1, ![3072]⟩
abbrev S2048x48 : Shape := ⟨2, ![2048, 48]⟩
abbrev S3072x48 : Shape := ⟨2, ![3072, 48]⟩
abbrev S3072x1 : Shape := ⟨2, ![3072, 1]⟩
abbrev S1x2048 : Shape := ⟨2, ![1, 2048]⟩
abbrev S3072x2048 : Shape := ⟨2, ![3072, 2048]⟩
abbrev S2048 : Shape := ⟨1, ![2048]⟩
abbrev S1x3072 : Shape := ⟨2, ![1, 3072]⟩
abbrev S2048x1 : Shape := ⟨2, ![2048, 1]⟩
abbrev S2048x3072 : Shape := ⟨2, ![2048, 3072]⟩
abbrev S100000x128 : Shape := ⟨2, ![100000, 128]⟩
abbrev S2000x48 : Shape := ⟨2, ![2000, 48]⟩
abbrev S2000x128 : Shape := ⟨2, ![2000, 128]⟩
abbrev S1x128 : Shape := ⟨2, ![1, 128]⟩

abbrev nBuf : Space → Nat
  | .hbm => 38
  | .vmem => 44
  | .smem => 0
  | _ => 0

abbrev bufTy : (tb : Table) → Fin (tcTables nBuf tb) → BufTy
  | .hbm, ⟨0, _⟩ => ⟨S100000x48, .f32⟩
  | .hbm, ⟨1, _⟩ => ⟨S1600000, .i32⟩
  | .hbm, ⟨2, _⟩ => ⟨S1600000, .i32⟩
  | .hbm, ⟨3, _⟩ => ⟨S1600000x1, .f32⟩
  | .hbm, ⟨4, _⟩ => ⟨S100000x1, .f32⟩
  | .hbm, ⟨5, _⟩ => ⟨S48x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000, .f32⟩
  | .hbm, ⟨10, _⟩ => ⟨S100000, .f32⟩
  | .hbm, ⟨11, _⟩ => ⟨S_, .i32⟩
  | .hbm, ⟨12, _⟩ => ⟨S_, .i32⟩
  | .hbm, ⟨13, _⟩ => ⟨S1600512, .i32⟩
  | .hbm, ⟨14, _⟩ => ⟨S_, .i32⟩
  | .hbm, ⟨15, _⟩ => ⟨S_, .i32⟩
  | .hbm, ⟨16, _⟩ => ⟨S1600512, .i32⟩
  | .hbm, ⟨17, _⟩ => ⟨S_, .i32⟩
  | .hbm, ⟨18, _⟩ => ⟨S_, .f32⟩
  | .hbm, ⟨19, _⟩ => ⟨S1600512, .f32⟩
  | .hbm, ⟨20, _⟩ => ⟨S_, .i32⟩
  | .hbm, ⟨21, _⟩ => ⟨S_, .f32⟩
  | .hbm, ⟨22, _⟩ => ⟨S100352, .f32⟩
  | .hbm, ⟨23, _⟩ => ⟨S_, .i32⟩
  | .hbm, ⟨24, _⟩ => ⟨S_, .f32⟩
  | .hbm, ⟨25, _⟩ => ⟨S100352x48, .f32⟩
  | .hbm, ⟨26, _⟩ => ⟨S100352x48, .bf16⟩
  | .hbm, ⟨27, _⟩ => ⟨S1600512x48, .bf16⟩
  | .hbm, ⟨28, _⟩ => ⟨S100352x48, .f32⟩
  | .hbm, ⟨29, _⟩ => ⟨S100000x48, .f32⟩
  | .hbm, ⟨30, _⟩ => ⟨S_, .i32⟩
  | .hbm, ⟨31, _⟩ => ⟨S_, .f32⟩
  | .hbm, ⟨32, _⟩ => ⟨S100352x48, .f32⟩
  | .hbm, ⟨33, _⟩ => ⟨S100352x48, .bf16⟩
  | .hbm, ⟨34, _⟩ => ⟨S1600512x48, .bf16⟩
  | .hbm, ⟨35, _⟩ => ⟨S100352x48, .f32⟩
  | .hbm, ⟨36, _⟩ => ⟨S100000x48, .f32⟩
  | .hbm, ⟨37, _⟩ => ⟨S100000x128, .f32⟩
  | .local _ .vmem, ⟨0, _⟩ => ⟨S3072, .i32⟩
  | .local _ .vmem, ⟨1, _⟩ => ⟨S3072, .i32⟩
  | .local _ .vmem, ⟨2, _⟩ => ⟨S3072, .f32⟩
  | .local _ .vmem, ⟨3, _⟩ => ⟨S3072, .f32⟩
  | .local _ .vmem, ⟨4, _⟩ => ⟨S2048x48, .bf16⟩
  | .local _ .vmem, ⟨5, _⟩ => ⟨S2048x48, .bf16⟩
  | .local _ .vmem, ⟨6, _⟩ => ⟨S3072x48, .bf16⟩
  | .local _ .vmem, ⟨7, _⟩ => ⟨S3072x48, .bf16⟩
  | .local _ .vmem, ⟨8, _⟩ => ⟨S3072x48, .f32⟩
  | .local _ .vmem, ⟨9, _⟩ => ⟨S3072, .i32⟩
  | .local _ .vmem, ⟨10, _⟩ => ⟨S3072, .i32⟩
  | .local _ .vmem, ⟨11, _⟩ => ⟨S3072x48, .bf16⟩
  | .local _ .vmem, ⟨12, _⟩ => ⟨S3072x48, .bf16⟩
  | .local _ .vmem, ⟨13, _⟩ => ⟨S2048, .f32⟩
  | .local _ .vmem, ⟨14, _⟩ => ⟨S2048, .f32⟩
  | .local _ .vmem, ⟨15, _⟩ => ⟨S2048x48, .f32⟩
  | .local _ .vmem, ⟨16, _⟩ => ⟨S2048x48, .f32⟩
  | .local _ .vmem, ⟨17, _⟩ => ⟨S2048x48, .f32⟩
  | .local _ .vmem, ⟨18, _⟩ => ⟨S3072, .i32⟩
  | .local _ .vmem, ⟨19, _⟩ => ⟨S3072, .i32⟩
  | .local _ .vmem, ⟨20, _⟩ => ⟨S3072, .f32⟩
  | .local _ .vmem, ⟨21, _⟩ => ⟨S3072, .f32⟩
  | .local _ .vmem, ⟨22, _⟩ => ⟨S2048x48, .bf16⟩
  | .local _ .vmem, ⟨23, _⟩ => ⟨S2048x48, .bf16⟩
  | .local _ .vmem, ⟨24, _⟩ => ⟨S3072x48, .bf16⟩
  | .local _ .vmem, ⟨25, _⟩ => ⟨S3072x48, .bf16⟩
  | .local _ .vmem, ⟨26, _⟩ => ⟨S3072x48, .f32⟩
  | .local _ .vmem, ⟨27, _⟩ => ⟨S3072, .i32⟩
  | .local _ .vmem, ⟨28, _⟩ => ⟨S3072, .i32⟩
  | .local _ .vmem, ⟨29, _⟩ => ⟨S3072x48, .bf16⟩
  | .local _ .vmem, ⟨30, _⟩ => ⟨S3072x48, .bf16⟩
  | .local _ .vmem, ⟨31, _⟩ => ⟨S2048, .f32⟩
  | .local _ .vmem, ⟨32, _⟩ => ⟨S2048, .f32⟩
  | .local _ .vmem, ⟨33, _⟩ => ⟨S2048x48, .f32⟩
  | .local _ .vmem, ⟨34, _⟩ => ⟨S2048x48, .f32⟩
  | .local _ .vmem, ⟨35, _⟩ => ⟨S2048x48, .f32⟩
  | .local _ .vmem, ⟨36, _⟩ => ⟨S2000x48, .f32⟩
  | .local _ .vmem, ⟨37, _⟩ => ⟨S2000x48, .f32⟩
  | .local _ .vmem, ⟨38, _⟩ => ⟨S48x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_c_2 : Ref sig .tc := ⟨.hbm, 20, rfl⟩
abbrev main_call3_v0 : Ref sig .tc := ⟨.hbm, 21, rfl⟩
abbrev main_v5 : Ref sig .tc := ⟨.hbm, 22, rfl⟩
abbrev main_c_3 : Ref sig .tc := ⟨.hbm, 23, rfl⟩
abbrev main_call4_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_call5_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨2, ![521, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3072 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x48 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x48 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 521], ![false, false]⟩

def k1_cond2 (i : grid1.Coords) : BitVec 1 :=
  let arg1 : BitVec 32 := BitVec.ofNat 32 (i 1).val
  let c520_i32 : BitVec 32 := 520#32
  let v24 : BitVec 1 := Scalar.cmpi .eq arg1 c520_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S3072 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3072x48 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![521, 49], ![false, false]⟩

def k2_cond2 (i : grid2.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S3072 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S3072 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x48 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S3072x48 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![49, 521], ![false, false]⟩

def k3_cond2 (i : grid3.Coords) : BitVec 1 :=
  let arg1 : BitVec 32 := BitVec.ofNat 32 (i 1).val
  let c520_i32 : BitVec 32 := 520#32
  let v24 : BitVec 1 := Scalar.cmpi .eq arg1 c520_i32
  let v25 : BitVec 32 := Scalar.extui v24
  let c0_i32_7 : BitVec 32 := 0#32
  let v26 : BitVec 1 := Scalar.cmpi .ne v25 c0_i32_7
  v26

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S3072 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S3072x48 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x48 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x48 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S48x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S1600000x1_S1600000 : S1600000x1.ShapeCasts S1600000
  shapeCasts_S100000x1_S100000 : S100000x1.ShapeCasts S100000
  pads_S1600000_S1600512_05120 : S1600000.Pads (![0] : Fin 1 → Nat) ![512] ![0] S1600512
  h_S_ : 0 < S_.numel
  pads_S100000_S100352_03520 : S100000.Pads (![0] : Fin 1 → Nat) ![352] ![0] S100352
  pads_S100000x48_S100352x48_03520_000 : S100000x48.Pads (![0, 0] : Fin 2 → Nat) ![352, 0] ![0, 0] S100352x48
  bitsLt_bf16_f32 : FTy.bits .bf16 < FTy.bits .f32
  inb_S3072x48_S3072x48_0_0 : ∀ a, (![0, 0] : Fin 2 → Nat) a + S3072x48.size a ≤ S3072x48.size a
  h_S3072x48 : 0 < S3072x48.numel
  shapeCasts_S3072x48_S3072x48 : S3072x48.ShapeCasts S3072x48
  inb_S3072_S3072_0 : ∀ a, (![0] : Fin 1 → Nat) a + S3072.size a ≤ S3072.size a
  h_S3072 : 0 < S3072.numel
  shapeCasts_S3072_S3072 : S3072.ShapeCasts S3072
  shapeCasts_S3072_S3072x1 : S3072.ShapeCasts S3072x1
  iota_S1x2048_d1_w32 : S1x2048.Iotas .tc 32 [1]
  broadcasts_S3072x1_S3072x2048 : S3072x1.Broadcasts S3072x2048
  broadcasts_S1x2048_S3072x2048 : S1x2048.Broadcasts S3072x2048
  natLt_1_32 : 1 < 32
  inb_S2048x48_S2048x48_0_0 : ∀ a, (![0, 0] : Fin 2 → Nat) a + S2048x48.size a ≤ S2048x48.size a
  h_S2048x48 : 0 < S2048x48.numel
  shapeCasts_S2048x48_S2048x48 : S2048x48.ShapeCasts S2048x48
  broadcasts_S3072x1_S3072x48 : S3072x1.Broadcasts S3072x48
  packedbf16_S3072x48_S3072x48_0_0 : (Rect.unit (s := S3072x48) ![0, 0] S3072x48.size inb_S3072x48_S3072x48_0_0).PackedRows (EltTy.packing .bf16)
  shapeCasts_S3072_S1x3072 : S3072.ShapeCasts S1x3072
  iota_S2048x1_d0_w32 : S2048x1.Iotas .tc 32 [0]
  broadcasts_S2048x1_S2048x3072 : S2048x1.Broadcasts S2048x3072
  broadcasts_S1x3072_S2048x3072 : S1x3072.Broadcasts S2048x3072
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x48 : S2048x1.Broadcasts S2048x48
  slices_S100352x48_S100000x48_0_0 : S100352x48.Slices ![0, 0] S100000x48
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  inb_S48x128_S48x128_0_0 : ∀ a, (![0, 0] : Fin 2 → Nat) a + S48x128.size a ≤ S48x128.size a
  h_S48x128 : 0 < S48x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  dot_S3072x2048_S2048x48_S3072x48_1_0_0_1_n_n_wf : DotDims.WF S3072x2048 S2048x48 S3072x48 [1] [0] [0] [1] [] []
  dot_S2048x3072_S3072x48_S2048x48_1_0_0_1_n_n_wf : DotDims.WF S2048x3072 S3072x48 S2048x48 [1] [0] [0] [1] [] []
  dot_S2000x48_S48x128_S2000x128_1_0_0_1_n_n_wf : DotDims.WF S2000x48 S48x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072.size a ≤ S1600512.size a
  hwx0_0 : ∀ i : grid0.Coords, EltTy.bits .i32 = 32 ∨ (Rect.block (s := S1600512) S3072.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072.size a ≤ S1600512.size a
  hwx0_1 : ∀ i : grid0.Coords, EltTy.bits .f32 = 32 ∨ (Rect.block (s := S1600512) S3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x48.size a ≤ S100352x48.size a
  hwx0_2 : ∀ i : grid0.Coords, EltTy.bits .bf16 = 32 ∨ (Rect.block (s := S100352x48) S2048x48.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x48.size a ≤ S1600512x48.size a
  hwx0_3 : ∀ i : grid0.Coords, EltTy.bits .bf16 = 32 ∨ (Rect.block (s := S1600512x48) S3072x48.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3072.size a ≤ S1600512.size a
  hwx1_0 : ∀ i : grid1.Coords, EltTy.bits .i32 = 32 ∨ (Rect.block (s := S1600512) S3072.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3072x48.size a ≤ S1600512x48.size a
  hwx1_1 : ∀ i : grid1.Coords, EltTy.bits .bf16 = 32 ∨ (Rect.block (s := S1600512x48) S3072x48.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S100352.size a
  hwx1_2 : ∀ i : grid1.Coords, EltTy.bits .f32 = 32 ∨ (Rect.block (s := S100352) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x48.size a ≤ S100352x48.size a
  hwx1_3 : ∀ i : grid1.Coords, EltTy.bits .f32 = 32 ∨ (Rect.block (s := S100352x48) S2048x48.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3072.size a ≤ S1600512.size a
  hwx2_0 : ∀ i : grid2.Coords, EltTy.bits .i32 = 32 ∨ (Rect.block (s := S1600512) S3072.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3072.size a ≤ S1600512.size a
  hwx2_1 : ∀ i : grid2.Coords, EltTy.bits .f32 = 32 ∨ (Rect.block (s := S1600512) S3072.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x48.size a ≤ S100352x48.size a
  hwx2_2 : ∀ i : grid2.Coords, EltTy.bits .bf16 = 32 ∨ (Rect.block (s := S100352x48) S2048x48.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3072x48.size a ≤ S1600512x48.size a
  hwx2_3 : ∀ i : grid2.Coords, EltTy.bits .bf16 = 32 ∨ (Rect.block (s := S1600512x48) S3072x48.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3072.size a ≤ S1600512.size a
  hwx3_0 : ∀ i : grid3.Coords, EltTy.bits .i32 = 32 ∨ (Rect.block (s := S1600512) S3072.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3072x48.size a ≤ S1600512x48.size a
  hwx3_1 : ∀ i : grid3.Coords, EltTy.bits .bf16 = 32 ∨ (Rect.block (s := S1600512x48) S3072x48.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048.size a ≤ S100352.size a
  hwx3_2 : ∀ i : grid3.Coords, EltTy.bits .f32 = 32 ∨ (Rect.block (s := S100352) S2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x48.size a ≤ S100352x48.size a
  hwx3_3 : ∀ i : grid3.Coords, EltTy.bits .f32 = 32 ∨ (Rect.block (s := S100352x48) S2048x48.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x48.size a ≤ S100000x48.size a
  hwx4_0 : ∀ i : grid4.Coords, EltTy.bits .f32 = 32 ∨ (Rect.block (s := S100000x48) S2000x48.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S48x128.size a ≤ S48x128.size a
  hwx4_1 : ∀ i : grid4.Coords, EltTy.bits .f32 = 32 ∨ (Rect.block (s := S48x128) S48x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)

variable [Facts₀]

def dot_S3072x2048_S2048x48_S3072x48_1_0_0_1_n_n : DotDims S3072x2048 S2048x48 S3072x48 where
  lhsContracting := [1]
  rhsContracting := [0]
  lhsNonContracting := [0]
  rhsNonContracting := [1]
  lhsBatch := []
  rhsBatch := []
  wf := dot_S3072x2048_S2048x48_S3072x48_1_0_0_1_n_n_wf
def dot_S2048x3072_S3072x48_S2048x48_1_0_0_1_n_n : DotDims S2048x3072 S3072x48 S2048x48 where
  lhsContracting := [1]
  rhsContracting := [0]
  lhsNonContracting := [0]
  rhsNonContracting := [1]
  lhsBatch := []
  rhsBatch := []
  wf := dot_S2048x3072_S3072x48_S2048x48_1_0_0_1_n_n_wf
def dot_S2000x48_S48x128_S2000x128_1_0_0_1_n_n : DotDims S2000x48 S48x128 S2000x128 where
  lhsContracting := [1]
  rhsContracting := [0]
  lhsNonContracting := [0]
  rhsNonContracting := [1]
  lhsBatch := []
  rhsBatch := []
  wf := dot_S2000x48_S48x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v2) S3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S3072x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S3072x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S3072.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2048x48.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S3072x48.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v3) S3072.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S3072x48.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S2048x48.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v15) S2000x48.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S48x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x48 : Shape := ⟨2, ![100000, 48]⟩
abbrev S1600000 : Shape := ⟨1, ![1600000]⟩
abbrev S1600000x1 : Shape := ⟨2, ![1600000, 1]⟩
abbrev S100000x1 : Shape := ⟨2, ![100000, 1]⟩
abbrev S48x128 : Shape := ⟨2, ![48, 128]⟩
abbrev S128 : Shape := ⟨1, ![128]⟩
abbrev S128x128 : Shape := ⟨2, ![128, 128]⟩
abbrev S_ : Shape := ⟨0, ![]⟩
abbrev S1600000x48 : Shape := ⟨2, ![1600000, 48]⟩
abbrev S100000x128 : Shape := ⟨2, ![100000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S1600000, .i32⟩
  | .hbm, ⟨2, _⟩ => ⟨S1600000, .i32⟩
  | .hbm, ⟨3, _⟩ => ⟨S1600000x1, .f32⟩
  | .hbm, ⟨4, _⟩ => ⟨S100000x1, .f32⟩
  | .hbm, ⟨5, _⟩ => ⟨S48x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x48, .f32⟩
  | .hbm, ⟨18, _⟩ => ⟨S1600000x48, .f32⟩
  | .hbm, ⟨19, _⟩ => ⟨S1600000x48, .f32⟩
  | .hbm, ⟨20, _⟩ => ⟨S_, .f32⟩
  | .hbm, ⟨21, _⟩ => ⟨S100000x48, .f32⟩
  | .hbm, ⟨22, _⟩ => ⟨S1600000x1, .i32⟩
  | .hbm, ⟨23, _⟩ => ⟨S100000x48, .f32⟩
  | .hbm, ⟨24, _⟩ => ⟨S100000x48, .f32⟩
  | .hbm, ⟨25, _⟩ => ⟨S100000x48, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x48, .f32⟩
  | .hbm, ⟨35, _⟩ => ⟨S1600000x48, .f32⟩
  | .hbm, ⟨36, _⟩ => ⟨S1600000x48, .f32⟩
  | .hbm, ⟨37, _⟩ => ⟨S_, .f32⟩
  | .hbm, ⟨38, _⟩ => ⟨S100000x48, .f32⟩
  | .hbm, ⟨39, _⟩ => ⟨S1600000x1, .i32⟩
  | .hbm, ⟨40, _⟩ => ⟨S100000x48, .f32⟩
  | .hbm, ⟨41, _⟩ => ⟨S100000x48, .f32⟩
  | .hbm, ⟨42, _⟩ => ⟨S100000x48, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S100000x1_S100000x48_0_1 : S100000x1.BroadcastsInDim S100000x48 (![0, 1] : Fin 2 → Fin S100000x48.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x128_S100000x128_1_0_0_1_n_n_wf : DotDims.WF S100000x48 S48x128 S100000x128 [1] [0] [0] [1] [] []
  dot_S100000x128_S128x128_S100000x128_1_0_0_1_n_n_wf : DotDims.WF S100000x128 S128x128 S100000x128 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KB.Sched.lean ====
import proofs.«407864_j23167053595206_1_alg».proof.Proof.Gen.Kernel.Launch
import Idealize.ShloMosaic.Lib.Pipeline.Kit
import Idealize.ShloMosaic.Lib.Pipeline.Cells

noncomputable section

namespace Cert.Kernel.Hand

open Cert.Kernel Cert.Kernel.Gen
open Idealize.ShloMosaic Idealize.ShloMosaic.TcCoe
open Idealize.SL Idealize.SL.Sem

variable {F : FTy → Type} [FloatOps F]

theorem transform0_3 (i : grid0.Coords) : cc0_transform_3 i = ![(i 0).val, 0] := by
  have h : (BitVec.ofNat 32 (i 0).val).toNat = (i 0).val := by
    rw [BitVec.toNat_ofNat]; exact Nat.mod_eq_of_lt (Nat.lt_trans (i 0).isLt (by decide : 521 < 2 ^ 32))
  show ![(BitVec.ofNat 32 (i 0).val).toNat, (0#32).toNat] = ![(i 0).val, 0]
  rw [h]
  try rfl

theorem coords0_fst (t : Fin grid0.N) : ((grid0.coords t) 0).val = t.val / 49 % 521 := by
  have hs : grid0.stride 0 = 49 := by decide
  show t.val / grid0.stride 0 % 521 = t.val / 49 % 521
  rw [hs]

theorem index0_3 (t : Fin grid0.N) : win0_3.index t = ![t.val / 49 % 521, 0] := by
  show cc0_transform_3 (grid0.coords t) = _
  rw [transform0_3, coords0_fst]

theorem flush0_3 : ∀ t : Fin cfg0.N, (cfg0.win 3).flush t = true ↔ t.val % 49 = 48 := fun t => by
  have hN : grid0.N = 25529 := N_0
  have ht : t.val < grid0.N := t.isLt
  show win0_3.flush t = true ↔ t.val % 49 = 48
  refine (win0_3.flush_out rfl t).trans ⟨?_, fun h => ?_⟩
  · rintro (h | ⟨h, hne⟩)
    · omega
    · rw [index0_3, index0_3] at hne
      by_contra hc
      exact hne (congrArg (fun a => ![a, 0]) (by show (t.val + 1) / 49 % 521 = t.val / 49 % 521; omega))
  · by_cases hl : t.val + 1 = grid0.N
    · exact .inl hl
    · refine .inr ⟨by omega, fun he => ?_⟩
      rw [index0_3, index0_3] at he
      have h0 : (t.val + 1) / 49 % 521 = t.val / 49 % 521 := congrFun he 0
      omega

theorem transform1_3 (i : grid1.Coords) : cc1_transform_3 i = ![(i 0).val, 0] := by
  have h : (BitVec.ofNat 32 (i 0).val).toNat = (i 0).val := by
    rw [BitVec.toNat_ofNat]; exact Nat.mod_eq_of_lt (Nat.lt_trans (i 0).isLt (by decide : 49 < 2 ^ 32))
  show ![(BitVec.ofNat 32 (i 0).val).toNat, (0#32).toNat] = ![(i 0).val, 0]
  rw [h]
  try rfl

theorem coords1_fst (t : Fin grid1.N) : ((grid1.coords t) 0).val = t.val / 521 % 49 := by
  have hs : grid1.stride 0 = 521 := by decide
  show t.val / grid1.stride 0 % 49 = t.val / 521 % 49
  rw [hs]

theorem index1_3 (t : Fin grid1.N) : win1_3.index t = ![t.val / 521 % 49, 0] := by
  show cc1_transform_3 (grid1.coords t) = _
  rw [transform1_3, coords1_fst]

theorem flush1_3 : ∀ t : Fin cfg1.N, (cfg1.win 3).flush t = true ↔ t.val % 521 = 520 := fun t => by
  have hN : grid1.N = 25529 := N_1
  have ht : t.val < grid1.N := t.isLt
  show win1_3.flush t = true ↔ t.val % 521 = 520
  refine (win1_3.flush_out rfl t).trans ⟨?_, fun h => ?_⟩
  · rintro (h | ⟨h, hne⟩)
    · omega
    · rw [index1_3, index1_3] at hne
      by_contra hc
      exact hne (congrArg (fun a => ![a, 0]) (by show (t.val + 1) / 521 % 49 = t.val / 521 % 49; omega))
  · by_cases hl : t.val + 1 = grid1.N
    · exact .inl hl
    · refine .inr ⟨by omega, fun he => ?_⟩
      rw [index1_3, index1_3] at he
      have h0 : (t.val + 1) / 521 % 49 = t.val / 521 % 49 := congrFun he 0
      omega

theorem transform2_3 (i : grid2.Coords) : cc2_transform_3 i = ![(i 0).val, 0] := by
  have h : (BitVec.ofNat 32 (i 0).val).toNat = (i 0).val := by
    rw [BitVec.toNat_ofNat]; exact Nat.mod_eq_of_lt (Nat.lt_trans (i 0).isLt (by decide : 521 < 2 ^ 32))
  show ![(BitVec.ofNat 32 (i 0).val).toNat, (0#32).toNat] = ![(i 0).val, 0]
  rw [h]
  try rfl

theorem coords2_fst (t : Fin grid2.N) : ((grid2.coords t) 0).val = t.val / 49 % 521 := by
  have hs : grid2.stride 0 = 49 := by decide
  show t.val / grid2.stride 0 % 521 = t.val / 49 % 521
  rw [hs]

theorem index2_3 (t : Fin grid2.N) : win2_3.index t = ![t.val / 49 % 521, 0] := by
  show cc2_transform_3 (grid2.coords t) = _
  rw [transform2_3, coords2_fst]

theorem flush2_3 : ∀ t : Fin cfg2.N, (cfg2.win 3).flush t = true ↔ t.val % 49 = 48 := fun t => by
  have hN : grid2.N = 25529 := N_2
  have ht : t.val < grid2.N := t.isLt
  show win2_3.flush t = true ↔ t.val % 49 = 48
  refine (win2_3.flush_out rfl t).trans ⟨?_, fun h => ?_⟩
  · rintro (h | ⟨h, hne⟩)
    · omega
    · rw [index2_3, index2_3] at hne
      by_contra hc
      exact hne (congrArg (fun a => ![a, 0]) (by show (t.val + 1) / 49 % 521 = t.val / 49 % 521; omega))
  · by_cases hl : t.val + 1 = grid2.N
    · exact .inl hl
    · refine .inr ⟨by omega, fun he => ?_⟩
      rw [index2_3, index2_3] at he
      have h0 : (t.val + 1) / 49 % 521 = t.val / 49 % 521 := congrFun he 0
      omega

theorem transform3_3 (i : grid3.Coords) : cc3_transform_3 i = ![(i 0).val, 0] := by
  have h : (BitVec.ofNat 32 (i 0).val).toNat = (i 0).val := by
    rw [BitVec.toNat_ofNat]; exact Nat.mod_eq_of_lt (Nat.lt_trans (i 0).isLt (by decide : 49 < 2 ^ 32))
  show ![(BitVec.ofNat 32 (i 0).val).toNat, (0#32).toNat] = ![(i 0).val, 0]
  rw [h]
  try rfl

theorem coords3_fst (t : Fin grid3.N) : ((grid3.coords t) 0).val = t.val / 521 % 49 := by
  have hs : grid3.stride 0 = 521 := by decide
  show t.val / grid3.stride 0 % 49 = t.val / 521 % 49
  rw [hs]

theorem index3_3 (t : Fin grid3.N) : win3_3.index t = ![t.val / 521 % 49, 0] := by
  show cc3_transform_3 (grid3.coords t) = _
  rw [transform3_3, coords3_fst]

theorem flush3_3 : ∀ t : Fin cfg3.N, (cfg3.win 3).flush t = true ↔ t.val % 521 = 520 := fun t => by
  have hN : grid3.N = 25529 := N_3
  have ht : t.val < grid3.N := t.isLt
  show win3_3.flush t = true ↔ t.val % 521 = 520
  refine (win3_3.flush_out rfl t).trans ⟨?_, fun h => ?_⟩
  · rintro (h | ⟨h, hne⟩)
    · omega
    · rw [index3_3, index3_3] at hne
      by_contra hc
      exact hne (congrArg (fun a => ![a, 0]) (by show (t.val + 1) / 521 % 49 = t.val / 521 % 49; omega))
  · by_cases hl : t.val + 1 = grid3.N
    · exact .inl hl
    · refine .inr ⟨by omega, fun he => ?_⟩
      rw [index3_3, index3_3] at he
      have h0 : (t.val + 1) / 521 % 49 = t.val / 521 % 49 := congrFun he 0
      omega

theorem flush4_5 : ∀ t : Fin cfg4.N, (cfg4.win 5).flush t = true :=
  (by decide +kernel : ∀ t : Fin grid4.N, win4_5.flush t = true)

abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev st4_4 (t : Fin cfg4.N) := (cfg4.win 4).stage (cfg4.slots t 4)
abbrev st4_5 (t : Fin cfg4.N) := (cfg4.win 5).stage (cfg4.slots t 5)

abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (Memref.whole cc3_scratch0) (Memref.isWhole_whole _)

abbrev bodyAt4 (t : Fin cfg4.N) : Prog (TpuEff nD τ sig (Elt F) Λ₀ .tc) PUnit :=
  cc4__mlp_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5))

end Cert.Kernel.Hand

end
-- ==== Proof.KB.G0.Runs.lean ====
import proofs.«407864_j23167053595206_1_alg».proof.Proof.Gen.Kernel.Launch
import proofs.«407864_j23167053595206_1_alg».proof.Proof.Gen.Kernel.Skeleton
import proofs.«407864_j23167053595206_1_alg».proof.Proof.KB.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coords0_1 (t : Fin grid0.N) : ((grid0.coords t) 1).val = t.val % 49 := by
  have h : grid0.stride 1 = 1 := by decide
  show t.val / grid0.stride 1 % grid0.bound 1 = t.val % 49
  rw [h, Nat.div_one]; rfl

abbrev cond0_0 (i : grid0.Coords) : Prop := (Scalar.cmpi .ne (Scalar.extui (Scalar.cmpi .eq (BitVec.ofNat 32 (i 1).val) 0#32)) 0#32) = 1#1

theorem cond0_0_iff (i : grid0.Coords) : cond0_0 i ↔ (i 1).val = 0 :=
  (by decide +kernel : ∀ j : Fin 49, (Scalar.cmpi .ne (Scalar.extui (Scalar.cmpi .eq (BitVec.ofNat 32 j.val) 0#32)) 0#32) = 1#1 ↔ j.val = 0) (i 1)

theorem hcond0_0 : ∀ t : Fin cfg0.N, cond0_0 (grid0.coords t) ↔ t.val % 49 = 0 := fun t =>
  (cond0_0_iff (grid0.coords t)).trans (by rw [coords0_1 t])

abbrev cond0_1 (i : grid0.Coords) : Prop := k0_cond2 i = 1#1

theorem cond0_1_iff (i : grid0.Coords) : cond0_1 i ↔ (i 1).val = 48 :=
  (by decide +kernel : ∀ j : Fin 49, (Scalar.cmpi .ne (Scalar.extui (Scalar.cmpi .eq (BitVec.ofNat 32 j.val) 48#32)) 0#32) = 1#1 ↔ j.val = 48) (i 1)

theorem hcond0_1 : ∀ t : Fin cfg0.N, cond0_1 (grid0.coords t) ↔ t.val % 49 = 48 := fun t =>
  (cond0_1_iff (grid0.coords t)).trans (by rw [coords0_1 t])

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idle0_3_iff (i : grid0.Coords) : cfg0.idle 3 i = true ↔ ¬cond0_1 i := by
  show (!(k0_cond2 i == 1#1)) = true ↔ ¬(k0_cond2 i = 1#1)
  rw [Bool.not_eq_true', beq_eq_false_iff_ne]

theorem liveAt0_3_C : ∀ t : Fin cfg0.N, ¬cond0_0 (grid0.coords t) → cond0_1 (grid0.coords t) → cfg0.idle 3 (grid0.coords t) = false :=
  fun t _ h => Bool.eq_false_iff.2 fun hi => (idle0_3_iff _).1 hi h

theorem noFlush0_3_of : ∀ t : Fin cfg0.N, ¬cond0_1 (grid0.coords t) → (cfg0.win 3).flush t = false :=
  fun t h => Bool.eq_false_iff.2 fun hf => h ((hcond0_1 t).2 ((flush0_3 t).1 hf))
abbrev VO0_3 : View sig .tc .vmem S3072x48 .bf16 := (Memref.whole cc0_stg3_0 : Memref sig .tc .vmem S3072x48 .bf16).view

abbrev ms0_0 (t : Fin cfg0.N) : Memref sig .tc .vmem S3072 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x48 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x48 .bf16 := win0_3.stage (cfg0.slots t 3)
abbrev hs0_3 (t : Fin cfg0.N) : (ms0_3 t).IsWhole := hstage0_3 ((cfg0.slots t 3).cast nbuf0_3)

abbrev scM0_0 : Memref sig .tc .vmem S3072x48 .f32 := Memref.whole cc0_scratch0

abbrev VS0_0 : View sig .tc .vmem S3072x48 .f32 := scM0_0.view

theorem PhiA0_eq (c : Dev nD) :
    (Pipeline.ΦA spec0 c : sProp 𝕄)
      = iprop(iprop((∃ d, owns (c : Thread nD τ) scM0_0 fullShare d)
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

end Cert.Kernel.Hand

end
-- ==== Proof.LibOwns.lean ====
import Idealize.ShloMosaic.Lib.Pipeline.FrameBody

noncomputable section

namespace Cert.Lib

open Idealize.ShloMosaic Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A buffer left by writes that cover its shape is owned at what any view reads after the same writes. -/
theorem owns_of_writes (c : Thread nD τ) {sp : Space} {s : Shape} {e : EltTy} (m : Memref sig c.2.kind sp s e) (q : PosShare TreeShare)
    {sig' : RefSig} {κ' : Kind} {sp' : Space} (v' : View sig' κ' sp' s e) (f' : v'.ty.Contents Val) {L : List (View.Piece Val s e)}
    (h : ∀ y, ∃ p ∈ L, y ∈ p.1.set) :
    (iprop(∃ f, m.view.loc c ↦[m.view.set]{q} m.view.writes Val f L) : sProp 𝕄) ⊢ owns c m q (v'.read Val (v'.writes Val f' L)) := by
  unfold owns
  iintro ⟨%f, H⟩
  iexists m.view.writes Val f L; isplitr
  · ipureintro; exact View.read_writes_of_cover _ _ _ _ _ h
  · iexact H

/-- Owning a whole memref at contents `X` is its points-to at the raw contents that read `X`. -/
theorem owns_eq_unread (c : Thread nD τ) {sp : Space} {s : Shape} {e : EltTy} {m : Memref sig c.2.kind sp s e} (h : m.IsWhole)
    (q : PosShare TreeShare) (X : s.Idx → Val e) : (owns c m q X : sProp 𝕄) = (m.view.loc c ↦[m.view.set]{q} h.unread X) := by
  have h₁ : (owns c m q X : sProp 𝕄) ⊢ (m.view.loc c ↦[m.view.set]{q} h.unread X) := by
    unfold owns; iintro ⟨%f, %hf, H⟩; obtain rfl := h.eq_unread hf; iexact H
  have h₂ := owns_intro (Ix := Ix) (Name := Name) (U := U) (Lvl := Lvl) c m q (h.unread X)
  rw [h.read_unread] at h₂
  exact BI.equiv_iff.mp ⟨h₁, h₂⟩

end Cert.Lib

end
-- ==== Proof.KB.G0.RunA.lean ====
import proofs.«407864_j23167053595206_1_alg».proof.Proof.KB.G0.Runs
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

/-- The body run at one point: the three inputs are held throughout, `A ∗ S` goes in, `A'` and the scratch written with `LS0` come out. -/
abbrev kernelRun0_spec (x0 : Vec F S3072 .i32) (x1 : Vec F S3072 .f32) (x2 : Vec F S2048x48 .bf16) (A A' S : sProp 𝕄)
    (LS0 : List (View.Piece (Elt F) S3072x48 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ A ∗ S
        ∗ (iprop(owns (c : Thread nD τ) arg2 fullShare x0 ∗ owns (c : Thread nD τ) arg3 fullShare x1 ∗ owns (c : Thread nD τ) arg4 fullShare x2 ∗ A'
            ∗ (∃ f, arg6.view.loc (c : Thread nD τ) ↦[arg6.view.set]{fullShare} arg6.view.writes (Elt F) f LS0)) -∗ K ⟨⟩))
      ⊢ wp frame (wpE (defs₀ (F := F)) Variants.none c none) E (cc0__gather_kernel i arg2 harg2 arg3 harg3 arg4 harg4 arg5 harg5 arg6 harg6) K

set_option maxHeartbeats 1000000 in

def kernelRun0_A (hc0 : cond0_0 i) (hc1 : ¬cond0_1 i) (x0 : Vec F S3072 .i32) (x1 : Vec F S3072 .f32) (x2 : Vec F S2048x48 .bf16) :
    Σ' (L3 : List (View.Piece (Elt F) S3072x48 .bf16)), { LS0 : List (View.Piece (Elt F) S3072x48 .f32) //
      ∀ xi3 : Vec F S3072x48 .bf16, kernelRun0_spec c i arg2 harg2 arg3 harg3 arg4 harg4 arg5 harg5 arg6 harg6 x0 x1 x2
        (owns (c : Thread nD τ) arg5 fullShare xi3) (owns (c : Thread nD τ) arg5 fullShare xi3) iprop(∃ d, owns (c : Thread nD τ) arg6 fullShare d) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5]
    simp only [cc0__gather_kernel_eq_skeleton]; unfold cc0__gather_kernel_skel owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.Kernel.Hand

end
-- ==== Proof.KB.G0.RunB.lean ====
import proofs.«407864_j23167053595206_1_alg».proof.Proof.KB.G0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun0_B (hc0 : ¬cond0_0 i) (hc1 : ¬cond0_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      ∀ xi3 : Vec F S3072x48 .bf16, kernelRun0_spec c i arg2 harg2 arg3 harg3 arg4 harg4 arg5 harg5 arg6 harg6 x0 x1 x2
        (owns (c : Thread nD τ) arg5 fullShare xi3) (owns (c : Thread nD τ) arg5 fullShare xi3) (owns (c : Thread nD τ) arg6 fullShare xs0) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5, Lib.owns_eq_unread c.tc harg6]
    simp only [cc0__gather_kernel_eq_skeleton]; unfold cc0__gather_kernel_skel
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.KB.G0.RunC.lean ====
import proofs.«407864_j23167053595206_1_alg».proof.Proof.KB.G0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun0_C (hc0 : ¬cond0_0 i) (hc1 : cond0_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      kernelRun0_spec c i arg2 harg2 arg3 harg3 arg4 harg4 arg5 harg5 arg6 harg6 x0 x1 x2 iprop(∃ d, owns (c : Thread nD τ) arg5 fullShare d)
        iprop(∃ f, arg5.view.loc (c : Thread nD τ) ↦[arg5.view.set]{fullShare} arg5.view.writes (Elt F) f L3) (owns (c : Thread nD τ) arg6 fullShare xs0) LS0 } := by
  refine ⟨?_, ?_, fun E K => ?run⟩
  case run =>
    rw [Lib.owns_eq_unread c.tc harg2, Lib.owns_eq_unread c.tc harg3, Lib.owns_eq_unread c.tc harg4, Lib.owns_eq_unread c.tc harg6]
    simp only [cc0__gather_kernel_eq_skeleton]; unfold cc0__gather_kernel_skel owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.LibBody.lean ====
import Idealize.SL.BI
import Idealize.SL.ProofMode

namespace Cert.Lib

open Idealize.SL Idealize.SL.BI
open scoped Idealize.SL.BI
open Idealize.SL.BI.BIBase Idealize.SL.BI.Laws Idealize.SL.ProofMode

/-- A run that borrows three resources, trades a fourth and a scratch, is framed by the rest and weakened at both ends. -/
theorem run_framed {PROP : Type _} [BIClass PROP] {α β β0 β1 β2 : Type _} {W : (α → PROP) → PROP} {a : α}
    {S Sin Sout S' R G O A0 A1 A2 B3 : PROP} {E3 A3 A3' : β → PROP}
    (hrun : ∀ d K, A0 ∗ A1 ∗ A2 ∗ A3 d ∗ Sin ∗ ((A0 ∗ A1 ∗ A2 ∗ A3' d ∗ Sout) -∗ K a) ⊢ W K)
    (hS : S ⊢ Sin) (h3 : ∀ d, E3 d ⊢ A3 d) (hS' : Sout ⊢ S') (h3' : (∃ d, A3' d) ⊢ B3) :
    ((S ∗ R) ∗ G) ∗ O ∗ (∃ _ : β0, A0) ∗ (∃ _ : β1, A1) ∗ (∃ _ : β2, A2) ∗ (∃ d, E3 d)
      ⊢ W (fun _ => iprop(((S' ∗ R) ∗ G) ∗ O ∗ A0 ∗ A1 ∗ A2 ∗ B3)) := by
  iintro ⟨⟨⟨HS, HR⟩, Hg⟩, Ho, ⟨%_, H0⟩, ⟨%_, H1⟩, ⟨%_, H2⟩, ⟨%d, H3⟩⟩
  iapply (hrun d _)
  iframe H0 H1 H2
  isplitl [H3]; · iapply (h3 d); iexact H3
  isplitl [HS]; · iapply hS; iexact HS
  iintro ⟨H0, H1, H2, H3, HS⟩
  iframe HR Hg Ho H0 H1 H2
  isplitl [HS]; · iapply hS'; iexact HS
  iapply h3'; iexists d; iexact H3

end Cert.Lib
-- ==== Proof.KB.G0.Frame.lean ====
import proofs.«407864_j23167053595206_1_alg».proof.Proof.KB.G0.RunC
import proofs.«407864_j23167053595206_1_alg».proof.Proof.KB.Sched
import proofs.«407864_j23167053595206_1_alg».proof.Proof.LibBody
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut0_3 : Vec F S3072x48 .bf16 := VO0_3.read (Elt F) VO0_3.junk

def ptA0 (c : Dev nD) (t : Fin cfg0.N) (h0 : t.val % 49 = 0) (h1 : ¬t.val % 49 = 48) :
    Vec F S3072x48 .bf16 × Vec F S3072x48 .f32 :=
  (idleOut0_3, VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t)
    scM0_0 (Memref.isWhole_whole _)
    ((hcond0_0 t).mpr h0) (mt (hcond0_1 t).mp h1) (iblk0 V c 0 t) (iblk0 V c 1 t) (iblk0 V c 2 t)).2.1))

def ptB0 (c : Dev nD) (t : Fin cfg0.N) (h0 : ¬t.val % 49 = 0) (h1 : ¬t.val % 49 = 48) (xs0 : Vec F S3072x48 .f32) :
    Vec F S3072x48 .bf16 × Vec F S3072x48 .f32 :=
  (idleOut0_3, VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t)
    scM0_0 (Memref.isWhole_whole _)
    (mt (hcond0_0 t).mp h0) (mt (hcond0_1 t).mp h1) (iblk0 V c 0 t) (iblk0 V c 1 t) (iblk0 V c 2 t) xs0).2.1))

def ptC0 (c : Dev nD) (t : Fin cfg0.N) (h0 : ¬t.val % 49 = 0) (h1 : t.val % 49 = 48) (xs0 : Vec F S3072x48 .f32) :
    Vec F S3072x48 .bf16 × Vec F S3072x48 .f32 :=
  let r := kernelRun0_C c (grid0.coords t) (ms0_0 t) (hs0_0 t) (ms0_1 t) (hs0_1 t) (ms0_2 t) (hs0_2 t) (ms0_3 t) (hs0_3 t)
    scM0_0 (Memref.isWhole_whole _)
    (mt (hcond0_0 t).mp h0) ((hcond0_1 t).mpr h1) (iblk0 V c 0 t) (iblk0 V c 1 t) (iblk0 V c 2 t) xs0
  (VO0_3.read (Elt F) (VO0_3.writes (Elt F) VO0_3.junk r.1), VS0_0.read (Elt F) (VS0_0.writes (Elt F) VS0_0.junk r.2.1))

def outsAt0 (c : Dev nD) : (n : ℕ) → n < cfg0.N → Vec F S3072x48 .bf16 × Vec F S3072x48 .f32
  | 0, hn => ptA0 V c ⟨0, hn⟩ (Nat.zero_mod _) (by simp)
  | n + 1, hn =>
    if h0 : (n + 1) % 49 = 0 then
      if h1 : (n + 1) % 49 = 48 then False.elim (by omega)
      else ptA0 V c ⟨n + 1, hn⟩ h0 h1
    else
      if h1 : (n + 1) % 49 = 48 then ptC0 V c ⟨n + 1, hn⟩ h0 h1 (outsAt0 c n (Nat.lt_of_succ_lt hn)).2
      else ptB0 V c ⟨n + 1, hn⟩ h0 h1 (outsAt0 c n (Nat.lt_of_succ_lt hn)).2

theorem outsAt0_A (c : Dev nD) (t : Fin cfg0.N) (h0 : t.val % 49 = 0) (h1 : ¬t.val % 49 = 48) :
    outsAt0 V c t.val t.isLt = ptA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt
      = ptB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 49 = 0) (h1 : t.val % 49 = 48) :
    outsAt0 V c t.val t.isLt
      = ptC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

abbrev PhiS0_at (c : Dev nD) (x : Vec F S3072x48 .f32) : sProp 𝕄 :=
  iprop(iprop(owns (c : Thread nD τ) scM0_0 fullShare x
      ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => PhiS0_at c (outsAt0 V c n hn).2

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = PhiS0_at c (outsAt0 V c n hn).2 := rfl

theorem PhiS0_pos (c : Dev nD) (n : ℕ) (h : n ≤ cfg0.N) (hz : n ≠ 0) :
    PhiS0 V c n h = PhiS0_at c (outsAt0 V c (n - 1) (by omega)).2 := by
  cases n with
  | zero => exact absurd rfl hz
  | succ n => rfl

theorem PhiS0_le (c : Dev nD) (n : ℕ) (h : n ≤ cfg0.N) : PhiS0 V c n h ⊢ Pipeline.ΦA spec0 c := by
  cases n with
  | zero => exact .rfl
  | succ n => rw [PhiS0_succ, PhiA0_eq]; exact sep_mono_left (sep_mono_left (exists_intro _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = (outsAt0 V c t.val t.isLt).1 := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t]; rfl
theorem leaves0_1 (c : Dev nD) (t : Fin cfg0.N) :
    (dat0 V c).leavesExact 1 t = owns (c : Thread nD τ) (ms0_1 t) fullShare (iblk0 V c 1 t) := by
  unfold Dat.leavesExact; rw [liveAt0_1 t]; rfl
theorem leaves0_2 (c : Dev nD) (t : Fin cfg0.N) :
    (dat0 V c).leavesExact 2 t = owns (c : Thread nD τ) (ms0_2 t) fullShare (iblk0 V c 2 t) := by
  unfold Dat.leavesExact; rw [liveAt0_2 t]; rfl

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  have e0 := hcond0_0 t
  have e1 := hcond0_1 t
  by_cases h1 : t.val % 49 = 48
  · have h0 : ¬t.val % 49 = 0 := by omega
    rw [PhiS0_pos V c _ _ fun e => h0 (by rw [e]), show (dat0 V c).leavesExact 3 t = owns (c : Thread nD τ) (ms0_3 t) fullShare ((dat0 V c).after 3 t) from by
      unfold Dat.leavesExact; rw [liveAt0_3_C t (mt e0.mp h0) (e1.mpr h1)], after0_3, outsAt0_C V c t h0 h1]
    unfold ptC0; dsimp only
    exact Lib.run_framed (fun d K => (kernelRun0_C _ _ _ _ _ _ _ _ _ _ _ _ (mt e0.mp h0) (e1.mpr h1) _ _ _ _).2.2 Set.univ K)
      .rfl (fun d => exists_intro _) (Lib.owns_of_writes (c : Thread nD τ) scM0_0 _ VS0_0 _ (View.cover_of_tiledL _ S3072x48.size (by sl_kernel_rfl)))
      (exists_elim fun _ => Lib.owns_of_writes (c : Thread nD τ) (ms0_3 t) _ VO0_3 _ (View.cover_of_tiledL _ S3072x48.size (by sl_kernel_rfl)))
  · have c1 := mt e1.mp h1
    rw [Dat.leavesExact_idle (dat0 V c) 3 t ((idle0_3_iff _).2 c1) (noFlush0_3_of t c1)]
    by_cases h0 : t.val % 49 = 0
    · rw [outsAt0_A V c t h0 h1]
      unfold ptA0; dsimp only
      refine (sep_mono_left ((PhiS0_le V c _ _).trans (.of_eq (PhiA0_eq c)))).trans ?_
      exact Lib.run_framed (fun d K => (kernelRun0_A _ _ _ _ _ _ _ _ _ _ _ _ (e0.mpr h0) c1 _ _ _).2.2 _ Set.univ K)
        .rfl (fun _ => .rfl) (Lib.owns_of_writes (c : Thread nD τ) scM0_0 _ VS0_0 _ (View.cover_of_tiledL _ S3072x48.size (by sl_kernel_rfl))) .rfl
    · rw [PhiS0_pos V c _ _ fun e => h0 (by rw [e]), outsAt0_B V c t h0 h1]
      unfold ptB0; dsimp only
      exact Lib.run_framed (fun d K => (kernelRun0_B _ _ _ _ _ _ _ _ _ _ _ _ (mt e0.mp h0) c1 _ _ _ _).2.2 _ Set.univ K)
        .rfl (fun _ => .rfl) (Lib.owns_of_writes (c : Thread nD τ) scM0_0 _ VS0_0 _ (View.cover_of_tiledL _ S3072x48.size (by sl_kernel_rfl))) .rfl

theorem body_obligation0 (c : Dev nD) :
    BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  PhiS0_le V c (Fin.last cfg0.N).val (Nat.le_of_lt_succ (Fin.last cfg0.N).isLt)

end Cert.Kernel.Hand

end
-- ==== Proof.KB.S1.Runs.lean ====
import proofs.«407864_j23167053595206_1_alg».proof.Proof.Gen.Kernel.Launch
import proofs.«407864_j23167053595206_1_alg».proof.Proof.Gen.Kernel.Skeleton
import proofs.«407864_j23167053595206_1_alg».proof.Proof.KB.Sched
import Idealize.ShloMosaic.Lib.Pipeline.FrameBody
import Idealize.ShloMosaic.Lib.Pipeline.FrameSuffix
import Idealize.ShloMosaic.Lib.Ring
import Idealize.ShloMosaic.Lib.Tactic
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem coords1_snd (t : Fin cfg1.N) : ((grid1.coords t) 1).val = t.val % 521 := by
  have hs : grid1.stride 1 = 1 := by decide
  show t.val / grid1.stride 1 % 521 = t.val % 521
  rw [hs, Nat.div_one]

theorem cond1_0_fin : ∀ j : Fin 521,
    (Scalar.cmpi .ne (Scalar.extui (Scalar.cmpi .eq (BitVec.ofNat 32 j.val) 0#32)) 0#32) = 1#1 ↔ j.val = 0 := by decide +kernel

theorem cond1_1_fin : ∀ j : Fin 521,
    (Scalar.cmpi .ne (Scalar.extui (Scalar.cmpi .eq (BitVec.ofNat 32 j.val) 520#32)) 0#32) = 1#1 ↔ j.val = 520 := by decide +kernel

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 521 = 0 := fun t => by
  rw [← coords1_snd t]; exact cond1_0_fin ((grid1.coords t) 1)

abbrev cond1_1 (i : grid1.Coords) : Prop := k1_cond2 i = 1#1

theorem hcond1_1 : ∀ t : Fin cfg1.N, cond1_1 (grid1.coords t) ↔ t.val % 521 = 520 := fun t => by
  rw [← coords1_snd t]; exact cond1_1_fin ((grid1.coords t) 1)

theorem idle1_3_iff (i : grid1.Coords) : cfg1.idle 3 i = true ↔ ¬cond1_1 i := by
  show (!(k1_cond2 i == 1#1)) = true ↔ ¬(k1_cond2 i = 1#1)
  rw [Bool.not_eq_true', beq_eq_false_iff_ne]

theorem noFlush1_3_of (t : Fin cfg1.N) (h : ¬cond1_1 (grid1.coords t)) : (cfg1.win 3).flush t = false := by
  rw [Bool.eq_false_iff]; exact fun hf => h ((hcond1_1 t).2 ((flush1_3 t).1 hf))

theorem liveAt1_3_C : ∀ t : Fin cfg1.N, ¬cond1_0 (grid1.coords t) → cond1_1 (grid1.coords t) → cfg1.idle 3 (grid1.coords t) = false :=
  fun t _ h => Bool.eq_false_iff.2 fun hb => (idle1_3_iff _).1 hb h

abbrev ms1_0 (t : Fin cfg1.N) : Memref sig .tc .vmem S3072 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x48 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x48 .f32 := win1_3.stage (cfg1.slots t 3)
abbrev hs1_3 (t : Fin cfg1.N) : (ms1_3 t).IsWhole := hstage1_3 ((cfg1.slots t 3).cast nbuf1_3)

abbrev scM1_0 : Memref sig .tc .vmem S2048x48 .f32 := Memref.whole cc1_scratch0

abbrev VS1_0 : View sig .tc .vmem S2048x48 .f32 := scM1_0.view

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

end Cert.Kernel.Hand

end
-- ==== Proof.KB.S1.RunA.lean ====
import proofs.«407864_j23167053595206_1_alg».proof.Proof.KB.S1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : cond1_0 i) (hc1 : ¬cond1_1 i)
    (x0 : Vec F S3072 .i32) (x1 : Vec F S3072x48 .bf16) (x2 : Vec F S2048 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, H3, ⟨%ds0, HS0⟩, Hk⟩
    sl_exec (disch := first | exact hc0 | exact hc1)
    sl_step
    iapply Hk
    iframe H0 H1 H2 H3
    iexists _; iexact HS0

end Cert.Kernel.Hand

end
-- ==== Proof.KB.S1.RunB.lean ====
import proofs.«407864_j23167053595206_1_alg».proof.Proof.KB.S1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_B (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond1_0 i) (hc1 : ¬cond1_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.KB.S1.RunC.lean ====
import proofs.«407864_j23167053595206_1_alg».proof.Proof.KB.S1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_C (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond1_0 i) (hc1 : cond1_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, ⟨%d3, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.KB.S1.Frame.lean ====
import proofs.«407864_j23167053595206_1_alg».proof.Proof.KB.S1.RunC
import proofs.«407864_j23167053595206_1_alg».proof.Proof.LibBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

section
variable {c} {i : grid1.Coords} {arg2 : Memref sig .tc .vmem S3072 .i32} {harg2 : arg2.IsWhole} {arg3 : Memref sig .tc .vmem S3072x48 .bf16} {harg3 : arg3.IsWhole} {arg4 : Memref sig .tc .vmem S2048 .f32} {harg4 : arg4.IsWhole} {arg5 : Memref sig .tc .vmem S2048x48 .f32} {harg5 : arg5.IsWhole} {arg6 : Memref sig .tc .vmem S2048x48 .f32} {harg6 : arg6.IsWhole}
  {x0 : Vec F S3072 .i32} {x1 : Vec F S3072x48 .bf16} {x2 : Vec F S2048 .f32} {xs0 : Vec F S2048x48 .f32}

theorem scover1_A_0 (hc0 : cond1_0 i) (hc1 : ¬cond1_1 i) : ∀ y, ∃ pc ∈ (kernelRun1_A c i arg2 harg2 arg3 harg3 arg4 harg4 arg5 harg5 arg6 harg6 hc0 hc1 x0 x1 x2).2.1, y ∈ pc.1.set :=
  View.cover_of_tiledL _ S2048x48.size (by sl_kernel_rfl)

theorem scover1_B_0 (hc0 : ¬cond1_0 i) (hc1 : ¬cond1_1 i) : ∀ y, ∃ pc ∈ (kernelRun1_B c i arg2 harg2 arg3 harg3 arg4 harg4 arg5 harg5 arg6 harg6 hc0 hc1 x0 x1 x2 xs0).2.1, y ∈ pc.1.set :=
  View.cover_of_tiledL _ S2048x48.size (by sl_kernel_rfl)

theorem scover1_C_0 (hc0 : ¬cond1_0 i) (hc1 : cond1_1 i) : ∀ y, ∃ pc ∈ (kernelRun1_C c i arg2 harg2 arg3 harg3 arg4 harg4 arg5 harg5 arg6 harg6 hc0 hc1 x0 x1 x2 xs0).2.1, y ∈ pc.1.set :=
  View.cover_of_tiledL _ S2048x48.size (by sl_kernel_rfl)

theorem cover1_C_3 (hc0 : ¬cond1_0 i) (hc1 : cond1_1 i) : ∀ y, ∃ pc ∈ (kernelRun1_C c i arg2 harg2 arg3 harg3 arg4 harg4 arg5 harg5 arg6 harg6 hc0 hc1 x0 x1 x2 xs0).1, y ∈ pc.1.set :=
  View.cover_of_tiledL _ S2048x48.size (by sl_kernel_rfl)

end

attribute [local irreducible] kernelRun1_A kernelRun1_B kernelRun1_C

abbrev out1_of (L : List (View.Piece (Elt F) S2048x48 .f32)) : Vec F S2048x48 .f32 := VS1_0.read (Elt F) (VS1_0.writes (Elt F) VS1_0.junk L)

theorem owns1_of_writes (m : Memref sig .tc .vmem S2048x48 .f32) {L : List (View.Piece (Elt F) S2048x48 .f32)} (h : ∀ y, ∃ pc ∈ L, y ∈ pc.1.set) :
    (iprop(∃ f, m.view.loc (c : Thread nD τ) ↦[m.view.set]{fullShare} m.view.writes (Elt F) f L) : sProp 𝕄) ⊢ owns (c : Thread nD τ) m fullShare (out1_of L) := by
  iintro ⟨%f, H⟩; unfold owns; iexists _; isplitr
  swap; · iexact H
  ipureintro; exact View.read_writes_of_cover _ _ _ _ _ h

abbrev out1_pair {p : List (View.Piece (Elt F) S2048x48 .f32) → List (View.Piece (Elt F) S2048x48 .f32) → Prop}
    (r : Σ' L3, { LS0 // p L3 LS0 }) : Vec F S2048x48 .f32 × Vec F S2048x48 .f32 := (out1_of r.1, out1_of r.2.1)

abbrev kernelRun1_tA (h0 : cond1_0 (grid1.coords t)) (h1 : ¬cond1_1 (grid1.coords t)) :=
  kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

abbrev kernelRun1_tB (h0 : ¬cond1_0 (grid1.coords t)) (h1 : ¬cond1_1 (grid1.coords t)) :=
  kernelRun1_B c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

abbrev kernelRun1_tC (h0 : ¬cond1_0 (grid1.coords t)) (h1 : cond1_1 (grid1.coords t)) :=
  kernelRun1_C c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

def outsAt1_step (p : Vec F S2048x48 .f32) : Vec F S2048x48 .f32 × Vec F S2048x48 .f32 :=
  if h0 : cond1_0 (grid1.coords t) then
    if h1 : cond1_1 (grid1.coords t) then (p, p) else out1_pair (kernelRun1_tA V c t h0 h1)
  else if h1 : cond1_1 (grid1.coords t) then out1_pair (kernelRun1_tC V c t h0 h1 p) else out1_pair (kernelRun1_tB V c t h0 h1 p)

def outsAt1 (c : Dev nD) : (n : ℕ) → n < cfg1.N → Vec F S2048x48 .f32 × Vec F S2048x48 .f32
  | 0, hn => outsAt1_step V c ⟨0, hn⟩ (out1_of [])
  | n + 1, hn => outsAt1_step V c ⟨n + 1, hn⟩ (outsAt1 c n (Nat.lt_of_succ_lt hn)).2

theorem outsAt1_A (h0 : cond1_0 (grid1.coords t)) (h1 : ¬cond1_1 (grid1.coords t)) :
    outsAt1 V c t.val t.isLt = out1_pair (kernelRun1_tA V c t h0 h1) := by
  obtain ⟨n, hn⟩ := t
  cases n <;> exact (dif_pos h0).trans (dif_neg h1)

theorem outsAt1_B (h0 : ¬cond1_0 (grid1.coords t)) (h1 : ¬cond1_1 (grid1.coords t)) :
    outsAt1 V c t.val t.isLt = out1_pair (kernelRun1_tB V c t h0 h1 (outsAt1 V c (t.val - 1) (Nat.lt_of_le_of_lt (Nat.sub_le _ _) t.isLt)).2) := by
  obtain ⟨n, hn⟩ := t
  cases n with
  | zero => exact absurd ((hcond1_0 _).2 (Nat.zero_mod _)) h0
  | succ n => exact (dif_neg h0).trans (dif_neg h1)

theorem outsAt1_C (h0 : ¬cond1_0 (grid1.coords t)) (h1 : cond1_1 (grid1.coords t)) :
    outsAt1 V c t.val t.isLt = out1_pair (kernelRun1_tC V c t h0 h1 (outsAt1 V c (t.val - 1) (Nat.lt_of_le_of_lt (Nat.sub_le _ _) t.isLt)).2) := by
  obtain ⟨n, hn⟩ := t
  cases n with
  | zero => exact absurd ((hcond1_0 _).2 (Nat.zero_mod _)) h0
  | succ n => exact (dif_neg h0).trans (dif_pos h1)

def PhiS1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem PhiS1_le (n : ℕ) (h : n ≤ cfg1.N) : PhiS1 V c n h ⊢ ∃ d, owns (c : Thread nD τ) scM1_0 fullShare d := by
  cases n
  · exact Entails.refl _
  · show owns (c : Thread nD τ) scM1_0 fullShare _ ⊢ _; exact exists_intro _

theorem PhiS1_pos (n : ℕ) (h : n ≤ cfg1.N) (hz : n ≠ 0) :
    PhiS1 V c n h = owns (c : Thread nD τ) scM1_0 fullShare (outsAt1 V c (n - 1) (by omega)).2 := by
  cases n
  exacts [absurd rfl hz, rfl]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(iprop(PhiS1 V c t.val (Nat.le_of_lt_succ t.isLt) ∗ Pipeline.scopedRestBut spec1 c [cc1_scratch0]) ∗ (∃ r, prngReg c r))
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (d) : (dat1 V c).before 0 t d = iblk1 V c 0 t := before1_0_of V _ rfl (fun _ => rfl) t d
theorem before1_1 (d) : (dat1 V c).before 1 t d = iblk1 V c 1 t := before1_1_of V _ rfl (fun _ => rfl) t d
theorem before1_2 (d) : (dat1 V c).before 2 t d = iblk1 V c 2 t := before1_2_of V _ rfl (fun _ => rfl) t d

theorem leaves1_live (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ _) ∗ _) from rfl,
    show (dat1 V c).Φ t.castSucc = iprop(iprop(PhiS1 V c t.val (Nat.le_of_lt t.isLt) ∗ _) ∗ _) from rfl,
    leaves1_live V c t 0 rfl, leaves1_live V c t 1 rfl, leaves1_live V c t 2 rfl]
  by_cases h0 : cond1_0 (grid1.coords t)
  · have h1 : ¬cond1_1 (grid1.coords t) := fun h => by have := (hcond1_0 t).1 h0; have := (hcond1_1 t).1 h; omega
    rw [Dat.leavesExact_idle _ 3 t ((idle1_3_iff _).2 h1) (noFlush1_3_of t h1), outsAt1_A V c t h0 h1]
    exact Cert.Lib.run_framed (fun _ K => (kernelRun1_tA V c t h0 h1).2.2 _ Set.univ K) (PhiS1_le V c _ _) (fun _ => Entails.refl _)
      (owns1_of_writes c _ (scover1_A_0 _ _)) (Entails.refl _)
  · have hz : t.val ≠ 0 := fun hz => h0 ((hcond1_0 t).2 (by rw [hz]))
    by_cases h1 : cond1_1 (grid1.coords t)
    · rw [leaves1_live V c t 3 (liveAt1_3_C t h0 h1), after1_3, outsAt1_C V c t h0 h1, PhiS1_pos V c _ _ hz]
      exact Cert.Lib.run_framed (fun _ K => (kernelRun1_tC V c t h0 h1 _).2.2 Set.univ K) (Entails.refl _) (fun _ => exists_intro _)
        (owns1_of_writes c _ (scover1_C_0 _ _)) (exists_elim fun _ => owns1_of_writes c _ (cover1_C_3 _ _))
    · rw [Dat.leavesExact_idle _ 3 t ((idle1_3_iff _).2 h1) (noFlush1_3_of t h1), outsAt1_B V c t h0 h1, PhiS1_pos V c _ _ hz]
      exact Cert.Lib.run_framed (fun _ K => (kernelRun1_tB V c t h0 h1 _).2.2 _ Set.univ K) (Entails.refl _) (fun _ => Entails.refl _)
        (owns1_of_writes c _ (scover1_B_0 _ _)) (Entails.refl _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; exact .rfl

theorem hout1 (c : Dev nD) : (dat1 V c).Φ (Fin.last cfg1.N) ⊢ Pipeline.ΦA spec1 c := by
  rw [PhiA1_eq]; exact sep_mono_left (sep_mono_left (PhiS1_le V c _ _))

end Cert.Kernel.Hand

end
-- ==== Proof.KB.G2.Runs.lean ====
import proofs.«407864_j23167053595206_1_alg».proof.Proof.Gen.Kernel.Launch
import proofs.«407864_j23167053595206_1_alg».proof.Proof.Gen.Kernel.Skeleton
import proofs.«407864_j23167053595206_1_alg».proof.Proof.KB.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coords2_1 (t : Fin grid2.N) : ((grid2.coords t) 1).val = t.val % 49 := by
  have h : grid2.stride 1 = 1 := by decide
  show t.val / grid2.stride 1 % grid2.bound 1 = t.val % 49
  rw [h, Nat.div_one]; rfl

abbrev cond2_0 (i : grid2.Coords) : Prop := (Scalar.cmpi .ne (Scalar.extui (Scalar.cmpi .eq (BitVec.ofNat 32 (i 1).val) 0#32)) 0#32) = 1#1

theorem cond2_0_iff (i : grid2.Coords) : cond2_0 i ↔ (i 1).val = 0 :=
  (by decide +kernel : ∀ j : Fin 49, (Scalar.cmpi .ne (Scalar.extui (Scalar.cmpi .eq (BitVec.ofNat 32 j.val) 0#32)) 0#32) = 1#1 ↔ j.val = 0) (i 1)

theorem hcond2_0 : ∀ t : Fin cfg2.N, cond2_0 (grid2.coords t) ↔ t.val % 49 = 0 := fun t =>
  (cond2_0_iff (grid2.coords t)).trans (by rw [coords2_1 t])

abbrev cond2_1 (i : grid2.Coords) : Prop := k2_cond2 i = 1#1

theorem cond2_1_iff (i : grid2.Coords) : cond2_1 i ↔ (i 1).val = 48 :=
  (by decide +kernel : ∀ j : Fin 49, (Scalar.cmpi .ne (Scalar.extui (Scalar.cmpi .eq (BitVec.ofNat 32 j.val) 48#32)) 0#32) = 1#1 ↔ j.val = 48) (i 1)

theorem hcond2_1 : ∀ t : Fin cfg2.N, cond2_1 (grid2.coords t) ↔ t.val % 49 = 48 := fun t =>
  (cond2_1_iff (grid2.coords t)).trans (by rw [coords2_1 t])

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idle2_3_iff (i : grid2.Coords) : cfg2.idle 3 i = true ↔ ¬cond2_1 i := by
  show (!(k2_cond2 i == 1#1)) = true ↔ ¬(k2_cond2 i = 1#1)
  rw [Bool.not_eq_true', beq_eq_false_iff_ne]

theorem liveAt2_3_C : ∀ t : Fin cfg2.N, ¬cond2_0 (grid2.coords t) → cond2_1 (grid2.coords t) → cfg2.idle 3 (grid2.coords t) = false :=
  fun t _ h => Bool.eq_false_iff.2 fun hi => (idle2_3_iff _).1 hi h

theorem noFlush2_3_of : ∀ t : Fin cfg2.N, ¬cond2_1 (grid2.coords t) → (cfg2.win 3).flush t = false :=
  fun t h => Bool.eq_false_iff.2 fun hf => h ((hcond2_1 t).2 ((flush2_3 t).1 hf))
abbrev VO2_3 : View sig .tc .vmem S3072x48 .bf16 := (Memref.whole cc2_stg3_0 : Memref sig .tc .vmem S3072x48 .bf16).view

abbrev ms2_0 (t : Fin cfg2.N) : Memref sig .tc .vmem S3072 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3072 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x48 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3072x48 .bf16 := win2_3.stage (cfg2.slots t 3)
abbrev hs2_3 (t : Fin cfg2.N) : (ms2_3 t).IsWhole := hstage2_3 ((cfg2.slots t 3).cast nbuf2_3)

abbrev scM2_0 : Memref sig .tc .vmem S3072x48 .f32 := Memref.whole cc2_scratch0

abbrev VS2_0 : View sig .tc .vmem S3072x48 .f32 := scM2_0.view

theorem PhiA2_eq (c : Dev nD) :
    (Pipeline.ΦA spec2 c : sProp 𝕄)
      = iprop(iprop((∃ d, owns (c : Thread nD τ) scM2_0 fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.Kernel.Hand

end
-- ==== Proof.KB.G2.RunA.lean ====
import proofs.«407864_j23167053595206_1_alg».proof.Proof.KB.G2.Runs
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

/-- The body run at one point: the three inputs are held throughout, `A ∗ S` goes in, `A'` and the scratch written with `LS0` come out. -/
abbrev kernelRun2_spec (x0 : Vec F S3072 .i32) (x1 : Vec F S3072 .f32) (x2 : Vec F S2048x48 .bf16) (A A' S : sProp 𝕄)
    (LS0 : List (View.Piece (Elt F) S3072x48 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ A ∗ S
        ∗ (iprop(owns (c : Thread nD τ) arg2 fullShare x0 ∗ owns (c : Thread nD τ) arg3 fullShare x1 ∗ owns (c : Thread nD τ) arg4 fullShare x2 ∗ A'
            ∗ (∃ f, arg6.view.loc (c : Thread nD τ) ↦[arg6.view.set]{fullShare} arg6.view.writes (Elt F) f LS0)) -∗ K ⟨⟩))
      ⊢ wp frame (wpE (defs₀ (F := F)) Variants.none c none) E (cc2__gather_kernel i arg2 harg2 arg3 harg3 arg4 harg4 arg5 harg5 arg6 harg6) K

set_option maxHeartbeats 1000000 in

def kernelRun2_A (hc0 : cond2_0 i) (hc1 : ¬cond2_1 i) (x0 : Vec F S3072 .i32) (x1 : Vec F S3072 .f32) (x2 : Vec F S2048x48 .bf16) :
    Σ' (L3 : List (View.Piece (Elt F) S3072x48 .bf16)), { LS0 : List (View.Piece (Elt F) S3072x48 .f32) //
      ∀ xi3 : Vec F S3072x48 .bf16, kernelRun2_spec c i arg2 harg2 arg3 harg3 arg4 harg4 arg5 harg5 arg6 harg6 x0 x1 x2
        (owns (c : Thread nD τ) arg5 fullShare xi3) (owns (c : Thread nD τ) arg5 fullShare xi3) iprop(∃ d, owns (c : Thread nD τ) arg6 fullShare d) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5]
    simp only [cc2__gather_kernel_eq_skeleton]; unfold cc2__gather_kernel_skel owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.Kernel.Hand

end
-- ==== Proof.KB.G2.RunB.lean ====
import proofs.«407864_j23167053595206_1_alg».proof.Proof.KB.G2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun2_B (hc0 : ¬cond2_0 i) (hc1 : ¬cond2_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      ∀ xi3 : Vec F S3072x48 .bf16, kernelRun2_spec c i arg2 harg2 arg3 harg3 arg4 harg4 arg5 harg5 arg6 harg6 x0 x1 x2
        (owns (c : Thread nD τ) arg5 fullShare xi3) (owns (c : Thread nD τ) arg5 fullShare xi3) (owns (c : Thread nD τ) arg6 fullShare xs0) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5, Lib.owns_eq_unread c.tc harg6]
    simp only [cc2__gather_kernel_eq_skeleton]; unfold cc2__gather_kernel_skel
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.KB.G2.RunC.lean ====
import proofs.«407864_j23167053595206_1_alg».proof.Proof.KB.G2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun2_C (hc0 : ¬cond2_0 i) (hc1 : cond2_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      kernelRun2_spec c i arg2 harg2 arg3 harg3 arg4 harg4 arg5 harg5 arg6 harg6 x0 x1 x2 iprop(∃ d, owns (c : Thread nD τ) arg5 fullShare d)
        iprop(∃ f, arg5.view.loc (c : Thread nD τ) ↦[arg5.view.set]{fullShare} arg5.view.writes (Elt F) f L3) (owns (c : Thread nD τ) arg6 fullShare xs0) LS0 } := by
  refine ⟨?_, ?_, fun E K => ?run⟩
  case run =>
    rw [Lib.owns_eq_unread c.tc harg2, Lib.owns_eq_unread c.tc harg3, Lib.owns_eq_unread c.tc harg4, Lib.owns_eq_unread c.tc harg6]
    simp only [cc2__gather_kernel_eq_skeleton]; unfold cc2__gather_kernel_skel owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.KB.G2.Frame.lean ====
import proofs.«407864_j23167053595206_1_alg».proof.Proof.KB.G2.RunC
import proofs.«407864_j23167053595206_1_alg».proof.Proof.KB.Sched
import proofs.«407864_j23167053595206_1_alg».proof.Proof.LibBody
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut2_3 : Vec F S3072x48 .bf16 := VO2_3.read (Elt F) VO2_3.junk

def ptA2 (c : Dev nD) (t : Fin cfg2.N) (h0 : t.val % 49 = 0) (h1 : ¬t.val % 49 = 48) :
    Vec F S3072x48 .bf16 × Vec F S3072x48 .f32 :=
  (idleOut2_3, VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t)
    scM2_0 (Memref.isWhole_whole _)
    ((hcond2_0 t).mpr h0) (mt (hcond2_1 t).mp h1) (iblk2 V c 0 t) (iblk2 V c 1 t) (iblk2 V c 2 t)).2.1))

def ptB2 (c : Dev nD) (t : Fin cfg2.N) (h0 : ¬t.val % 49 = 0) (h1 : ¬t.val % 49 = 48) (xs0 : Vec F S3072x48 .f32) :
    Vec F S3072x48 .bf16 × Vec F S3072x48 .f32 :=
  (idleOut2_3, VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t)
    scM2_0 (Memref.isWhole_whole _)
    (mt (hcond2_0 t).mp h0) (mt (hcond2_1 t).mp h1) (iblk2 V c 0 t) (iblk2 V c 1 t) (iblk2 V c 2 t) xs0).2.1))

def ptC2 (c : Dev nD) (t : Fin cfg2.N) (h0 : ¬t.val % 49 = 0) (h1 : t.val % 49 = 48) (xs0 : Vec F S3072x48 .f32) :
    Vec F S3072x48 .bf16 × Vec F S3072x48 .f32 :=
  let r := kernelRun2_C c (grid2.coords t) (ms2_0 t) (hs2_0 t) (ms2_1 t) (hs2_1 t) (ms2_2 t) (hs2_2 t) (ms2_3 t) (hs2_3 t)
    scM2_0 (Memref.isWhole_whole _)
    (mt (hcond2_0 t).mp h0) ((hcond2_1 t).mpr h1) (iblk2 V c 0 t) (iblk2 V c 1 t) (iblk2 V c 2 t) xs0
  (VO2_3.read (Elt F) (VO2_3.writes (Elt F) VO2_3.junk r.1), VS2_0.read (Elt F) (VS2_0.writes (Elt F) VS2_0.junk r.2.1))

def outsAt2 (c : Dev nD) : (n : ℕ) → n < cfg2.N → Vec F S3072x48 .bf16 × Vec F S3072x48 .f32
  | 0, hn => ptA2 V c ⟨0, hn⟩ (Nat.zero_mod _) (by simp)
  | n + 1, hn =>
    if h0 : (n + 1) % 49 = 0 then
      if h1 : (n + 1) % 49 = 48 then False.elim (by omega)
      else ptA2 V c ⟨n + 1, hn⟩ h0 h1
    else
      if h1 : (n + 1) % 49 = 48 then ptC2 V c ⟨n + 1, hn⟩ h0 h1 (outsAt2 c n (Nat.lt_of_succ_lt hn)).2
      else ptB2 V c ⟨n + 1, hn⟩ h0 h1 (outsAt2 c n (Nat.lt_of_succ_lt hn)).2

theorem outsAt2_A (c : Dev nD) (t : Fin cfg2.N) (h0 : t.val % 49 = 0) (h1 : ¬t.val % 49 = 48) :
    outsAt2 V c t.val t.isLt = ptA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 49 = 0) (h1 : ¬t.val % 49 = 48) :
    outsAt2 V c t.val t.isLt
      = ptB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 49 = 0) (h1 : t.val % 49 = 48) :
    outsAt2 V c t.val t.isLt
      = ptC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

abbrev PhiS2_at (c : Dev nD) (x : Vec F S3072x48 .f32) : sProp 𝕄 :=
  iprop(iprop(owns (c : Thread nD τ) scM2_0 fullShare x
      ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => PhiS2_at c (outsAt2 V c n hn).2

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = PhiS2_at c (outsAt2 V c n hn).2 := rfl

theorem PhiS2_pos (c : Dev nD) (n : ℕ) (h : n ≤ cfg2.N) (hz : n ≠ 0) :
    PhiS2 V c n h = PhiS2_at c (outsAt2 V c (n - 1) (by omega)).2 := by
  cases n with
  | zero => exact absurd rfl hz
  | succ n => rfl

theorem PhiS2_le (c : Dev nD) (n : ℕ) (h : n ≤ cfg2.N) : PhiS2 V c n h ⊢ Pipeline.ΦA spec2 c := by
  cases n with
  | zero => exact .rfl
  | succ n => rw [PhiS2_succ, PhiA2_eq]; exact sep_mono_left (sep_mono_left (exists_intro _))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_3 (c : Dev nD) (t : Fin cfg2.N) : (dat2 V c).after 3 t = (outsAt2 V c t.val t.isLt).1 := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t]; rfl
theorem leaves2_1 (c : Dev nD) (t : Fin cfg2.N) :
    (dat2 V c).leavesExact 1 t = owns (c : Thread nD τ) (ms2_1 t) fullShare (iblk2 V c 1 t) := by
  unfold Dat.leavesExact; rw [liveAt2_1 t]; rfl
theorem leaves2_2 (c : Dev nD) (t : Fin cfg2.N) :
    (dat2 V c).leavesExact 2 t = owns (c : Thread nD τ) (ms2_2 t) fullShare (iblk2 V c 2 t) := by
  unfold Dat.leavesExact; rw [liveAt2_2 t]; rfl

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, PhiS2_castSucc V c t]
  have e0 := hcond2_0 t
  have e1 := hcond2_1 t
  by_cases h1 : t.val % 49 = 48
  · have h0 : ¬t.val % 49 = 0 := by omega
    rw [PhiS2_pos V c _ _ fun e => h0 (by rw [e]), show (dat2 V c).leavesExact 3 t = owns (c : Thread nD τ) (ms2_3 t) fullShare ((dat2 V c).after 3 t) from by
      unfold Dat.leavesExact; rw [liveAt2_3_C t (mt e0.mp h0) (e1.mpr h1)], after2_3, outsAt2_C V c t h0 h1]
    unfold ptC2; dsimp only
    exact Lib.run_framed (fun d K => (kernelRun2_C _ _ _ _ _ _ _ _ _ _ _ _ (mt e0.mp h0) (e1.mpr h1) _ _ _ _).2.2 Set.univ K)
      .rfl (fun d => exists_intro _) (Lib.owns_of_writes (c : Thread nD τ) scM2_0 _ VS2_0 _ (View.cover_of_tiledL _ S3072x48.size (by sl_kernel_rfl)))
      (exists_elim fun _ => Lib.owns_of_writes (c : Thread nD τ) (ms2_3 t) _ VO2_3 _ (View.cover_of_tiledL _ S3072x48.size (by sl_kernel_rfl)))
  · have c1 := mt e1.mp h1
    rw [Dat.leavesExact_idle (dat2 V c) 3 t ((idle2_3_iff _).2 c1) (noFlush2_3_of t c1)]
    by_cases h0 : t.val % 49 = 0
    · rw [outsAt2_A V c t h0 h1]
      unfold ptA2; dsimp only
      refine (sep_mono_left ((PhiS2_le V c _ _).trans (.of_eq (PhiA2_eq c)))).trans ?_
      exact Lib.run_framed (fun d K => (kernelRun2_A _ _ _ _ _ _ _ _ _ _ _ _ (e0.mpr h0) c1 _ _ _).2.2 _ Set.univ K)
        .rfl (fun _ => .rfl) (Lib.owns_of_writes (c : Thread nD τ) scM2_0 _ VS2_0 _ (View.cover_of_tiledL _ S3072x48.size (by sl_kernel_rfl))) .rfl
    · rw [PhiS2_pos V c _ _ fun e => h0 (by rw [e]), outsAt2_B V c t h0 h1]
      unfold ptB2; dsimp only
      exact Lib.run_framed (fun d K => (kernelRun2_B _ _ _ _ _ _ _ _ _ _ _ _ (mt e0.mp h0) c1 _ _ _ _).2.2 _ Set.univ K)
        .rfl (fun _ => .rfl) (Lib.owns_of_writes (c : Thread nD τ) scM2_0 _ VS2_0 _ (View.cover_of_tiledL _ S3072x48.size (by sl_kernel_rfl))) .rfl

theorem body_obligation2 (c : Dev nD) :
    BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]

theorem hout2 (c : Dev nD) : (dat2 V c).Φ (Fin.last cfg2.N) ⊢ Pipeline.ΦA spec2 c :=
  PhiS2_le V c (Fin.last cfg2.N).val (Nat.le_of_lt_succ (Fin.last cfg2.N).isLt)

end Cert.Kernel.Hand

end
-- ==== Proof.KB.S3.Runs.lean ====
import proofs.«407864_j23167053595206_1_alg».proof.Proof.Gen.Kernel.Launch
import proofs.«407864_j23167053595206_1_alg».proof.Proof.Gen.Kernel.Skeleton
import proofs.«407864_j23167053595206_1_alg».proof.Proof.KB.Sched
import Idealize.ShloMosaic.Lib.Pipeline.FrameBody
import Idealize.ShloMosaic.Lib.Pipeline.FrameSuffix
import Idealize.ShloMosaic.Lib.Ring
import Idealize.ShloMosaic.Lib.Tactic
import proofs.«407864_j23167053595206_1_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem coords3_snd (t : Fin cfg3.N) : ((grid3.coords t) 1).val = t.val % 521 := by
  have hs : grid3.stride 1 = 1 := by decide
  show t.val / grid3.stride 1 % 521 = t.val % 521
  rw [hs, Nat.div_one]

theorem cond3_0_fin : ∀ j : Fin 521,
    (Scalar.cmpi .ne (Scalar.extui (Scalar.cmpi .eq (BitVec.ofNat 32 j.val) 0#32)) 0#32) = 1#1 ↔ j.val = 0 := by decide +kernel

theorem cond3_1_fin : ∀ j : Fin 521,
    (Scalar.cmpi .ne (Scalar.extui (Scalar.cmpi .eq (BitVec.ofNat 32 j.val) 520#32)) 0#32) = 1#1 ↔ j.val = 520 := by decide +kernel

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 521 = 0 := fun t => by
  rw [← coords3_snd t]; exact cond3_0_fin ((grid3.coords t) 1)

abbrev cond3_1 (i : grid3.Coords) : Prop := k3_cond2 i = 1#1

theorem hcond3_1 : ∀ t : Fin cfg3.N, cond3_1 (grid3.coords t) ↔ t.val % 521 = 520 := fun t => by
  rw [← coords3_snd t]; exact cond3_1_fin ((grid3.coords t) 1)

theorem idle3_3_iff (i : grid3.Coords) : cfg3.idle 3 i = true ↔ ¬cond3_1 i := by
  show (!(k3_cond2 i == 1#1)) = true ↔ ¬(k3_cond2 i = 1#1)
  rw [Bool.not_eq_true', beq_eq_false_iff_ne]

theorem noFlush3_3_of (t : Fin cfg3.N) (h : ¬cond3_1 (grid3.coords t)) : (cfg3.win 3).flush t = false := by
  rw [Bool.eq_false_iff]; exact fun hf => h ((hcond3_1 t).2 ((flush3_3 t).1 hf))

theorem liveAt3_3_C : ∀ t : Fin cfg3.N, ¬cond3_0 (grid3.coords t) → cond3_1 (grid3.coords t) → cfg3.idle 3 (grid3.coords t) = false :=
  fun t _ h => Bool.eq_false_iff.2 fun hb => (idle3_3_iff _).1 hb h

abbrev ms3_0 (t : Fin cfg3.N) : Memref sig .tc .vmem S3072 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S3072x48 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x48 .f32 := win3_3.stage (cfg3.slots t 3)
abbrev hs3_3 (t : Fin cfg3.N) : (ms3_3 t).IsWhole := hstage3_3 ((cfg3.slots t 3).cast nbuf3_3)

abbrev scM3_0 : Memref sig .tc .vmem S2048x48 .f32 := Memref.whole cc3_scratch0

abbrev VS3_0 : View sig .tc .vmem S2048x48 .f32 := scM3_0.view

theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_split]; simp only [scM3_0, owns_whole]; try rfl

end Cert.Kernel.Hand

end
-- ==== Proof.KB.S3.RunA.lean ====
import proofs.«407864_j23167053595206_1_alg».proof.Proof.KB.S3.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_A (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : cond3_0 i) (hc1 : ¬cond3_1 i)
    (x0 : Vec F S3072 .i32) (x1 : Vec F S3072x48 .bf16) (x2 : Vec F S2048 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, H3, ⟨%ds0, HS0⟩, Hk⟩
    sl_exec (disch := first | exact hc0 | exact hc1)
    sl_step
    iapply Hk
    iframe H0 H1 H2 H3
    iexists _; iexact HS0

end Cert.Kernel.Hand

end
-- ==== Proof.KB.S3.RunB.lean ====
import proofs.«407864_j23167053595206_1_alg».proof.Proof.KB.S3.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_B (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond3_0 i) (hc1 : ¬cond3_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.KB.S3.RunC.lean ====
import proofs.«407864_j23167053595206_1_alg».proof.Proof.KB.S3.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_C (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond3_0 i) (hc1 : cond3_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, ⟨%d3, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.KB.S3.Frame.lean ====
import proofs.«407864_j23167053595206_1_alg».proof.Proof.KB.S3.RunC
import proofs.«407864_j23167053595206_1_alg».proof.Proof.LibBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

section
variable {c} {i : grid3.Coords} {arg2 : Memref sig .tc .vmem S3072 .i32} {harg2 : arg2.IsWhole} {arg3 : Memref sig .tc .vmem S3072x48 .bf16} {harg3 : arg3.IsWhole} {arg4 : Memref sig .tc .vmem S2048 .f32} {harg4 : arg4.IsWhole} {arg5 : Memref sig .tc .vmem S2048x48 .f32} {harg5 : arg5.IsWhole} {arg6 : Memref sig .tc .vmem S2048x48 .f32} {harg6 : arg6.IsWhole}
  {x0 : Vec F S3072 .i32} {x1 : Vec F S3072x48 .bf16} {x2 : Vec F S2048 .f32} {xs0 : Vec F S2048x48 .f32}

theorem scover3_A_0 (hc0 : cond3_0 i) (hc1 : ¬cond3_1 i) : ∀ y, ∃ pc ∈ (kernelRun3_A c i arg2 harg2 arg3 harg3 arg4 harg4 arg5 harg5 arg6 harg6 hc0 hc1 x0 x1 x2).2.1, y ∈ pc.1.set :=
  View.cover_of_tiledL _ S2048x48.size (by sl_kernel_rfl)

theorem scover3_B_0 (hc0 : ¬cond3_0 i) (hc1 : ¬cond3_1 i) : ∀ y, ∃ pc ∈ (kernelRun3_B c i arg2 harg2 arg3 harg3 arg4 harg4 arg5 harg5 arg6 harg6 hc0 hc1 x0 x1 x2 xs0).2.1, y ∈ pc.1.set :=
  View.cover_of_tiledL _ S2048x48.size (by sl_kernel_rfl)

theorem scover3_C_0 (hc0 : ¬cond3_0 i) (hc1 : cond3_1 i) : ∀ y, ∃ pc ∈ (kernelRun3_C c i arg2 harg2 arg3 harg3 arg4 harg4 arg5 harg5 arg6 harg6 hc0 hc1 x0 x1 x2 xs0).2.1, y ∈ pc.1.set :=
  View.cover_of_tiledL _ S2048x48.size (by sl_kernel_rfl)

theorem cover3_C_3 (hc0 : ¬cond3_0 i) (hc1 : cond3_1 i) : ∀ y, ∃ pc ∈ (kernelRun3_C c i arg2 harg2 arg3 harg3 arg4 harg4 arg5 harg5 arg6 harg6 hc0 hc1 x0 x1 x2 xs0).1, y ∈ pc.1.set :=
  View.cover_of_tiledL _ S2048x48.size (by sl_kernel_rfl)

end

attribute [local irreducible] kernelRun3_A kernelRun3_B kernelRun3_C

abbrev out3_of (L : List (View.Piece (Elt F) S2048x48 .f32)) : Vec F S2048x48 .f32 := VS3_0.read (Elt F) (VS3_0.writes (Elt F) VS3_0.junk L)

theorem owns3_of_writes (m : Memref sig .tc .vmem S2048x48 .f32) {L : List (View.Piece (Elt F) S2048x48 .f32)} (h : ∀ y, ∃ pc ∈ L, y ∈ pc.1.set) :
    (iprop(∃ f, m.view.loc (c : Thread nD τ) ↦[m.view.set]{fullShare} m.view.writes (Elt F) f L) : sProp 𝕄) ⊢ owns (c : Thread nD τ) m fullShare (out3_of L) := by
  iintro ⟨%f, H⟩; unfold owns; iexists _; isplitr
  swap; · iexact H
  ipureintro; exact View.read_writes_of_cover _ _ _ _ _ h

abbrev out3_pair {p : List (View.Piece (Elt F) S2048x48 .f32) → List (View.Piece (Elt F) S2048x48 .f32) → Prop}
    (r : Σ' L3, { LS0 // p L3 LS0 }) : Vec F S2048x48 .f32 × Vec F S2048x48 .f32 := (out3_of r.1, out3_of r.2.1)

abbrev kernelRun3_tA (h0 : cond3_0 (grid3.coords t)) (h1 : ¬cond3_1 (grid3.coords t)) :=
  kernelRun3_A c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

abbrev kernelRun3_tB (h0 : ¬cond3_0 (grid3.coords t)) (h1 : ¬cond3_1 (grid3.coords t)) :=
  kernelRun3_B c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

abbrev kernelRun3_tC (h0 : ¬cond3_0 (grid3.coords t)) (h1 : cond3_1 (grid3.coords t)) :=
  kernelRun3_C c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

def outsAt3_step (p : Vec F S2048x48 .f32) : Vec F S2048x48 .f32 × Vec F S2048x48 .f32 :=
  if h0 : cond3_0 (grid3.coords t) then
    if h1 : cond3_1 (grid3.coords t) then (p, p) else out3_pair (kernelRun3_tA V c t h0 h1)
  else if h1 : cond3_1 (grid3.coords t) then out3_pair (kernelRun3_tC V c t h0 h1 p) else out3_pair (kernelRun3_tB V c t h0 h1 p)

def outsAt3 (c : Dev nD) : (n : ℕ) → n < cfg3.N → Vec F S2048x48 .f32 × Vec F S2048x48 .f32
  | 0, hn => outsAt3_step V c ⟨0, hn⟩ (out3_of [])
  | n + 1, hn => outsAt3_step V c ⟨n + 1, hn⟩ (outsAt3 c n (Nat.lt_of_succ_lt hn)).2

theorem outsAt3_A (h0 : cond3_0 (grid3.coords t)) (h1 : ¬cond3_1 (grid3.coords t)) :
    outsAt3 V c t.val t.isLt = out3_pair (kernelRun3_tA V c t h0 h1) := by
  obtain ⟨n, hn⟩ := t
  cases n <;> exact (dif_pos h0).trans (dif_neg h1)

theorem outsAt3_B (h0 : ¬cond3_0 (grid3.coords t)) (h1 : ¬cond3_1 (grid3.coords t)) :
    outsAt3 V c t.val t.isLt = out3_pair (kernelRun3_tB V c t h0 h1 (outsAt3 V c (t.val - 1) (Nat.lt_of_le_of_lt (Nat.sub_le _ _) t.isLt)).2) := by
  obtain ⟨n, hn⟩ := t
  cases n with
  | zero => exact absurd ((hcond3_0 _).2 (Nat.zero_mod _)) h0
  | succ n => exact (dif_neg h0).trans (dif_neg h1)

theorem outsAt3_C (h0 : ¬cond3_0 (grid3.coords t)) (h1 : cond3_1 (grid3.coords t)) :
    outsAt3 V c t.val t.isLt = out3_pair (kernelRun3_tC V c t h0 h1 (outsAt3 V c (t.val - 1) (Nat.lt_of_le_of_lt (Nat.sub_le _ _) t.isLt)).2) := by
  obtain ⟨n, hn⟩ := t
  cases n with
  | zero => exact absurd ((hcond3_0 _).2 (Nat.zero_mod _)) h0
  | succ n => exact (dif_neg h0).trans (dif_pos h1)

def PhiS3 (c : Dev nD) : (n : ℕ) → n ≤ cfg3.N → sProp 𝕄
  | 0, _ => iprop(∃ d, owns (c : Thread nD τ) scM3_0 fullShare d)
  | n + 1, hn => owns (c : Thread nD τ) scM3_0 fullShare (outsAt3 V c n hn).2

theorem PhiS3_le (n : ℕ) (h : n ≤ cfg3.N) : PhiS3 V c n h ⊢ ∃ d, owns (c : Thread nD τ) scM3_0 fullShare d := by
  cases n
  · exact Entails.refl _
  · show owns (c : Thread nD τ) scM3_0 fullShare _ ⊢ _; exact exists_intro _

theorem PhiS3_pos (n : ℕ) (h : n ≤ cfg3.N) (hz : n ≠ 0) :
    PhiS3 V c n h = owns (c : Thread nD τ) scM3_0 fullShare (outsAt3 V c (n - 1) (by omega)).2 := by
  cases n
  exacts [absurd rfl hz, rfl]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := iprop(iprop(PhiS3 V c t.val (Nat.le_of_lt_succ t.isLt) ∗ Pipeline.scopedRestBut spec3 c [cc3_scratch0]) ∗ (∃ r, prngReg c r))
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (d) : (dat3 V c).before 0 t d = iblk3 V c 0 t := before3_0_of V _ rfl (fun _ => rfl) t d
theorem before3_1 (d) : (dat3 V c).before 1 t d = iblk3 V c 1 t := before3_1_of V _ rfl (fun _ => rfl) t d
theorem before3_2 (d) : (dat3 V c).before 2 t d = iblk3 V c 2 t := before3_2_of V _ rfl (fun _ => rfl) t d

theorem leaves3_live (w : Fin cfg3.W) (h : cfg3.idle w (grid3.coords t) = false) :
    (dat3 V c).leavesExact w t = owns (c : Thread nD τ) ((cfg3.win w).stage (cfg3.slots t w)) fullShare ((dat3 V c).after w t) := by
  unfold Dat.leavesExact; rw [h]

def bodyPre3 : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare (outsAt3 V c t.val t.isLt).2 ∗ _) ∗ _) from rfl,
    show (dat3 V c).Φ t.castSucc = iprop(iprop(PhiS3 V c t.val (Nat.le_of_lt t.isLt) ∗ _) ∗ _) from rfl,
    leaves3_live V c t 0 rfl, leaves3_live V c t 1 rfl, leaves3_live V c t 2 rfl]
  by_cases h0 : cond3_0 (grid3.coords t)
  · have h1 : ¬cond3_1 (grid3.coords t) := fun h => by have := (hcond3_0 t).1 h0; have := (hcond3_1 t).1 h; omega
    rw [Dat.leavesExact_idle _ 3 t ((idle3_3_iff _).2 h1) (noFlush3_3_of t h1), outsAt3_A V c t h0 h1]
    exact Cert.Lib.run_framed (fun _ K => (kernelRun3_tA V c t h0 h1).2.2 _ Set.univ K) (PhiS3_le V c _ _) (fun _ => Entails.refl _)
      (owns3_of_writes c _ (scover3_A_0 _ _)) (Entails.refl _)
  · have hz : t.val ≠ 0 := fun hz => h0 ((hcond3_0 t).2 (by rw [hz]))
    by_cases h1 : cond3_1 (grid3.coords t)
    · rw [leaves3_live V c t 3 (liveAt3_3_C t h0 h1), after3_3, outsAt3_C V c t h0 h1, PhiS3_pos V c _ _ hz]
      exact Cert.Lib.run_framed (fun _ K => (kernelRun3_tC V c t h0 h1 _).2.2 Set.univ K) (Entails.refl _) (fun _ => exists_intro _)
        (owns3_of_writes c _ (scover3_C_0 _ _)) (exists_elim fun _ => owns3_of_writes c _ (cover3_C_3 _ _))
    · rw [Dat.leavesExact_idle _ 3 t ((idle3_3_iff _).2 h1) (noFlush3_3_of t h1), outsAt3_B V c t h0 h1, PhiS3_pos V c _ _ hz]
      exact Cert.Lib.run_framed (fun _ K => (kernelRun3_tB V c t h0 h1 _).2.2 _ Set.univ K) (Entails.refl _) (fun _ => Entails.refl _)
        (owns3_of_writes c _ (scover3_B_0 _ _)) (Entails.refl _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; exact .rfl

theorem hout3 (c : Dev nD) : (dat3 V c).Φ (Fin.last cfg3.N) ⊢ Pipeline.ΦA spec3 c := by
  rw [PhiA3_eq]; exact sep_mono_left (sep_mono_left (PhiS3_le V c _ _))

end Cert.Kernel.Hand

end
-- ==== Proof.KB.M4.Frame.lean ====
import proofs.«407864_j23167053595206_1_alg».proof.Proof.Gen.Kernel.Launch
import proofs.«407864_j23167053595206_1_alg».proof.Proof.Gen.Kernel.Skeleton
import proofs.«407864_j23167053595206_1_alg».proof.Proof.KB.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x48 := Rect.unit (s := S2000x48) ![0, 0] S2000x48.size inb_S2000x48_S2000x48_0_0
abbrev r4_1 : Rect S48x128 := Rect.unit (s := S48x128) ![0, 0] S48x128.size inb_S48x128_S48x128_0_0
abbrev r4_2 : Rect S128 := Rect.unit (s := S128) ![0] S128.size inb_S128_S128_0
abbrev r4_3 : Rect S128x128 := Rect.unit (s := S128x128) ![0, 0] S128x128.size inb_S128x128_S128x128_0_0
abbrev r4_5 : Rect S2000x128 := Rect.unit (s := S2000x128) ![0, 0] S2000x128.size inb_S2000x128_S2000x128_0_0

def out4_5 (x0 : Vec F S2000x48 .f32) (x1 : Vec F S48x128 .f32) (x2 : Vec F S128 .f32) (x3 : Vec F S128x128 .f32) (x4 : Vec F S128 .f32) :
    Vec F S2000x128 .f32 :=
  View.canon [⟨r4_5, k4_pay1 (View.ld x0 r4_0) (View.ld x1 r4_1) (View.ld x2 r4_2) (View.ld x3 r4_3) (View.ld x4 r4_2)⟩]

theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

set_option maxHeartbeats 1000000 in

theorem sound_kernel4 (c : Dev nD) (E : Set ℕ) (i : grid4.Coords)
    (arg1 : Memref sig .tc .vmem S2000x48 .f32) (harg1 : arg1.IsWhole) (arg2 : Memref sig .tc .vmem S48x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2000x128 .f32) (harg6 : arg6.IsWhole)
    (x0 : Vec F S2000x48 .f32) (x1 : Vec F S48x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
import proofs.«407864_j23167053595206_1_alg».proof.Proof.Gen.Kernel.Launch
import proofs.«407864_j23167053595206_1_alg».proof.Proof.Gen.Kernel.Regions
import proofs.«407864_j23167053595206_1_alg».proof.Proof.KB.G0.Frame
import proofs.«407864_j23167053595206_1_alg».proof.Proof.KB.S1.Frame
import proofs.«407864_j23167053595206_1_alg».proof.Proof.KB.G2.Frame
import proofs.«407864_j23167053595206_1_alg».proof.Proof.KB.S3.Frame
import proofs.«407864_j23167053595206_1_alg».proof.Proof.KB.M4.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

section

variable (c : Dev nD) (r b : Ref sig .tc)

abbrev W1 : Dev nD → Valuation τ sig (Elt F) := fun c => StableHlo.after hostOps0 (W0 m ρ c)

theorem W1_of (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_of (h : r ∉ hostOps0_1_W) :
    W2 m ρ c (Proc.devRef .tc r) = W1 m ρ c (Proc.devRef .tc r) :=
  StableHlo.after_of_writes_sub hostOps0_1 _ hostOps0_1_writes h
abbrev V2 : (c : Dev nD) → (b : Ref sig .tc) → Buf (Elt F) ((c : Thread nD τ).loc b) := fun c b => W2 m ρ c b

abbrev W3 : Dev nD → Valuation τ sig (Elt F) := fun c => StableHlo.after hostOps0_2 (W2 m ρ c)

theorem W3_of (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)

theorem W4_of (h : r ∉ hostOps0_3_W) :
    W4 m ρ c (Proc.devRef .tc r) = W3 m ρ c (Proc.devRef .tc r) :=
  StableHlo.after_of_writes_sub hostOps0_3 _ hostOps0_3_writes h
abbrev V4 : (c : Dev nD) → (b : Ref sig .tc) → Buf (Elt F) ((c : Thread nD τ).loc b) := fun c b => W4 m ρ c b

abbrev W5 : Dev nD → Valuation τ sig (Elt F) := fun c => StableHlo.after hostOps0_4 (W4 m ρ c)

theorem W5_of (h : r ∉ hostOps0_4_W) :
    W5 m ρ c (Proc.devRef .tc r) = W4 m ρ c (Proc.devRef .tc r) :=
  StableHlo.after_of_writes_sub hostOps0_4 _ hostOps0_4_writes h

abbrev W6 : Dev nD → Valuation τ sig (Elt F) := fun c => StableHlo.after hostOps0_5 (W5 m ρ c)

theorem W6_of (h : r ∉ hostOps0_5_W) :
    W6 m ρ c (Proc.devRef .tc r) = W5 m ρ c (Proc.devRef .tc r) :=
  StableHlo.after_of_writes_sub hostOps0_5 _ hostOps0_5_writes h
abbrev V6 : (c : Dev nD) → (b : Ref sig .tc) → Buf (Elt F) ((c : Thread nD τ).loc b) := fun c b => W6 m ρ c b

abbrev W7 : Dev nD → Valuation τ sig (Elt F) := fun c => StableHlo.after hostOps0_6 (W6 m ρ c)

theorem W7_of (h : r ∉ hostOps0_6_W) :
    W7 m ρ c (Proc.devRef .tc r) = W6 m ρ c (Proc.devRef .tc r) :=
  StableHlo.after_of_writes_sub hostOps0_6 _ hostOps0_6_writes h

abbrev W8 : Dev nD → Valuation τ sig (Elt F) := fun c => StableHlo.after hostOps0_7 (W7 m ρ c)

theorem W8_of (h : r ∉ hostOps0_7_W) :
    W8 m ρ c (Proc.devRef .tc r) = W7 m ρ c (Proc.devRef .tc r) :=
  StableHlo.after_of_writes_sub hostOps0_7 _ hostOps0_7_writes h
abbrev V8 : (c : Dev nD) → (b : Ref sig .tc) → Buf (Elt F) ((c : Thread nD τ).loc b) := fun c b => W8 m ρ c b

abbrev W9 : Dev nD → Valuation τ sig (Elt F) := fun c => StableHlo.after hostOps0_8 (W8 m ρ c)

theorem W9_of (h : r ∉ hostOps0_8_W) :
    W9 m ρ c (Proc.devRef .tc r) = W8 m ρ c (Proc.devRef .tc r) :=
  StableHlo.after_of_writes_sub hostOps0_8 _ hostOps0_8_writes h

abbrev W10 : Dev nD → Valuation τ sig (Elt F) := fun c => StableHlo.after hostOps0_9 (W9 m ρ c)

theorem W10_of (h : r ∉ hostOps0_9_W) :
    W10 m ρ c (Proc.devRef .tc r) = W9 m ρ c (Proc.devRef .tc r) :=
  StableHlo.after_of_writes_sub hostOps0_9 _ hostOps0_9_writes h

abbrev W11 : Dev nD → Valuation τ sig (Elt F) := fun c => StableHlo.after hostOps0_10 (W10 m ρ c)

theorem W11_of (h : r ∉ hostOps0_10_W) :
    W11 m ρ c (Proc.devRef .tc r) = W10 m ρ c (Proc.devRef .tc r) :=
  StableHlo.after_of_writes_sub hostOps0_10 _ hostOps0_10_writes h
abbrev V11 : (c : Dev nD) → (b : Ref sig .tc) → Buf (Elt F) ((c : Thread nD τ).loc b) := fun c b => W11 m ρ c b

def W12 : Valuation τ sig (Elt F) :=
  Pipeline.withArrays spec0 c (W11 m ρ c) fun w => (dat0 (V11 m ρ) c).arrAt w cfg0.N
theorem W12_arr (w : Fin cfg0.W) :
    W12 m ρ c (Proc.devRef .tc (Pipeline.arrRef spec0 w)) = (dat0 (V11 m ρ) c).arrAt w cfg0.N :=
  Pipeline.withArrays_arr spec0 launch0.win.arr_inj c _ _ w
theorem W12_of_ne (hb : ∀ w, Pipeline.arrRef spec0 w ≠ b) :
    W12 m ρ c (Proc.devRef .tc b) = W11 m ρ c (Proc.devRef .tc b) :=
  Pipeline.withArrays_of_ne spec0 c _ _ b hb

theorem W12_in (w : Fin cfg0.W) (h : (cfg0.win w).isOut = false) :
    W12 m ρ c (Proc.devRef .tc (Pipeline.arrRef spec0 w)) = W11 m ρ c (Proc.devRef .tc (Pipeline.arrRef spec0 w)) :=
  (W12_arr m ρ c w).trans (((dat0 (V11 m ρ) c).arrAt_in w h _).trans (A_eq0 (V11 m ρ) c w))
abbrev V12 : (c : Dev nD) → (b : Ref sig .tc) → Buf (Elt F) ((c : Thread nD τ).loc b) := fun c b => W12 m ρ c b

def W13 : Valuation τ sig (Elt F) :=
  Pipeline.withArrays spec1 c (W12 m ρ c) fun w => (dat1 (V12 m ρ) c).arrAt w cfg1.N
theorem W13_arr (w : Fin cfg1.W) :
    W13 m ρ c (Proc.devRef .tc (Pipeline.arrRef spec1 w)) = (dat1 (V12 m ρ) c).arrAt w cfg1.N :=
  Pipeline.withArrays_arr spec1 launch1.win.arr_inj c _ _ w
theorem W13_of_ne (hb : ∀ w, Pipeline.arrRef spec1 w ≠ b) :
    W13 m ρ c (Proc.devRef .tc b) = W12 m ρ c (Proc.devRef .tc b) :=
  Pipeline.withArrays_of_ne spec1 c _ _ b hb

theorem W13_in (w : Fin cfg1.W) (h : (cfg1.win w).isOut = false) :
    W13 m ρ c (Proc.devRef .tc (Pipeline.arrRef spec1 w)) = W12 m ρ c (Proc.devRef .tc (Pipeline.arrRef spec1 w)) :=
  (W13_arr m ρ c w).trans (((dat1 (V12 m ρ) c).arrAt_in w h _).trans (A_eq1 (V12 m ρ) c w))
abbrev V13 : (c : Dev nD) → (b : Ref sig .tc) → Buf (Elt F) ((c : Thread nD τ).loc b) := fun c b => W13 m ρ c b

abbrev W14 : Dev nD → Valuation τ sig (Elt F) := fun c => StableHlo.after hostOps2 (W13 m ρ c)

theorem W14_of (h : r ∉ hostOps2_W) :
    W14 m ρ c (Proc.devRef .tc r) = W13 m ρ c (Proc.devRef .tc r) :=
  StableHlo.after_of_writes_sub hostOps2 _ hostOps2_writes h

abbrev W15 : Dev nD → Valuation τ sig (Elt F) := fun c => StableHlo.after hostOps2_1 (W14 m ρ c)

theorem W15_of (h : r ∉ hostOps2_1_W) :
    W15 m ρ c (Proc.devRef .tc r) = W14 m ρ c (Proc.devRef .tc r) :=
  StableHlo.after_of_writes_sub hostOps2_1 _ hostOps2_1_writes h

abbrev W16 : Dev nD → Valuation τ sig (Elt F) := fun c => StableHlo.after hostOps2_2 (W15 m ρ c)

theorem W16_of (h : r ∉ hostOps2_2_W) :
    W16 m ρ c (Proc.devRef .tc r) = W15 m ρ c (Proc.devRef .tc r) :=
  StableHlo.after_of_writes_sub hostOps2_2 _ hostOps2_2_writes h
abbrev V16 : (c : Dev nD) → (b : Ref sig .tc) → Buf (Elt F) ((c : Thread nD τ).loc b) := fun c b => W16 m ρ c b

def W17 : Valuation τ sig (Elt F) :=
  Pipeline.withArrays spec2 c (W16 m ρ c) fun w => (dat2 (V16 m ρ) c).arrAt w cfg2.N
theorem W17_arr (w : Fin cfg2.W) :
    W17 m ρ c (Proc.devRef .tc (Pipeline.arrRef spec2 w)) = (dat2 (V16 m ρ) c).arrAt w cfg2.N :=
  Pipeline.withArrays_arr spec2 launch2.win.arr_inj c _ _ w
theorem W17_of_ne (hb : ∀ w, Pipeline.arrRef spec2 w ≠ b) :
    W17 m ρ c (Proc.devRef .tc b) = W16 m ρ c (Proc.devRef .tc b) :=
  Pipeline.withArrays_of_ne spec2 c _ _ b hb

theorem W17_in (w : Fin cfg2.W) (h : (cfg2.win w).isOut = false) :
    W17 m ρ c (Proc.devRef .tc (Pipeline.arrRef spec2 w)) = W16 m ρ c (Proc.devRef .tc (Pipeline.arrRef spec2 w)) :=
  (W17_arr m ρ c w).trans (((dat2 (V16 m ρ) c).arrAt_in w h _).trans (A_eq2 (V16 m ρ) c w))
abbrev V17 : (c : Dev nD) → (b : Ref sig .tc) → Buf (Elt F) ((c : Thread nD τ).loc b) := fun c b => W17 m ρ c b

def W18 : Valuation τ sig (Elt F) :=
  Pipeline.withArrays spec3 c (W17 m ρ c) fun w => (dat3 (V17 m ρ) c).arrAt w cfg3.N
theorem W18_arr (w : Fin cfg3.W) :
    W18 m ρ c (Proc.devRef .tc (Pipeline.arrRef spec3 w)) = (dat3 (V17 m ρ) c).arrAt w cfg3.N :=
  Pipeline.withArrays_arr spec3 launch3.win.arr_inj c _ _ w
theorem W18_of_ne (hb : ∀ w, Pipeline.arrRef spec3 w ≠ b) :
    W18 m ρ c (Proc.devRef .tc b) = W17 m ρ c (Proc.devRef .tc b) :=
  Pipeline.withArrays_of_ne spec3 c _ _ b hb

theorem W18_in (w : Fin cfg3.W) (h : (cfg3.win w).isOut = false) :
    W18 m ρ c (Proc.devRef .tc (Pipeline.arrRef spec3 w)) = W17 m ρ c (Proc.devRef .tc (Pipeline.arrRef spec3 w)) :=
  (W18_arr m ρ c w).trans (((dat3 (V17 m ρ) c).arrAt_in w h _).trans (A_eq3 (V17 m ρ) c w))
abbrev V18 : (c : Dev nD) → (b : Ref sig .tc) → Buf (Elt F) ((c : Thread nD τ).loc b) := fun c b => W18 m ρ c b

abbrev W19 : Dev nD → Valuation τ sig (Elt F) := fun c => StableHlo.after hostOps4 (W18 m ρ c)

theorem W19_of (h : r ∉ hostOps4_W) :
    W19 m ρ c (Proc.devRef .tc r) = W18 m ρ c (Proc.devRef .tc r) :=
  StableHlo.after_of_writes_sub hostOps4 _ hostOps4_writes h
abbrev V19 : (c : Dev nD) → (b : Ref sig .tc) → Buf (Elt F) ((c : Thread nD τ).loc b) := fun c b => W19 m ρ c b

def W20 : Valuation τ sig (Elt F) :=
  Pipeline.withArrays spec4 c (W19 m ρ c) fun w => (dat4 (V19 m ρ) c).arrAt w cfg4.N
theorem W20_arr (w : Fin cfg4.W) :
    W20 m ρ c (Proc.devRef .tc (Pipeline.arrRef spec4 w)) = (dat4 (V19 m ρ) c).arrAt w cfg4.N :=
  Pipeline.withArrays_arr spec4 launch4.win.arr_inj c _ _ w
theorem W20_of_ne (hb : ∀ w, Pipeline.arrRef spec4 w ≠ b) :
    W20 m ρ c (Proc.devRef .tc b) = W19 m ρ c (Proc.devRef .tc b) :=
  Pipeline.withArrays_of_ne spec4 c _ _ b hb

theorem W20_in (w : Fin cfg4.W) (h : (cfg4.win w).isOut = false) :
    W20 m ρ c (Proc.devRef .tc (Pipeline.arrRef spec4 w)) = W19 m ρ c (Proc.devRef .tc (Pipeline.arrRef spec4 w)) :=
  (W20_arr m ρ c w).trans (((dat4 (V19 m ρ) c).arrAt_in w h _).trans (A_eq4 (V19 m ρ) c w))

theorem V12_main_v8 : V12 m ρ c main_v8 = (dat0 (V11 m ρ) c).arrAt 3 cfg0.N := W12_arr m ρ c 3
theorem V13_main_v9 : V13 m ρ c main_v9 = (dat1 (V12 m ρ) c).arrAt 3 cfg1.N := W13_arr m ρ c 3
theorem V17_main_v13 : V17 m ρ c main_v13 = (dat2 (V16 m ρ) c).arrAt 3 cfg2.N := W17_arr m ρ c 3
theorem V18_main_v14 : V18 m ρ c main_v14 = (dat3 (V17 m ρ) c).arrAt 3 cfg3.N := W18_arr m ρ c 3
theorem W20_main_v16 : W20 m ρ c (Proc.devRef .tc main_v16) = (dat4 (V19 m ρ) c).arrAt 5 cfg4.N := W20_arr m ρ c 5

end

def pdats : (p : Fin 5) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V12 m ρ) c
  | ⟨2, _⟩ => fun c => dat2 (V16 m ρ) c
  | ⟨3, _⟩ => fun c => dat3 (V17 m ρ) c
  | ⟨4, _⟩ => fun c => dat4 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem pdats_facts : ∀ (p : Fin 5) (c : Dev nD),
    (∀ t, (pdats m ρ p c).owed t = 0) ∧ (∀ t x, x ∈ (pdats m ρ p c).recorded t) ∧ ∀ w, (pdats m ρ p c).q w = fullShare
  | ⟨0, _⟩, _ | ⟨1, _⟩, _ | ⟨2, _⟩, _ | ⟨3, _⟩, _ | ⟨4, _⟩, _ => ⟨fun _ => rfl, fun _ _ => trivial, fun _ => rfl⟩

set_option backward.isDefEq.respectTransparency.types false in
/-- A region entered with every unscoped buffer held at `W` and left with them held at `W'`, which is `W` with the region's arrays at their final contents. -/
def reg (p : Fin 5) (lf : Pipeline.LaunchFacts (nD := nD) (τ := τ) cfgs p) (W W' : Dev nD → Valuation τ sig (Elt F))
    (hW' : ∀ c, W' c = Pipeline.withArrays (cfgs p).spec c (W c) fun w => (pdats m ρ p c).arrAt w (cfgs p).N)
    (hb : ∀ c, BodyObligation (pdats m ρ p c) (defs₀ (F := F)) 𝒱₀ () Set.univ)
    (hA : ∀ c w, (pdats m ρ p c).A w = W c (Pipeline.arrRef (cfgs p).spec w))
    (hi : ∀ c, Pipeline.ΦA (cfgs p).spec c ⊢ (pdats m ρ p c).Φ 0)
    (ho : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m ρ p c).1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (pdats_facts m ρ p c).2.2) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m ρ p c).1]
      icases HO with ⟨%W, HO⟩; iexists W; isplitr; · ipureintro; exact fun _ _ => Or.inl ((pdats_facts m ρ p c).2.1 _ _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (pdats_facts m ρ p c).2.2)
      (fun b => W c b) (fun b => W' c b) ((pdats m ρ p c).arrAt · (cfgs p).N)
      (fun w => ((congrFun (hW' c) _).trans (Pipeline.withArrays_arr _ lf.win.arr_inj c _ _ w)).symm)
      (fun b h => (congrFun (hW' c) _).trans (Pipeline.withArrays_of_ne _ c _ _ b fun w e => h (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_facts m ρ p c).1]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg m ρ 0 launch0 (W11 m ρ) (W12 m ρ) (fun _ => rfl) (body_obligation0 (V11 m ρ)) (A_eq0 (V11 m ρ)) (hin0 (V11 m ρ)) (hout0 (V11 m ρ))),
    .region (reg m ρ 1 launch1 (W12 m ρ) (W13 m ρ) (fun _ => rfl) (body_obligation1 (V12 m ρ)) (A_eq1 (V12 m ρ)) (hin1 (V12 m ρ)) (hout1 (V12 m ρ))),
    .host (hseg hostOps2 hostOps2_sub hostOps2_fresh (W13 m ρ)),
    .host (hseg hostOps2_1 hostOps2_1_sub hostOps2_1_fresh (W14 m ρ)),
    .host (hseg hostOps2_2 hostOps2_2_sub hostOps2_2_fresh (W15 m ρ)),
    .region (reg m ρ 2 launch2 (W16 m ρ) (W17 m ρ) (fun _ => rfl) (body_obligation2 (V16 m ρ)) (A_eq2 (V16 m ρ)) (hin2 (V16 m ρ)) (hout2 (V16 m ρ))),
    .region (reg m ρ 3 launch3 (W17 m ρ) (W18 m ρ) (fun _ => rfl) (body_obligation3 (V17 m ρ)) (A_eq3 (V17 m ρ)) (hin3 (V17 m ρ)) (hout3 (V17 m ρ))),
    .host (hseg hostOps4 hostOps4_sub hostOps4_fresh (W18 m ρ)),
    .region (reg m ρ 4 launch4 (W19 m ρ) (W20 m ρ) (fun _ => rfl) (body_obligation4 (V19 m ρ)) (A_eq4 (V19 m ρ)) (fun _ => .rfl) fun _ => .rfl) ]

theorem main_run (c : Dev nD) : main (F := F) c = Pipeline.Seg.run (segs m ρ) := (main_chain c).trans (by chain_rfl)

set_option backward.isDefEq.respectTransparency.types false in

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W20 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W20 m ρ c) ∗ ∃ r, prngReg c r))
    (hch := by and_intros <;> intro <;> first | exact .rfl | exact sep_assoc.2)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := hQ)

noncomputable def Wn : ℕ → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | 11 => W11 m ρ | 12 => W12 m ρ | 13 => W13 m ρ
  | 14 => W14 m ρ | 15 => W15 m ρ | 16 => W16 m ρ | 17 => W17 m ρ | 18 => W18 m ρ | 19 => W19 m ρ | _ => W20 m ρ

noncomputable def wr : ℕ → List (Ref sig .tc)
  | 0 => hostOps0_W | 1 => hostOps0_1_W | 2 => hostOps0_2_W | 3 => hostOps0_3_W | 4 => hostOps0_4_W | 5 => hostOps0_5_W
  | 6 => hostOps0_6_W | 7 => hostOps0_7_W | 8 => hostOps0_8_W | 9 => hostOps0_9_W | 10 => hostOps0_10_W | 11 => [main_v8]
  | 12 => [main_v9] | 13 => hostOps2_W | 14 => hostOps2_1_W | 15 => hostOps2_2_W | 16 => [main_v13] | 17 => [main_v14] | 18 => hostOps4_W | 19 => [main_v16] | _ => []

/-- Two valuations that agree at a region's input arrays and off its arrays agree at every reference that is none of its output arrays. -/
theorem keep_of {n : ℕ} {arr : Fin n → Ref sig .tc} {out : Fin n → Bool} {X Y : Valuation τ sig (Elt F)}
    (hin : ∀ w, out w = false → X (Proc.devRef .tc (arr w)) = Y (Proc.devRef .tc (arr w)))
    (hne : ∀ b, (∀ w, arr w ≠ b) → X (Proc.devRef .tc b) = Y (Proc.devRef .tc b))
    {l : List (Ref sig .tc)} (hl : ∀ w, out w = true → arr w ∈ l) {b : Ref sig .tc} (hb : b ∉ l) :
    X (Proc.devRef .tc b) = Y (Proc.devRef .tc b) := by
  by_cases h : ∃ w, arr w = b
  · obtain ⟨w, rfl⟩ := h; exact hin w (eq_false_of_ne_true fun ho => hb (hl w ho))
  · exact hne b fun w e => h ⟨w, e⟩

theorem Wn_step (k : ℕ) (c : Dev nD) (b : Ref sig .tc) (h : b ∉ wr k) :
    Wn m ρ (k + 1) c (Proc.devRef .tc b) = Wn m ρ k c (Proc.devRef .tc b) :=
  match k, h with
  | 0, h => W1_of m ρ c b h
  | 1, h => W2_of m ρ c b h
  | 2, h => W3_of m ρ c b h
  | 3, h => W4_of m ρ c b h
  | 4, h => W5_of m ρ c b h
  | 5, h => W6_of m ρ c b h
  | 6, h => W7_of m ρ c b h
  | 7, h => W8_of m ρ c b h
  | 8, h => W9_of m ρ c b h
  | 9, h => W10_of m ρ c b h
  | 10, h => W11_of m ρ c b h
  | 11, h => keep_of (W12_in m ρ c) (W12_of_ne m ρ c) (by decide) h
  | 12, h => keep_of (W13_in m ρ c) (W13_of_ne m ρ c) (by decide) h
  | 13, h => W14_of m ρ c b h
  | 14, h => W15_of m ρ c b h
  | 15, h => W16_of m ρ c b h
  | 16, h => keep_of (W17_in m ρ c) (W17_of_ne m ρ c) (by decide) h
  | 17, h => keep_of (W18_in m ρ c) (W18_of_ne m ρ c) (by decide) h
  | 18, h => W19_of m ρ c b h
  | 19, h => keep_of (W20_in m ρ c) (W20_of_ne m ρ c) (by decide) h
  | _ + 20, _ => rfl

/-- A reference that none of the `n` items after boundary `i` may change has at boundary `i + n` the contents it had at boundary `i`. -/
theorem Wn_walk (i n : ℕ) (c : Dev nD) (b : Ref sig .tc) (h : ∀ k < n, b ∉ wr (i + k)) :
    Wn m ρ (i + n) c (Proc.devRef .tc b) = Wn m ρ i c (Proc.devRef .tc b) := by
  induction n with
  | zero => rfl
  | succ n ih => exact (Wn_step m ρ (i + n) c b (h n n.lt_succ_self)).trans (ih fun k hk => h k (Nat.lt_succ_of_lt hk))

theorem kept {s : MemSt nD τ sig (Elt F)}
    (hs : ∀ c : Dev nD, ∀ b ∈ Pipeline.ucRefs τ sig, s.mem (((c : Thread nD τ)).1, b) = W20 m ρ c b) (c : Dev nD) (b : Ref sig .tc)
    (h0 : ¬ (Proc.devRef .tc b : DevRef τ sig).isScoped) (h : ∀ k < 20, b ∉ wr (0 + k)) :
    s.mem ((c.tc : Thread nD τ).loc b) = m ((c.tc : Thread nD τ).loc b) :=
  (hs c _ (mem_uc b h0)).trans (Wn_walk m ρ 0 20 c b h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c => by and_intros <;> exact kept m ρ h c _ (by decide) (by decide)

end Cert.Kernel.Hand

end
-- ==== Proof.KI.Sched.lean ====
import proofs.«407864_j23167053595206_1_alg».proof.Proof.Gen.KernelIdeal.Launch
import Idealize.ShloMosaic.Lib.Pipeline.Kit
import Idealize.ShloMosaic.Lib.Pipeline.Cells

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem transform0_3 (i : grid0.Coords) : cc0_transform_3 i = ![(i 0).val, 0] := by
  have h : (BitVec.ofNat 32 (i 0).val).toNat = (i 0).val := by
    rw [BitVec.toNat_ofNat]; exact Nat.mod_eq_of_lt (Nat.lt_trans (i 0).isLt (by decide : 521 < 2 ^ 32))
  show ![(BitVec.ofNat 32 (i 0).val).toNat, (0#32).toNat] = ![(i 0).val, 0]
  rw [h]
  try rfl

theorem coords0_fst (t : Fin grid0.N) : ((grid0.coords t) 0).val = t.val / 49 % 521 := by
  have hs : grid0.stride 0 = 49 := by decide
  show t.val / grid0.stride 0 % 521 = t.val / 49 % 521
  rw [hs]

theorem index0_3 (t : Fin grid0.N) : win0_3.index t = ![t.val / 49 % 521, 0] := by
  show cc0_transform_3 (grid0.coords t) = _
  rw [transform0_3, coords0_fst]

theorem flush0_3 : ∀ t : Fin cfg0.N, (cfg0.win 3).flush t = true ↔ t.val % 49 = 48 := fun t => by
  have hN : grid0.N = 25529 := N_0
  have ht : t.val < grid0.N := t.isLt
  show win0_3.flush t = true ↔ t.val % 49 = 48
  refine (win0_3.flush_out rfl t).trans ⟨?_, fun h => ?_⟩
  · rintro (h | ⟨h, hne⟩)
    · omega
    · rw [index0_3, index0_3] at hne
      by_contra hc
      exact hne (congrArg (fun a => ![a, 0]) (by show (t.val + 1) / 49 % 521 = t.val / 49 % 521; omega))
  · by_cases hl : t.val + 1 = grid0.N
    · exact .inl hl
    · refine .inr ⟨by omega, fun he => ?_⟩
      rw [index0_3, index0_3] at he
      have h0 : (t.val + 1) / 49 % 521 = t.val / 49 % 521 := congrFun he 0
      omega

theorem transform1_3 (i : grid1.Coords) : cc1_transform_3 i = ![(i 0).val, 0] := by
  have h : (BitVec.ofNat 32 (i 0).val).toNat = (i 0).val := by
    rw [BitVec.toNat_ofNat]; exact Nat.mod_eq_of_lt (Nat.lt_trans (i 0).isLt (by decide : 49 < 2 ^ 32))
  show ![(BitVec.ofNat 32 (i 0).val).toNat, (0#32).toNat] = ![(i 0).val, 0]
  rw [h]
  try rfl

theorem coords1_fst (t : Fin grid1.N) : ((grid1.coords t) 0).val = t.val / 521 % 49 := by
  have hs : grid1.stride 0 = 521 := by decide
  show t.val / grid1.stride 0 % 49 = t.val / 521 % 49
  rw [hs]

theorem index1_3 (t : Fin grid1.N) : win1_3.index t = ![t.val / 521 % 49, 0] := by
  show cc1_transform_3 (grid1.coords t) = _
  rw [transform1_3, coords1_fst]

theorem flush1_3 : ∀ t : Fin cfg1.N, (cfg1.win 3).flush t = true ↔ t.val % 521 = 520 := fun t => by
  have hN : grid1.N = 25529 := N_1
  have ht : t.val < grid1.N := t.isLt
  show win1_3.flush t = true ↔ t.val % 521 = 520
  refine (win1_3.flush_out rfl t).trans ⟨?_, fun h => ?_⟩
  · rintro (h | ⟨h, hne⟩)
    · omega
    · rw [index1_3, index1_3] at hne
      by_contra hc
      exact hne (congrArg (fun a => ![a, 0]) (by show (t.val + 1) / 521 % 49 = t.val / 521 % 49; omega))
  · by_cases hl : t.val + 1 = grid1.N
    · exact .inl hl
    · refine .inr ⟨by omega, fun he => ?_⟩
      rw [index1_3, index1_3] at he
      have h0 : (t.val + 1) / 521 % 49 = t.val / 521 % 49 := congrFun he 0
      omega

theorem transform2_3 (i : grid2.Coords) : cc2_transform_3 i = ![(i 0).val, 0] := by
  have h : (BitVec.ofNat 32 (i 0).val).toNat = (i 0).val := by
    rw [BitVec.toNat_ofNat]; exact Nat.mod_eq_of_lt (Nat.lt_trans (i 0).isLt (by decide : 521 < 2 ^ 32))
  show ![(BitVec.ofNat 32 (i 0).val).toNat, (0#32).toNat] = ![(i 0).val, 0]
  rw [h]
  try rfl

theorem coords2_fst (t : Fin grid2.N) : ((grid2.coords t) 0).val = t.val / 49 % 521 := by
  have hs : grid2.stride 0 = 49 := by decide
  show t.val / grid2.stride 0 % 521 = t.val / 49 % 521
  rw [hs]

theorem index2_3 (t : Fin grid2.N) : win2_3.index t = ![t.val / 49 % 521, 0] := by
  show cc2_transform_3 (grid2.coords t) = _
  rw [transform2_3, coords2_fst]

theorem flush2_3 : ∀ t : Fin cfg2.N, (cfg2.win 3).flush t = true ↔ t.val % 49 = 48 := fun t => by
  have hN : grid2.N = 25529 := N_2
  have ht : t.val < grid2.N := t.isLt
  show win2_3.flush t = true ↔ t.val % 49 = 48
  refine (win2_3.flush_out rfl t).trans ⟨?_, fun h => ?_⟩
  · rintro (h | ⟨h, hne⟩)
    · omega
    · rw [index2_3, index2_3] at hne
      by_contra hc
      exact hne (congrArg (fun a => ![a, 0]) (by show (t.val + 1) / 49 % 521 = t.val / 49 % 521; omega))
  · by_cases hl : t.val + 1 = grid2.N
    · exact .inl hl
    · refine .inr ⟨by omega, fun he => ?_⟩
      rw [index2_3, index2_3] at he
      have h0 : (t.val + 1) / 49 % 521 = t.val / 49 % 521 := congrFun he 0
      omega

theorem transform3_3 (i : grid3.Coords) : cc3_transform_3 i = ![(i 0).val, 0] := by
  have h : (BitVec.ofNat 32 (i 0).val).toNat = (i 0).val := by
    rw [BitVec.toNat_ofNat]; exact Nat.mod_eq_of_lt (Nat.lt_trans (i 0).isLt (by decide : 49 < 2 ^ 32))
  show ![(BitVec.ofNat 32 (i 0).val).toNat, (0#32).toNat] = ![(i 0).val, 0]
  rw [h]
  try rfl

theorem coords3_fst (t : Fin grid3.N) : ((grid3.coords t) 0).val = t.val / 521 % 49 := by
  have hs : grid3.stride 0 = 521 := by decide
  show t.val / grid3.stride 0 % 49 = t.val / 521 % 49
  rw [hs]

theorem index3_3 (t : Fin grid3.N) : win3_3.index t = ![t.val / 521 % 49, 0] := by
  show cc3_transform_3 (grid3.coords t) = _
  rw [transform3_3, coords3_fst]

theorem flush3_3 : ∀ t : Fin cfg3.N, (cfg3.win 3).flush t = true ↔ t.val % 521 = 520 := fun t => by
  have hN : grid3.N = 25529 := N_3
  have ht : t.val < grid3.N := t.isLt
  show win3_3.flush t = true ↔ t.val % 521 = 520
  refine (win3_3.flush_out rfl t).trans ⟨?_, fun h => ?_⟩
  · rintro (h | ⟨h, hne⟩)
    · omega
    · rw [index3_3, index3_3] at hne
      by_contra hc
      exact hne (congrArg (fun a => ![a, 0]) (by show (t.val + 1) / 521 % 49 = t.val / 521 % 49; omega))
  · by_cases hl : t.val + 1 = grid3.N
    · exact .inl hl
    · refine .inr ⟨by omega, fun he => ?_⟩
      rw [index3_3, index3_3] at he
      have h0 : (t.val + 1) / 521 % 49 = t.val / 521 % 49 := congrFun he 0
      omega

theorem flush4_5 : ∀ t : Fin cfg4.N, (cfg4.win 5).flush t = true :=
  (by decide +kernel : ∀ t : Fin grid4.N, win4_5.flush t = true)

abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev st4_4 (t : Fin cfg4.N) := (cfg4.win 4).stage (cfg4.slots t 4)
abbrev st4_5 (t : Fin cfg4.N) := (cfg4.win 5).stage (cfg4.slots t 5)

abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (Memref.whole cc3_scratch0) (Memref.isWhole_whole _)

abbrev bodyAt4 (t : Fin cfg4.N) : Prog (TpuEff nD τ sig (Elt F) Λ₀ .tc) PUnit :=
  cc4__mlp_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5))

end Cert.KernelIdeal.Hand

end
-- ==== Proof.KI.G0.Runs.lean ====
import proofs.«407864_j23167053595206_1_alg».proof.Proof.Gen.KernelIdeal.Launch
import proofs.«407864_j23167053595206_1_alg».proof.Proof.Gen.KernelIdeal.Skeleton
import proofs.«407864_j23167053595206_1_alg».proof.Proof.KI.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem coords0_1 (t : Fin grid0.N) : ((grid0.coords t) 1).val = t.val % 49 := by
  have h : grid0.stride 1 = 1 := by decide
  show t.val / grid0.stride 1 % grid0.bound 1 = t.val % 49
  rw [h, Nat.div_one]; rfl

abbrev cond0_0 (i : grid0.Coords) : Prop := (Scalar.cmpi .ne (Scalar.extui (Scalar.cmpi .eq (BitVec.ofNat 32 (i 1).val) 0#32)) 0#32) = 1#1

theorem cond0_0_iff (i : grid0.Coords) : cond0_0 i ↔ (i 1).val = 0 :=
  (by decide +kernel : ∀ j : Fin 49, (Scalar.cmpi .ne (Scalar.extui (Scalar.cmpi .eq (BitVec.ofNat 32 j.val) 0#32)) 0#32) = 1#1 ↔ j.val = 0) (i 1)

theorem hcond0_0 : ∀ t : Fin cfg0.N, cond0_0 (grid0.coords t) ↔ t.val % 49 = 0 := fun t =>
  (cond0_0_iff (grid0.coords t)).trans (by rw [coords0_1 t])

abbrev cond0_1 (i : grid0.Coords) : Prop := k0_cond2 i = 1#1

theorem cond0_1_iff (i : grid0.Coords) : cond0_1 i ↔ (i 1).val = 48 :=
  (by decide +kernel : ∀ j : Fin 49, (Scalar.cmpi .ne (Scalar.extui (Scalar.cmpi .eq (BitVec.ofNat 32 j.val) 48#32)) 0#32) = 1#1 ↔ j.val = 48) (i 1)

theorem hcond0_1 : ∀ t : Fin cfg0.N, cond0_1 (grid0.coords t) ↔ t.val % 49 = 48 := fun t =>
  (cond0_1_iff (grid0.coords t)).trans (by rw [coords0_1 t])

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idle0_3_iff (i : grid0.Coords) : cfg0.idle 3 i = true ↔ ¬cond0_1 i := by
  show (!(k0_cond2 i == 1#1)) = true ↔ ¬(k0_cond2 i = 1#1)
  rw [Bool.not_eq_true', beq_eq_false_iff_ne]

theorem liveAt0_3_C : ∀ t : Fin cfg0.N, ¬cond0_0 (grid0.coords t) → cond0_1 (grid0.coords t) → cfg0.idle 3 (grid0.coords t) = false :=
  fun t _ h => Bool.eq_false_iff.2 fun hi => (idle0_3_iff _).1 hi h

theorem noFlush0_3_of : ∀ t : Fin cfg0.N, ¬cond0_1 (grid0.coords t) → (cfg0.win 3).flush t = false :=
  fun t h => Bool.eq_false_iff.2 fun hf => h ((hcond0_1 t).2 ((flush0_3 t).1 hf))
abbrev VO0_3 : View sig .tc .vmem S3072x48 .bf16 := (Memref.whole cc0_stg3_0 : Memref sig .tc .vmem S3072x48 .bf16).view

abbrev ms0_0 (t : Fin cfg0.N) : Memref sig .tc .vmem S3072 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x48 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x48 .bf16 := win0_3.stage (cfg0.slots t 3)
abbrev hs0_3 (t : Fin cfg0.N) : (ms0_3 t).IsWhole := hstage0_3 ((cfg0.slots t 3).cast nbuf0_3)

abbrev scM0_0 : Memref sig .tc .vmem S3072x48 .f32 := Memref.whole cc0_scratch0

abbrev VS0_0 : View sig .tc .vmem S3072x48 .f32 := scM0_0.view

theorem PhiA0_eq (c : Dev nD) :
    (Pipeline.ΦA spec0 c : sProp 𝕄)
      = iprop(iprop((∃ d, owns (c : Thread nD τ) scM0_0 fullShare d)
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

end Cert.KernelIdeal.Hand

end
-- ==== Proof.KI.G0.RunA.lean ====
import proofs.«407864_j23167053595206_1_alg».proof.Proof.KI.G0.Runs
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

/-- The body run at one point: the three inputs are held throughout, `A ∗ S` goes in, `A'` and the scratch written with `LS0` come out. -/
abbrev kernelRun0_spec (x0 : Vec F S3072 .i32) (x1 : Vec F S3072 .f32) (x2 : Vec F S2048x48 .bf16) (A A' S : sProp 𝕄)
    (LS0 : List (View.Piece (Elt F) S3072x48 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ A ∗ S
        ∗ (iprop(owns (c : Thread nD τ) arg2 fullShare x0 ∗ owns (c : Thread nD τ) arg3 fullShare x1 ∗ owns (c : Thread nD τ) arg4 fullShare x2 ∗ A'
            ∗ (∃ f, arg6.view.loc (c : Thread nD τ) ↦[arg6.view.set]{fullShare} arg6.view.writes (Elt F) f LS0)) -∗ K ⟨⟩))
      ⊢ wp frame (wpE (defs₀ (F := F)) Variants.none c none) E (cc0__gather_kernel i arg2 harg2 arg3 harg3 arg4 harg4 arg5 harg5 arg6 harg6) K

set_option maxHeartbeats 1000000 in

def kernelRun0_A (hc0 : cond0_0 i) (hc1 : ¬cond0_1 i) (x0 : Vec F S3072 .i32) (x1 : Vec F S3072 .f32) (x2 : Vec F S2048x48 .bf16) :
    Σ' (L3 : List (View.Piece (Elt F) S3072x48 .bf16)), { LS0 : List (View.Piece (Elt F) S3072x48 .f32) //
      ∀ xi3 : Vec F S3072x48 .bf16, kernelRun0_spec c i arg2 harg2 arg3 harg3 arg4 harg4 arg5 harg5 arg6 harg6 x0 x1 x2
        (owns (c : Thread nD τ) arg5 fullShare xi3) (owns (c : Thread nD τ) arg5 fullShare xi3) iprop(∃ d, owns (c : Thread nD τ) arg6 fullShare d) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5]
    simp only [cc0__gather_kernel_eq_skeleton]; unfold cc0__gather_kernel_skel owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.KernelIdeal.Hand

end
-- ==== Proof.KI.G0.RunB.lean ====
import proofs.«407864_j23167053595206_1_alg».proof.Proof.KI.G0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun0_B (hc0 : ¬cond0_0 i) (hc1 : ¬cond0_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      ∀ xi3 : Vec F S3072x48 .bf16, kernelRun0_spec c i arg2 harg2 arg3 harg3 arg4 harg4 arg5 harg5 arg6 harg6 x0 x1 x2
        (owns (c : Thread nD τ) arg5 fullShare xi3) (owns (c : Thread nD τ) arg5 fullShare xi3) (owns (c : Thread nD τ) arg6 fullShare xs0) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5, Lib.owns_eq_unread c.tc harg6]
    simp only [cc0__gather_kernel_eq_skeleton]; unfold cc0__gather_kernel_skel
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.G0.RunC.lean ====
import proofs.«407864_j23167053595206_1_alg».proof.Proof.KI.G0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun0_C (hc0 : ¬cond0_0 i) (hc1 : cond0_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      kernelRun0_spec c i arg2 harg2 arg3 harg3 arg4 harg4 arg5 harg5 arg6 harg6 x0 x1 x2 iprop(∃ d, owns (c : Thread nD τ) arg5 fullShare d)
        iprop(∃ f, arg5.view.loc (c : Thread nD τ) ↦[arg5.view.set]{fullShare} arg5.view.writes (Elt F) f L3) (owns (c : Thread nD τ) arg6 fullShare xs0) LS0 } := by
  refine ⟨?_, ?_, fun E K => ?run⟩
  case run =>
    rw [Lib.owns_eq_unread c.tc harg2, Lib.owns_eq_unread c.tc harg3, Lib.owns_eq_unread c.tc harg4, Lib.owns_eq_unread c.tc harg6]
    simp only [cc0__gather_kernel_eq_skeleton]; unfold cc0__gather_kernel_skel owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.G0.Frame.lean ====
import proofs.«407864_j23167053595206_1_alg».proof.Proof.KI.G0.RunC
import proofs.«407864_j23167053595206_1_alg».proof.Proof.KI.Sched
import proofs.«407864_j23167053595206_1_alg».proof.Proof.LibBody
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut0_3 : Vec F S3072x48 .bf16 := VO0_3.read (Elt F) VO0_3.junk

def ptA0 (c : Dev nD) (t : Fin cfg0.N) (h0 : t.val % 49 = 0) (h1 : ¬t.val % 49 = 48) :
    Vec F S3072x48 .bf16 × Vec F S3072x48 .f32 :=
  (idleOut0_3, VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t)
    scM0_0 (Memref.isWhole_whole _)
    ((hcond0_0 t).mpr h0) (mt (hcond0_1 t).mp h1) (iblk0 V c 0 t) (iblk0 V c 1 t) (iblk0 V c 2 t)).2.1))

def ptB0 (c : Dev nD) (t : Fin cfg0.N) (h0 : ¬t.val % 49 = 0) (h1 : ¬t.val % 49 = 48) (xs0 : Vec F S3072x48 .f32) :
    Vec F S3072x48 .bf16 × Vec F S3072x48 .f32 :=
  (idleOut0_3, VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t)
    scM0_0 (Memref.isWhole_whole _)
    (mt (hcond0_0 t).mp h0) (mt (hcond0_1 t).mp h1) (iblk0 V c 0 t) (iblk0 V c 1 t) (iblk0 V c 2 t) xs0).2.1))

def ptC0 (c : Dev nD) (t : Fin cfg0.N) (h0 : ¬t.val % 49 = 0) (h1 : t.val % 49 = 48) (xs0 : Vec F S3072x48 .f32) :
    Vec F S3072x48 .bf16 × Vec F S3072x48 .f32 :=
  let r := kernelRun0_C c (grid0.coords t) (ms0_0 t) (hs0_0 t) (ms0_1 t) (hs0_1 t) (ms0_2 t) (hs0_2 t) (ms0_3 t) (hs0_3 t)
    scM0_0 (Memref.isWhole_whole _)
    (mt (hcond0_0 t).mp h0) ((hcond0_1 t).mpr h1) (iblk0 V c 0 t) (iblk0 V c 1 t) (iblk0 V c 2 t) xs0
  (VO0_3.read (Elt F) (VO0_3.writes (Elt F) VO0_3.junk r.1), VS0_0.read (Elt F) (VS0_0.writes (Elt F) VS0_0.junk r.2.1))

def outsAt0 (c : Dev nD) : (n : ℕ) → n < cfg0.N → Vec F S3072x48 .bf16 × Vec F S3072x48 .f32
  | 0, hn => ptA0 V c ⟨0, hn⟩ (Nat.zero_mod _) (by simp)
  | n + 1, hn =>
    if h0 : (n + 1) % 49 = 0 then
      if h1 : (n + 1) % 49 = 48 then False.elim (by omega)
      else ptA0 V c ⟨n + 1, hn⟩ h0 h1
    else
      if h1 : (n + 1) % 49 = 48 then ptC0 V c ⟨n + 1, hn⟩ h0 h1 (outsAt0 c n (Nat.lt_of_succ_lt hn)).2
      else ptB0 V c ⟨n + 1, hn⟩ h0 h1 (outsAt0 c n (Nat.lt_of_succ_lt hn)).2

theorem outsAt0_A (c : Dev nD) (t : Fin cfg0.N) (h0 : t.val % 49 = 0) (h1 : ¬t.val % 49 = 48) :
    outsAt0 V c t.val t.isLt = ptA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt
      = ptB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 49 = 0) (h1 : t.val % 49 = 48) :
    outsAt0 V c t.val t.isLt
      = ptC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

abbrev PhiS0_at (c : Dev nD) (x : Vec F S3072x48 .f32) : sProp 𝕄 :=
  iprop(iprop(owns (c : Thread nD τ) scM0_0 fullShare x
      ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => PhiS0_at c (outsAt0 V c n hn).2

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = PhiS0_at c (outsAt0 V c n hn).2 := rfl

theorem PhiS0_pos (c : Dev nD) (n : ℕ) (h : n ≤ cfg0.N) (hz : n ≠ 0) :
    PhiS0 V c n h = PhiS0_at c (outsAt0 V c (n - 1) (by omega)).2 := by
  cases n with
  | zero => exact absurd rfl hz
  | succ n => rfl

theorem PhiS0_le (c : Dev nD) (n : ℕ) (h : n ≤ cfg0.N) : PhiS0 V c n h ⊢ Pipeline.ΦA spec0 c := by
  cases n with
  | zero => exact .rfl
  | succ n => rw [PhiS0_succ, PhiA0_eq]; exact sep_mono_left (sep_mono_left (exists_intro _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = (outsAt0 V c t.val t.isLt).1 := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t]; rfl
theorem leaves0_1 (c : Dev nD) (t : Fin cfg0.N) :
    (dat0 V c).leavesExact 1 t = owns (c : Thread nD τ) (ms0_1 t) fullShare (iblk0 V c 1 t) := by
  unfold Dat.leavesExact; rw [liveAt0_1 t]; rfl
theorem leaves0_2 (c : Dev nD) (t : Fin cfg0.N) :
    (dat0 V c).leavesExact 2 t = owns (c : Thread nD τ) (ms0_2 t) fullShare (iblk0 V c 2 t) := by
  unfold Dat.leavesExact; rw [liveAt0_2 t]; rfl

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc V c t]
  have e0 := hcond0_0 t
  have e1 := hcond0_1 t
  by_cases h1 : t.val % 49 = 48
  · have h0 : ¬t.val % 49 = 0 := by omega
    rw [PhiS0_pos V c _ _ fun e => h0 (by rw [e]), show (dat0 V c).leavesExact 3 t = owns (c : Thread nD τ) (ms0_3 t) fullShare ((dat0 V c).after 3 t) from by
      unfold Dat.leavesExact; rw [liveAt0_3_C t (mt e0.mp h0) (e1.mpr h1)], after0_3, outsAt0_C V c t h0 h1]
    unfold ptC0; dsimp only
    exact Lib.run_framed (fun d K => (kernelRun0_C _ _ _ _ _ _ _ _ _ _ _ _ (mt e0.mp h0) (e1.mpr h1) _ _ _ _).2.2 Set.univ K)
      .rfl (fun d => exists_intro _) (Lib.owns_of_writes (c : Thread nD τ) scM0_0 _ VS0_0 _ (View.cover_of_tiledL _ S3072x48.size (by sl_kernel_rfl)))
      (exists_elim fun _ => Lib.owns_of_writes (c : Thread nD τ) (ms0_3 t) _ VO0_3 _ (View.cover_of_tiledL _ S3072x48.size (by sl_kernel_rfl)))
  · have c1 := mt e1.mp h1
    rw [Dat.leavesExact_idle (dat0 V c) 3 t ((idle0_3_iff _).2 c1) (noFlush0_3_of t c1)]
    by_cases h0 : t.val % 49 = 0
    · rw [outsAt0_A V c t h0 h1]
      unfold ptA0; dsimp only
      refine (sep_mono_left ((PhiS0_le V c _ _).trans (.of_eq (PhiA0_eq c)))).trans ?_
      exact Lib.run_framed (fun d K => (kernelRun0_A _ _ _ _ _ _ _ _ _ _ _ _ (e0.mpr h0) c1 _ _ _).2.2 _ Set.univ K)
        .rfl (fun _ => .rfl) (Lib.owns_of_writes (c : Thread nD τ) scM0_0 _ VS0_0 _ (View.cover_of_tiledL _ S3072x48.size (by sl_kernel_rfl))) .rfl
    · rw [PhiS0_pos V c _ _ fun e => h0 (by rw [e]), outsAt0_B V c t h0 h1]
      unfold ptB0; dsimp only
      exact Lib.run_framed (fun d K => (kernelRun0_B _ _ _ _ _ _ _ _ _ _ _ _ (mt e0.mp h0) c1 _ _ _ _).2.2 _ Set.univ K)
        .rfl (fun _ => .rfl) (Lib.owns_of_writes (c : Thread nD τ) scM0_0 _ VS0_0 _ (View.cover_of_tiledL _ S3072x48.size (by sl_kernel_rfl))) .rfl

theorem body_obligation0 (c : Dev nD) :
    BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  PhiS0_le V c (Fin.last cfg0.N).val (Nat.le_of_lt_succ (Fin.last cfg0.N).isLt)

end Cert.KernelIdeal.Hand

end
-- ==== Proof.KI.S1.Runs.lean ====
import proofs.«407864_j23167053595206_1_alg».proof.Proof.Gen.KernelIdeal.Launch
import proofs.«407864_j23167053595206_1_alg».proof.Proof.Gen.KernelIdeal.Skeleton
import proofs.«407864_j23167053595206_1_alg».proof.Proof.KI.Sched
import Idealize.ShloMosaic.Lib.Pipeline.FrameBody
import Idealize.ShloMosaic.Lib.Pipeline.FrameSuffix
import Idealize.ShloMosaic.Lib.Ring
import Idealize.ShloMosaic.Lib.Tactic
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem coords1_snd (t : Fin cfg1.N) : ((grid1.coords t) 1).val = t.val % 521 := by
  have hs : grid1.stride 1 = 1 := by decide
  show t.val / grid1.stride 1 % 521 = t.val % 521
  rw [hs, Nat.div_one]

theorem cond1_0_fin : ∀ j : Fin 521,
    (Scalar.cmpi .ne (Scalar.extui (Scalar.cmpi .eq (BitVec.ofNat 32 j.val) 0#32)) 0#32) = 1#1 ↔ j.val = 0 := by decide +kernel

theorem cond1_1_fin : ∀ j : Fin 521,
    (Scalar.cmpi .ne (Scalar.extui (Scalar.cmpi .eq (BitVec.ofNat 32 j.val) 520#32)) 0#32) = 1#1 ↔ j.val = 520 := by decide +kernel

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 521 = 0 := fun t => by
  rw [← coords1_snd t]; exact cond1_0_fin ((grid1.coords t) 1)

abbrev cond1_1 (i : grid1.Coords) : Prop := k1_cond2 i = 1#1

theorem hcond1_1 : ∀ t : Fin cfg1.N, cond1_1 (grid1.coords t) ↔ t.val % 521 = 520 := fun t => by
  rw [← coords1_snd t]; exact cond1_1_fin ((grid1.coords t) 1)

theorem idle1_3_iff (i : grid1.Coords) : cfg1.idle 3 i = true ↔ ¬cond1_1 i := by
  show (!(k1_cond2 i == 1#1)) = true ↔ ¬(k1_cond2 i = 1#1)
  rw [Bool.not_eq_true', beq_eq_false_iff_ne]

theorem noFlush1_3_of (t : Fin cfg1.N) (h : ¬cond1_1 (grid1.coords t)) : (cfg1.win 3).flush t = false := by
  rw [Bool.eq_false_iff]; exact fun hf => h ((hcond1_1 t).2 ((flush1_3 t).1 hf))

theorem liveAt1_3_C : ∀ t : Fin cfg1.N, ¬cond1_0 (grid1.coords t) → cond1_1 (grid1.coords t) → cfg1.idle 3 (grid1.coords t) = false :=
  fun t _ h => Bool.eq_false_iff.2 fun hb => (idle1_3_iff _).1 hb h

abbrev ms1_0 (t : Fin cfg1.N) : Memref sig .tc .vmem S3072 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x48 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x48 .f32 := win1_3.stage (cfg1.slots t 3)
abbrev hs1_3 (t : Fin cfg1.N) : (ms1_3 t).IsWhole := hstage1_3 ((cfg1.slots t 3).cast nbuf1_3)

abbrev scM1_0 : Memref sig .tc .vmem S2048x48 .f32 := Memref.whole cc1_scratch0

abbrev VS1_0 : View sig .tc .vmem S2048x48 .f32 := scM1_0.view

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

end Cert.KernelIdeal.Hand

end
-- ==== Proof.KI.S1.RunA.lean ====
import proofs.«407864_j23167053595206_1_alg».proof.Proof.KI.S1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_A (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : cond1_0 i) (hc1 : ¬cond1_1 i)
    (x0 : Vec F S3072 .i32) (x1 : Vec F S3072x48 .bf16) (x2 : Vec F S2048 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, H3, ⟨%ds0, HS0⟩, Hk⟩
    sl_exec (disch := first | exact hc0 | exact hc1)
    sl_step
    iapply Hk
    iframe H0 H1 H2 H3
    iexists _; iexact HS0

end Cert.KernelIdeal.Hand

end
-- ==== Proof.KI.S1.RunB.lean ====
import proofs.«407864_j23167053595206_1_alg».proof.Proof.KI.S1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_B (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond1_0 i) (hc1 : ¬cond1_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.S1.RunC.lean ====
import proofs.«407864_j23167053595206_1_alg».proof.Proof.KI.S1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun1_C (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond1_0 i) (hc1 : cond1_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc1__scatter_kernel_skel
    iintro ⟨H0, H1, H2, ⟨%d3, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.S1.Frame.lean ====
import proofs.«407864_j23167053595206_1_alg».proof.Proof.KI.S1.RunC
import proofs.«407864_j23167053595206_1_alg».proof.Proof.LibBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

section
variable {c} {i : grid1.Coords} {arg2 : Memref sig .tc .vmem S3072 .i32} {harg2 : arg2.IsWhole} {arg3 : Memref sig .tc .vmem S3072x48 .bf16} {harg3 : arg3.IsWhole} {arg4 : Memref sig .tc .vmem S2048 .f32} {harg4 : arg4.IsWhole} {arg5 : Memref sig .tc .vmem S2048x48 .f32} {harg5 : arg5.IsWhole} {arg6 : Memref sig .tc .vmem S2048x48 .f32} {harg6 : arg6.IsWhole}
  {x0 : Vec F S3072 .i32} {x1 : Vec F S3072x48 .bf16} {x2 : Vec F S2048 .f32} {xs0 : Vec F S2048x48 .f32}

theorem scover1_A_0 (hc0 : cond1_0 i) (hc1 : ¬cond1_1 i) : ∀ y, ∃ pc ∈ (kernelRun1_A c i arg2 harg2 arg3 harg3 arg4 harg4 arg5 harg5 arg6 harg6 hc0 hc1 x0 x1 x2).2.1, y ∈ pc.1.set :=
  View.cover_of_tiledL _ S2048x48.size (by sl_kernel_rfl)

theorem scover1_B_0 (hc0 : ¬cond1_0 i) (hc1 : ¬cond1_1 i) : ∀ y, ∃ pc ∈ (kernelRun1_B c i arg2 harg2 arg3 harg3 arg4 harg4 arg5 harg5 arg6 harg6 hc0 hc1 x0 x1 x2 xs0).2.1, y ∈ pc.1.set :=
  View.cover_of_tiledL _ S2048x48.size (by sl_kernel_rfl)

theorem scover1_C_0 (hc0 : ¬cond1_0 i) (hc1 : cond1_1 i) : ∀ y, ∃ pc ∈ (kernelRun1_C c i arg2 harg2 arg3 harg3 arg4 harg4 arg5 harg5 arg6 harg6 hc0 hc1 x0 x1 x2 xs0).2.1, y ∈ pc.1.set :=
  View.cover_of_tiledL _ S2048x48.size (by sl_kernel_rfl)

theorem cover1_C_3 (hc0 : ¬cond1_0 i) (hc1 : cond1_1 i) : ∀ y, ∃ pc ∈ (kernelRun1_C c i arg2 harg2 arg3 harg3 arg4 harg4 arg5 harg5 arg6 harg6 hc0 hc1 x0 x1 x2 xs0).1, y ∈ pc.1.set :=
  View.cover_of_tiledL _ S2048x48.size (by sl_kernel_rfl)

end

attribute [local irreducible] kernelRun1_A kernelRun1_B kernelRun1_C

abbrev out1_of (L : List (View.Piece (Elt F) S2048x48 .f32)) : Vec F S2048x48 .f32 := VS1_0.read (Elt F) (VS1_0.writes (Elt F) VS1_0.junk L)

theorem owns1_of_writes (m : Memref sig .tc .vmem S2048x48 .f32) {L : List (View.Piece (Elt F) S2048x48 .f32)} (h : ∀ y, ∃ pc ∈ L, y ∈ pc.1.set) :
    (iprop(∃ f, m.view.loc (c : Thread nD τ) ↦[m.view.set]{fullShare} m.view.writes (Elt F) f L) : sProp 𝕄) ⊢ owns (c : Thread nD τ) m fullShare (out1_of L) := by
  iintro ⟨%f, H⟩; unfold owns; iexists _; isplitr
  swap; · iexact H
  ipureintro; exact View.read_writes_of_cover _ _ _ _ _ h

abbrev out1_pair {p : List (View.Piece (Elt F) S2048x48 .f32) → List (View.Piece (Elt F) S2048x48 .f32) → Prop}
    (r : Σ' L3, { LS0 // p L3 LS0 }) : Vec F S2048x48 .f32 × Vec F S2048x48 .f32 := (out1_of r.1, out1_of r.2.1)

abbrev kernelRun1_tA (h0 : cond1_0 (grid1.coords t)) (h1 : ¬cond1_1 (grid1.coords t)) :=
  kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

abbrev kernelRun1_tB (h0 : ¬cond1_0 (grid1.coords t)) (h1 : ¬cond1_1 (grid1.coords t)) :=
  kernelRun1_B c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

abbrev kernelRun1_tC (h0 : ¬cond1_0 (grid1.coords t)) (h1 : cond1_1 (grid1.coords t)) :=
  kernelRun1_C c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)

def outsAt1_step (p : Vec F S2048x48 .f32) : Vec F S2048x48 .f32 × Vec F S2048x48 .f32 :=
  if h0 : cond1_0 (grid1.coords t) then
    if h1 : cond1_1 (grid1.coords t) then (p, p) else out1_pair (kernelRun1_tA V c t h0 h1)
  else if h1 : cond1_1 (grid1.coords t) then out1_pair (kernelRun1_tC V c t h0 h1 p) else out1_pair (kernelRun1_tB V c t h0 h1 p)

def outsAt1 (c : Dev nD) : (n : ℕ) → n < cfg1.N → Vec F S2048x48 .f32 × Vec F S2048x48 .f32
  | 0, hn => outsAt1_step V c ⟨0, hn⟩ (out1_of [])
  | n + 1, hn => outsAt1_step V c ⟨n + 1, hn⟩ (outsAt1 c n (Nat.lt_of_succ_lt hn)).2

theorem outsAt1_A (h0 : cond1_0 (grid1.coords t)) (h1 : ¬cond1_1 (grid1.coords t)) :
    outsAt1 V c t.val t.isLt = out1_pair (kernelRun1_tA V c t h0 h1) := by
  obtain ⟨n, hn⟩ := t
  cases n <;> exact (dif_pos h0).trans (dif_neg h1)

theorem outsAt1_B (h0 : ¬cond1_0 (grid1.coords t)) (h1 : ¬cond1_1 (grid1.coords t)) :
    outsAt1 V c t.val t.isLt = out1_pair (kernelRun1_tB V c t h0 h1 (outsAt1 V c (t.val - 1) (Nat.lt_of_le_of_lt (Nat.sub_le _ _) t.isLt)).2) := by
  obtain ⟨n, hn⟩ := t
  cases n with
  | zero => exact absurd ((hcond1_0 _).2 (Nat.zero_mod _)) h0
  | succ n => exact (dif_neg h0).trans (dif_neg h1)

theorem outsAt1_C (h0 : ¬cond1_0 (grid1.coords t)) (h1 : cond1_1 (grid1.coords t)) :
    outsAt1 V c t.val t.isLt = out1_pair (kernelRun1_tC V c t h0 h1 (outsAt1 V c (t.val - 1) (Nat.lt_of_le_of_lt (Nat.sub_le _ _) t.isLt)).2) := by
  obtain ⟨n, hn⟩ := t
  cases n with
  | zero => exact absurd ((hcond1_0 _).2 (Nat.zero_mod _)) h0
  | succ n => exact (dif_neg h0).trans (dif_pos h1)

def PhiS1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem PhiS1_le (n : ℕ) (h : n ≤ cfg1.N) : PhiS1 V c n h ⊢ ∃ d, owns (c : Thread nD τ) scM1_0 fullShare d := by
  cases n
  · exact Entails.refl _
  · show owns (c : Thread nD τ) scM1_0 fullShare _ ⊢ _; exact exists_intro _

theorem PhiS1_pos (n : ℕ) (h : n ≤ cfg1.N) (hz : n ≠ 0) :
    PhiS1 V c n h = owns (c : Thread nD τ) scM1_0 fullShare (outsAt1 V c (n - 1) (by omega)).2 := by
  cases n
  exacts [absurd rfl hz, rfl]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(iprop(PhiS1 V c t.val (Nat.le_of_lt_succ t.isLt) ∗ Pipeline.scopedRestBut spec1 c [cc1_scratch0]) ∗ (∃ r, prngReg c r))
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

theorem before1_0 (d) : (dat1 V c).before 0 t d = iblk1 V c 0 t := before1_0_of V _ rfl (fun _ => rfl) t d
theorem before1_1 (d) : (dat1 V c).before 1 t d = iblk1 V c 1 t := before1_1_of V _ rfl (fun _ => rfl) t d
theorem before1_2 (d) : (dat1 V c).before 2 t d = iblk1 V c 2 t := before1_2_of V _ rfl (fun _ => rfl) t d

theorem leaves1_live (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(owns (c : Thread nD τ) scM1_0 fullShare (outsAt1 V c t.val t.isLt).2 ∗ _) ∗ _) from rfl,
    show (dat1 V c).Φ t.castSucc = iprop(iprop(PhiS1 V c t.val (Nat.le_of_lt t.isLt) ∗ _) ∗ _) from rfl,
    leaves1_live V c t 0 rfl, leaves1_live V c t 1 rfl, leaves1_live V c t 2 rfl]
  by_cases h0 : cond1_0 (grid1.coords t)
  · have h1 : ¬cond1_1 (grid1.coords t) := fun h => by have := (hcond1_0 t).1 h0; have := (hcond1_1 t).1 h; omega
    rw [Dat.leavesExact_idle _ 3 t ((idle1_3_iff _).2 h1) (noFlush1_3_of t h1), outsAt1_A V c t h0 h1]
    exact Cert.Lib.run_framed (fun _ K => (kernelRun1_tA V c t h0 h1).2.2 _ Set.univ K) (PhiS1_le V c _ _) (fun _ => Entails.refl _)
      (owns1_of_writes c _ (scover1_A_0 _ _)) (Entails.refl _)
  · have hz : t.val ≠ 0 := fun hz => h0 ((hcond1_0 t).2 (by rw [hz]))
    by_cases h1 : cond1_1 (grid1.coords t)
    · rw [leaves1_live V c t 3 (liveAt1_3_C t h0 h1), after1_3, outsAt1_C V c t h0 h1, PhiS1_pos V c _ _ hz]
      exact Cert.Lib.run_framed (fun _ K => (kernelRun1_tC V c t h0 h1 _).2.2 Set.univ K) (Entails.refl _) (fun _ => exists_intro _)
        (owns1_of_writes c _ (scover1_C_0 _ _)) (exists_elim fun _ => owns1_of_writes c _ (cover1_C_3 _ _))
    · rw [Dat.leavesExact_idle _ 3 t ((idle1_3_iff _).2 h1) (noFlush1_3_of t h1), outsAt1_B V c t h0 h1, PhiS1_pos V c _ _ hz]
      exact Cert.Lib.run_framed (fun _ K => (kernelRun1_tB V c t h0 h1 _).2.2 _ Set.univ K) (Entails.refl _) (fun _ => Entails.refl _)
        (owns1_of_writes c _ (scover1_B_0 _ _)) (Entails.refl _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; exact .rfl

theorem hout1 (c : Dev nD) : (dat1 V c).Φ (Fin.last cfg1.N) ⊢ Pipeline.ΦA spec1 c := by
  rw [PhiA1_eq]; exact sep_mono_left (sep_mono_left (PhiS1_le V c _ _))

end Cert.KernelIdeal.Hand

end
-- ==== Proof.KI.G2.Runs.lean ====
import proofs.«407864_j23167053595206_1_alg».proof.Proof.Gen.KernelIdeal.Launch
import proofs.«407864_j23167053595206_1_alg».proof.Proof.Gen.KernelIdeal.Skeleton
import proofs.«407864_j23167053595206_1_alg».proof.Proof.KI.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coords2_1 (t : Fin grid2.N) : ((grid2.coords t) 1).val = t.val % 49 := by
  have h : grid2.stride 1 = 1 := by decide
  show t.val / grid2.stride 1 % grid2.bound 1 = t.val % 49
  rw [h, Nat.div_one]; rfl

abbrev cond2_0 (i : grid2.Coords) : Prop := (Scalar.cmpi .ne (Scalar.extui (Scalar.cmpi .eq (BitVec.ofNat 32 (i 1).val) 0#32)) 0#32) = 1#1

theorem cond2_0_iff (i : grid2.Coords) : cond2_0 i ↔ (i 1).val = 0 :=
  (by decide +kernel : ∀ j : Fin 49, (Scalar.cmpi .ne (Scalar.extui (Scalar.cmpi .eq (BitVec.ofNat 32 j.val) 0#32)) 0#32) = 1#1 ↔ j.val = 0) (i 1)

theorem hcond2_0 : ∀ t : Fin cfg2.N, cond2_0 (grid2.coords t) ↔ t.val % 49 = 0 := fun t =>
  (cond2_0_iff (grid2.coords t)).trans (by rw [coords2_1 t])

abbrev cond2_1 (i : grid2.Coords) : Prop := k2_cond2 i = 1#1

theorem cond2_1_iff (i : grid2.Coords) : cond2_1 i ↔ (i 1).val = 48 :=
  (by decide +kernel : ∀ j : Fin 49, (Scalar.cmpi .ne (Scalar.extui (Scalar.cmpi .eq (BitVec.ofNat 32 j.val) 48#32)) 0#32) = 1#1 ↔ j.val = 48) (i 1)

theorem hcond2_1 : ∀ t : Fin cfg2.N, cond2_1 (grid2.coords t) ↔ t.val % 49 = 48 := fun t =>
  (cond2_1_iff (grid2.coords t)).trans (by rw [coords2_1 t])

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idle2_3_iff (i : grid2.Coords) : cfg2.idle 3 i = true ↔ ¬cond2_1 i := by
  show (!(k2_cond2 i == 1#1)) = true ↔ ¬(k2_cond2 i = 1#1)
  rw [Bool.not_eq_true', beq_eq_false_iff_ne]

theorem liveAt2_3_C : ∀ t : Fin cfg2.N, ¬cond2_0 (grid2.coords t) → cond2_1 (grid2.coords t) → cfg2.idle 3 (grid2.coords t) = false :=
  fun t _ h => Bool.eq_false_iff.2 fun hi => (idle2_3_iff _).1 hi h

theorem noFlush2_3_of : ∀ t : Fin cfg2.N, ¬cond2_1 (grid2.coords t) → (cfg2.win 3).flush t = false :=
  fun t h => Bool.eq_false_iff.2 fun hf => h ((hcond2_1 t).2 ((flush2_3 t).1 hf))
abbrev VO2_3 : View sig .tc .vmem S3072x48 .bf16 := (Memref.whole cc2_stg3_0 : Memref sig .tc .vmem S3072x48 .bf16).view

abbrev ms2_0 (t : Fin cfg2.N) : Memref sig .tc .vmem S3072 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3072 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x48 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3072x48 .bf16 := win2_3.stage (cfg2.slots t 3)
abbrev hs2_3 (t : Fin cfg2.N) : (ms2_3 t).IsWhole := hstage2_3 ((cfg2.slots t 3).cast nbuf2_3)

abbrev scM2_0 : Memref sig .tc .vmem S3072x48 .f32 := Memref.whole cc2_scratch0

abbrev VS2_0 : View sig .tc .vmem S3072x48 .f32 := scM2_0.view

theorem PhiA2_eq (c : Dev nD) :
    (Pipeline.ΦA spec2 c : sProp 𝕄)
      = iprop(iprop((∃ d, owns (c : Thread nD τ) scM2_0 fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.KernelIdeal.Hand

end
-- ==== Proof.KI.G2.RunA.lean ====
import proofs.«407864_j23167053595206_1_alg».proof.Proof.KI.G2.Runs
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

/-- The body run at one point: the three inputs are held throughout, `A ∗ S` goes in, `A'` and the scratch written with `LS0` come out. -/
abbrev kernelRun2_spec (x0 : Vec F S3072 .i32) (x1 : Vec F S3072 .f32) (x2 : Vec F S2048x48 .bf16) (A A' S : sProp 𝕄)
    (LS0 : List (View.Piece (Elt F) S3072x48 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ A ∗ S
        ∗ (iprop(owns (c : Thread nD τ) arg2 fullShare x0 ∗ owns (c : Thread nD τ) arg3 fullShare x1 ∗ owns (c : Thread nD τ) arg4 fullShare x2 ∗ A'
            ∗ (∃ f, arg6.view.loc (c : Thread nD τ) ↦[arg6.view.set]{fullShare} arg6.view.writes (Elt F) f LS0)) -∗ K ⟨⟩))
      ⊢ wp frame (wpE (defs₀ (F := F)) Variants.none c none) E (cc2__gather_kernel i arg2 harg2 arg3 harg3 arg4 harg4 arg5 harg5 arg6 harg6) K

set_option maxHeartbeats 1000000 in

def kernelRun2_A (hc0 : cond2_0 i) (hc1 : ¬cond2_1 i) (x0 : Vec F S3072 .i32) (x1 : Vec F S3072 .f32) (x2 : Vec F S2048x48 .bf16) :
    Σ' (L3 : List (View.Piece (Elt F) S3072x48 .bf16)), { LS0 : List (View.Piece (Elt F) S3072x48 .f32) //
      ∀ xi3 : Vec F S3072x48 .bf16, kernelRun2_spec c i arg2 harg2 arg3 harg3 arg4 harg4 arg5 harg5 arg6 harg6 x0 x1 x2
        (owns (c : Thread nD τ) arg5 fullShare xi3) (owns (c : Thread nD τ) arg5 fullShare xi3) iprop(∃ d, owns (c : Thread nD τ) arg6 fullShare d) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5]
    simp only [cc2__gather_kernel_eq_skeleton]; unfold cc2__gather_kernel_skel owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.KernelIdeal.Hand

end
-- ==== Proof.KI.G2.RunB.lean ====
import proofs.«407864_j23167053595206_1_alg».proof.Proof.KI.G2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun2_B (hc0 : ¬cond2_0 i) (hc1 : ¬cond2_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      ∀ xi3 : Vec F S3072x48 .bf16, kernelRun2_spec c i arg2 harg2 arg3 harg3 arg4 harg4 arg5 harg5 arg6 harg6 x0 x1 x2
        (owns (c : Thread nD τ) arg5 fullShare xi3) (owns (c : Thread nD τ) arg5 fullShare xi3) (owns (c : Thread nD τ) arg6 fullShare xs0) LS0 } := by
  refine ⟨[], ?_, fun xi3 E K => ?run⟩
  case run =>
    rw [Lib.owns_eq_unread c.tc harg2, Lib.owns_eq_unread c.tc harg3, Lib.owns_eq_unread c.tc harg4, Lib.owns_eq_unread c.tc harg5, Lib.owns_eq_unread c.tc harg6]
    simp only [cc2__gather_kernel_eq_skeleton]; unfold cc2__gather_kernel_skel
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.G2.RunC.lean ====
import proofs.«407864_j23167053595206_1_alg».proof.Proof.KI.G2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid2.Coords)
  (arg2 : Memref sig .tc .vmem S3072 .i32) (harg2 : arg2.IsWhole)
  (arg3 : Memref sig .tc .vmem S3072 .f32) (harg3 : arg3.IsWhole)
  (arg4 : Memref sig .tc .vmem S2048x48 .bf16) (harg4 : arg4.IsWhole)
  (arg5 : Memref sig .tc .vmem S3072x48 .bf16) (harg5 : arg5.IsWhole)
  (arg6 : Memref sig .tc .vmem S3072x48 .f32) (harg6 : arg6.IsWhole)

set_option maxHeartbeats 1000000 in

def kernelRun2_C (hc0 : ¬cond2_0 i) (hc1 : cond2_1 i) (x0 : Vec F S3072 .i32) (x1 : Vec F S3072 .f32) (x2 : Vec F S2048x48 .bf16)
    (xs0 : Vec F S3072x48 .f32) :
    Σ' (L3 : List (View.Piece (Elt F) S3072x48 .bf16)), { LS0 : List (View.Piece (Elt F) S3072x48 .f32) //
      kernelRun2_spec c i arg2 harg2 arg3 harg3 arg4 harg4 arg5 harg5 arg6 harg6 x0 x1 x2 iprop(∃ d, owns (c : Thread nD τ) arg5 fullShare d)
        iprop(∃ f, arg5.view.loc (c : Thread nD τ) ↦[arg5.view.set]{fullShare} arg5.view.writes (Elt F) f L3) (owns (c : Thread nD τ) arg6 fullShare xs0) LS0 } := by
  refine ⟨?_, ?_, fun E K => ?run⟩
  case run =>
    rw [Lib.owns_eq_unread c.tc harg2, Lib.owns_eq_unread c.tc harg3, Lib.owns_eq_unread c.tc harg4, Lib.owns_eq_unread c.tc harg6]
    simp only [cc2__gather_kernel_eq_skeleton]; unfold cc2__gather_kernel_skel owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.G2.Frame.lean ====
import proofs.«407864_j23167053595206_1_alg».proof.Proof.KI.G2.RunC
import proofs.«407864_j23167053595206_1_alg».proof.Proof.KI.Sched
import proofs.«407864_j23167053595206_1_alg».proof.Proof.LibBody
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut2_3 : Vec F S3072x48 .bf16 := VO2_3.read (Elt F) VO2_3.junk

def ptA2 (c : Dev nD) (t : Fin cfg2.N) (h0 : t.val % 49 = 0) (h1 : ¬t.val % 49 = 48) :
    Vec F S3072x48 .bf16 × Vec F S3072x48 .f32 :=
  (idleOut2_3, VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t)
    scM2_0 (Memref.isWhole_whole _)
    ((hcond2_0 t).mpr h0) (mt (hcond2_1 t).mp h1) (iblk2 V c 0 t) (iblk2 V c 1 t) (iblk2 V c 2 t)).2.1))

def ptB2 (c : Dev nD) (t : Fin cfg2.N) (h0 : ¬t.val % 49 = 0) (h1 : ¬t.val % 49 = 48) (xs0 : Vec F S3072x48 .f32) :
    Vec F S3072x48 .bf16 × Vec F S3072x48 .f32 :=
  (idleOut2_3, VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t)
    scM2_0 (Memref.isWhole_whole _)
    (mt (hcond2_0 t).mp h0) (mt (hcond2_1 t).mp h1) (iblk2 V c 0 t) (iblk2 V c 1 t) (iblk2 V c 2 t) xs0).2.1))

def ptC2 (c : Dev nD) (t : Fin cfg2.N) (h0 : ¬t.val % 49 = 0) (h1 : t.val % 49 = 48) (xs0 : Vec F S3072x48 .f32) :
    Vec F S3072x48 .bf16 × Vec F S3072x48 .f32 :=
  let r := kernelRun2_C c (grid2.coords t) (ms2_0 t) (hs2_0 t) (ms2_1 t) (hs2_1 t) (ms2_2 t) (hs2_2 t) (ms2_3 t) (hs2_3 t)
    scM2_0 (Memref.isWhole_whole _)
    (mt (hcond2_0 t).mp h0) ((hcond2_1 t).mpr h1) (iblk2 V c 0 t) (iblk2 V c 1 t) (iblk2 V c 2 t) xs0
  (VO2_3.read (Elt F) (VO2_3.writes (Elt F) VO2_3.junk r.1), VS2_0.read (Elt F) (VS2_0.writes (Elt F) VS2_0.junk r.2.1))

def outsAt2 (c : Dev nD) : (n : ℕ) → n < cfg2.N → Vec F S3072x48 .bf16 × Vec F S3072x48 .f32
  | 0, hn => ptA2 V c ⟨0, hn⟩ (Nat.zero_mod _) (by simp)
  | n + 1, hn =>
    if h0 : (n + 1) % 49 = 0 then
      if h1 : (n + 1) % 49 = 48 then False.elim (by omega)
      else ptA2 V c ⟨n + 1, hn⟩ h0 h1
    else
      if h1 : (n + 1) % 49 = 48 then ptC2 V c ⟨n + 1, hn⟩ h0 h1 (outsAt2 c n (Nat.lt_of_succ_lt hn)).2
      else ptB2 V c ⟨n + 1, hn⟩ h0 h1 (outsAt2 c n (Nat.lt_of_succ_lt hn)).2

theorem outsAt2_A (c : Dev nD) (t : Fin cfg2.N) (h0 : t.val % 49 = 0) (h1 : ¬t.val % 49 = 48) :
    outsAt2 V c t.val t.isLt = ptA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 49 = 0) (h1 : ¬t.val % 49 = 48) :
    outsAt2 V c t.val t.isLt
      = ptB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 49 = 0) (h1 : t.val % 49 = 48) :
    outsAt2 V c t.val t.isLt
      = ptC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

abbrev PhiS2_at (c : Dev nD) (x : Vec F S3072x48 .f32) : sProp 𝕄 :=
  iprop(iprop(owns (c : Thread nD τ) scM2_0 fullShare x
      ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => PhiS2_at c (outsAt2 V c n hn).2

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = PhiS2_at c (outsAt2 V c n hn).2 := rfl

theorem PhiS2_pos (c : Dev nD) (n : ℕ) (h : n ≤ cfg2.N) (hz : n ≠ 0) :
    PhiS2 V c n h = PhiS2_at c (outsAt2 V c (n - 1) (by omega)).2 := by
  cases n with
  | zero => exact absurd rfl hz
  | succ n => rfl

theorem PhiS2_le (c : Dev nD) (n : ℕ) (h : n ≤ cfg2.N) : PhiS2 V c n h ⊢ Pipeline.ΦA spec2 c := by
  cases n with
  | zero => exact .rfl
  | succ n => rw [PhiS2_succ, PhiA2_eq]; exact sep_mono_left (sep_mono_left (exists_intro _))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_3 (c : Dev nD) (t : Fin cfg2.N) : (dat2 V c).after 3 t = (outsAt2 V c t.val t.isLt).1 := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t]; rfl
theorem leaves2_1 (c : Dev nD) (t : Fin cfg2.N) :
    (dat2 V c).leavesExact 1 t = owns (c : Thread nD τ) (ms2_1 t) fullShare (iblk2 V c 1 t) := by
  unfold Dat.leavesExact; rw [liveAt2_1 t]; rfl
theorem leaves2_2 (c : Dev nD) (t : Fin cfg2.N) :
    (dat2 V c).leavesExact 2 t = owns (c : Thread nD τ) (ms2_2 t) fullShare (iblk2 V c 2 t) := by
  unfold Dat.leavesExact; rw [liveAt2_2 t]; rfl

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, PhiS2_castSucc V c t]
  have e0 := hcond2_0 t
  have e1 := hcond2_1 t
  by_cases h1 : t.val % 49 = 48
  · have h0 : ¬t.val % 49 = 0 := by omega
    rw [PhiS2_pos V c _ _ fun e => h0 (by rw [e]), show (dat2 V c).leavesExact 3 t = owns (c : Thread nD τ) (ms2_3 t) fullShare ((dat2 V c).after 3 t) from by
      unfold Dat.leavesExact; rw [liveAt2_3_C t (mt e0.mp h0) (e1.mpr h1)], after2_3, outsAt2_C V c t h0 h1]
    unfold ptC2; dsimp only
    exact Lib.run_framed (fun d K => (kernelRun2_C _ _ _ _ _ _ _ _ _ _ _ _ (mt e0.mp h0) (e1.mpr h1) _ _ _ _).2.2 Set.univ K)
      .rfl (fun d => exists_intro _) (Lib.owns_of_writes (c : Thread nD τ) scM2_0 _ VS2_0 _ (View.cover_of_tiledL _ S3072x48.size (by sl_kernel_rfl)))
      (exists_elim fun _ => Lib.owns_of_writes (c : Thread nD τ) (ms2_3 t) _ VO2_3 _ (View.cover_of_tiledL _ S3072x48.size (by sl_kernel_rfl)))
  · have c1 := mt e1.mp h1
    rw [Dat.leavesExact_idle (dat2 V c) 3 t ((idle2_3_iff _).2 c1) (noFlush2_3_of t c1)]
    by_cases h0 : t.val % 49 = 0
    · rw [outsAt2_A V c t h0 h1]
      unfold ptA2; dsimp only
      refine (sep_mono_left ((PhiS2_le V c _ _).trans (.of_eq (PhiA2_eq c)))).trans ?_
      exact Lib.run_framed (fun d K => (kernelRun2_A _ _ _ _ _ _ _ _ _ _ _ _ (e0.mpr h0) c1 _ _ _).2.2 _ Set.univ K)
        .rfl (fun _ => .rfl) (Lib.owns_of_writes (c : Thread nD τ) scM2_0 _ VS2_0 _ (View.cover_of_tiledL _ S3072x48.size (by sl_kernel_rfl))) .rfl
    · rw [PhiS2_pos V c _ _ fun e => h0 (by rw [e]), outsAt2_B V c t h0 h1]
      unfold ptB2; dsimp only
      exact Lib.run_framed (fun d K => (kernelRun2_B _ _ _ _ _ _ _ _ _ _ _ _ (mt e0.mp h0) c1 _ _ _ _).2.2 _ Set.univ K)
        .rfl (fun _ => .rfl) (Lib.owns_of_writes (c : Thread nD τ) scM2_0 _ VS2_0 _ (View.cover_of_tiledL _ S3072x48.size (by sl_kernel_rfl))) .rfl

theorem body_obligation2 (c : Dev nD) :
    BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]

theorem hout2 (c : Dev nD) : (dat2 V c).Φ (Fin.last cfg2.N) ⊢ Pipeline.ΦA spec2 c :=
  PhiS2_le V c (Fin.last cfg2.N).val (Nat.le_of_lt_succ (Fin.last cfg2.N).isLt)

end Cert.KernelIdeal.Hand

end
-- ==== Proof.KI.S3.Runs.lean ====
import proofs.«407864_j23167053595206_1_alg».proof.Proof.Gen.KernelIdeal.Launch
import proofs.«407864_j23167053595206_1_alg».proof.Proof.Gen.KernelIdeal.Skeleton
import proofs.«407864_j23167053595206_1_alg».proof.Proof.KI.Sched
import Idealize.ShloMosaic.Lib.Pipeline.FrameBody
import Idealize.ShloMosaic.Lib.Pipeline.FrameSuffix
import Idealize.ShloMosaic.Lib.Ring
import Idealize.ShloMosaic.Lib.Tactic
import proofs.«407864_j23167053595206_1_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem coords3_snd (t : Fin cfg3.N) : ((grid3.coords t) 1).val = t.val % 521 := by
  have hs : grid3.stride 1 = 1 := by decide
  show t.val / grid3.stride 1 % 521 = t.val % 521
  rw [hs, Nat.div_one]

theorem cond3_0_fin : ∀ j : Fin 521,
    (Scalar.cmpi .ne (Scalar.extui (Scalar.cmpi .eq (BitVec.ofNat 32 j.val) 0#32)) 0#32) = 1#1 ↔ j.val = 0 := by decide +kernel

theorem cond3_1_fin : ∀ j : Fin 521,
    (Scalar.cmpi .ne (Scalar.extui (Scalar.cmpi .eq (BitVec.ofNat 32 j.val) 520#32)) 0#32) = 1#1 ↔ j.val = 520 := by decide +kernel

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 521 = 0 := fun t => by
  rw [← coords3_snd t]; exact cond3_0_fin ((grid3.coords t) 1)

abbrev cond3_1 (i : grid3.Coords) : Prop := k3_cond2 i = 1#1

theorem hcond3_1 : ∀ t : Fin cfg3.N, cond3_1 (grid3.coords t) ↔ t.val % 521 = 520 := fun t => by
  rw [← coords3_snd t]; exact cond3_1_fin ((grid3.coords t) 1)

theorem idle3_3_iff (i : grid3.Coords) : cfg3.idle 3 i = true ↔ ¬cond3_1 i := by
  show (!(k3_cond2 i == 1#1)) = true ↔ ¬(k3_cond2 i = 1#1)
  rw [Bool.not_eq_true', beq_eq_false_iff_ne]

theorem noFlush3_3_of (t : Fin cfg3.N) (h : ¬cond3_1 (grid3.coords t)) : (cfg3.win 3).flush t = false := by
  rw [Bool.eq_false_iff]; exact fun hf => h ((hcond3_1 t).2 ((flush3_3 t).1 hf))

theorem liveAt3_3_C : ∀ t : Fin cfg3.N, ¬cond3_0 (grid3.coords t) → cond3_1 (grid3.coords t) → cfg3.idle 3 (grid3.coords t) = false :=
  fun t _ h => Bool.eq_false_iff.2 fun hb => (idle3_3_iff _).1 hb h

abbrev ms3_0 (t : Fin cfg3.N) : Memref sig .tc .vmem S3072 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S3072x48 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x48 .f32 := win3_3.stage (cfg3.slots t 3)
abbrev hs3_3 (t : Fin cfg3.N) : (ms3_3 t).IsWhole := hstage3_3 ((cfg3.slots t 3).cast nbuf3_3)

abbrev scM3_0 : Memref sig .tc .vmem S2048x48 .f32 := Memref.whole cc3_scratch0

abbrev VS3_0 : View sig .tc .vmem S2048x48 .f32 := scM3_0.view

theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_split]; simp only [scM3_0, owns_whole]; try rfl

end Cert.KernelIdeal.Hand

end
-- ==== Proof.KI.S3.RunA.lean ====
import proofs.«407864_j23167053595206_1_alg».proof.Proof.KI.S3.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_A (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : cond3_0 i) (hc1 : ¬cond3_1 i)
    (x0 : Vec F S3072 .i32) (x1 : Vec F S3072x48 .bf16) (x2 : Vec F S2048 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, H3, ⟨%ds0, HS0⟩, Hk⟩
    sl_exec (disch := first | exact hc0 | exact hc1)
    sl_step
    iapply Hk
    iframe H0 H1 H2 H3
    iexists _; iexact HS0

end Cert.KernelIdeal.Hand

end
-- ==== Proof.KI.S3.RunB.lean ====
import proofs.«407864_j23167053595206_1_alg».proof.Proof.KI.S3.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_B (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond3_0 i) (hc1 : ¬cond3_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (xi3 : Vec F S2048x48 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.S3.RunC.lean ====
import proofs.«407864_j23167053595206_1_alg».proof.Proof.KI.S3.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_C (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole) (hc0 : ¬cond3_0 i) (hc1 : cond3_1 i)
    (x0 : Vec F S3072 .i32) (x1 : Vec F S3072x48 .bf16) (x2 : Vec F S2048 .f32) (xs0 : Vec F S2048x48 .f32) :
    Σ' (L3 : List (View.Piece (Elt F) S2048x48 .f32)), { LS0 : List (View.Piece (Elt F) S2048x48 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton, Lib.owns_eq_unread (c : Thread nD τ) harg2, Lib.owns_eq_unread (c : Thread nD τ) harg3, Lib.owns_eq_unread (c : Thread nD τ) harg4, Lib.owns_eq_unread (c : Thread nD τ) harg5, Lib.owns_eq_unread (c : Thread nD τ) harg6]; unfold cc3__scatter_kernel_skel
    iintro ⟨H0, H1, H2, ⟨%d3, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.S3.Frame.lean ====
import proofs.«407864_j23167053595206_1_alg».proof.Proof.KI.S3.RunC
import proofs.«407864_j23167053595206_1_alg».proof.Proof.LibBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

section
variable {c} {i : grid3.Coords} {arg2 : Memref sig .tc .vmem S3072 .i32} {harg2 : arg2.IsWhole} {arg3 : Memref sig .tc .vmem S3072x48 .bf16} {harg3 : arg3.IsWhole} {arg4 : Memref sig .tc .vmem S2048 .f32} {harg4 : arg4.IsWhole} {arg5 : Memref sig .tc .vmem S2048x48 .f32} {harg5 : arg5.IsWhole} {arg6 : Memref sig .tc .vmem S2048x48 .f32} {harg6 : arg6.IsWhole}
  {x0 : Vec F S3072 .i32} {x1 : Vec F S3072x48 .bf16} {x2 : Vec F S2048 .f32} {xs0 : Vec F S2048x48 .f32}

theorem scover3_A_0 (hc0 : cond3_0 i) (hc1 : ¬cond3_1 i) : ∀ y, ∃ pc ∈ (kernelRun3_A c i arg2 harg2 arg3 harg3 arg4 harg4 arg5 harg5 arg6 harg6 hc0 hc1 x0 x1 x2).2.1, y ∈ pc.1.set :=
  View.cover_of_tiledL _ S2048x48.size (by sl_kernel_rfl)

theorem scover3_B_0 (hc0 : ¬cond3_0 i) (hc1 : ¬cond3_1 i) : ∀ y, ∃ pc ∈ (kernelRun3_B c i arg2 harg2 arg3 harg3 arg4 harg4 arg5 harg5 arg6 harg6 hc0 hc1 x0 x1 x2 xs0).2.1, y ∈ pc.1.set :=
  View.cover_of_tiledL _ S2048x48.size (by sl_kernel_rfl)

theorem scover3_C_0 (hc0 : ¬cond3_0 i) (hc1 : cond3_1 i) : ∀ y, ∃ pc ∈ (kernelRun3_C c i arg2 harg2 arg3 harg3 arg4 harg4 arg5 harg5 arg6 harg6 hc0 hc1 x0 x1 x2 xs0).2.1, y ∈ pc.1.set :=
  View.cover_of_tiledL _ S2048x48.size (by sl_kernel_rfl)

theorem cover3_C_3 (hc0 : ¬cond3_0 i) (hc1 : cond3_1 i) : ∀ y, ∃ pc ∈ (kernelRun3_C c i arg2 harg2 arg3 harg3 arg4 harg4 arg5 harg5 arg6 harg6 hc0 hc1 x0 x1 x2 xs0).1, y ∈ pc.1.set :=
  View.cover_of_tiledL _ S2048x48.size (by sl_kernel_rfl)

end

attribute [local irreducible] kernelRun3_A kernelRun3_B kernelRun3_C

abbrev out3_of (L : List (View.Piece (Elt F) S2048x48 .f32)) : Vec F S2048x48 .f32 := VS3_0.read (Elt F) (VS3_0.writes (Elt F) VS3_0.junk L)

theorem owns3_of_writes (m : Memref sig .tc .vmem S2048x48 .f32) {L : List (View.Piece (Elt F) S2048x48 .f32)} (h : ∀ y, ∃ pc ∈ L, y ∈ pc.1.set) :
    (iprop(∃ f, m.view.loc (c : Thread nD τ) ↦[m.view.set]{fullShare} m.view.writes (Elt F) f L) : sProp 𝕄) ⊢ owns (c : Thread nD τ) m fullShare (out3_of L) := by
  iintro ⟨%f, H⟩; unfold owns; iexists _; isplitr
  swap; · iexact H
  ipureintro; exact View.read_writes_of_cover _ _ _ _ _ h

abbrev out3_pair {p : List (View.Piece (Elt F) S2048x48 .f32) → List (View.Piece (Elt F) S2048x48 .f32) → Prop}
    (r : Σ' L3, { LS0 // p L3 LS0 }) : Vec F S2048x48 .f32 × Vec F S2048x48 .f32 := (out3_of r.1, out3_of r.2.1)

abbrev kernelRun3_tA (h0 : cond3_0 (grid3.coords t)) (h1 : ¬cond3_1 (grid3.coords t)) :=
  kernelRun3_A c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

abbrev kernelRun3_tB (h0 : ¬cond3_0 (grid3.coords t)) (h1 : ¬cond3_1 (grid3.coords t)) :=
  kernelRun3_B c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

abbrev kernelRun3_tC (h0 : ¬cond3_0 (grid3.coords t)) (h1 : cond3_1 (grid3.coords t)) :=
  kernelRun3_C c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)

def outsAt3_step (p : Vec F S2048x48 .f32) : Vec F S2048x48 .f32 × Vec F S2048x48 .f32 :=
  if h0 : cond3_0 (grid3.coords t) then
    if h1 : cond3_1 (grid3.coords t) then (p, p) else out3_pair (kernelRun3_tA V c t h0 h1)
  else if h1 : cond3_1 (grid3.coords t) then out3_pair (kernelRun3_tC V c t h0 h1 p) else out3_pair (kernelRun3_tB V c t h0 h1 p)

def outsAt3 (c : Dev nD) : (n : ℕ) → n < cfg3.N → Vec F S2048x48 .f32 × Vec F S2048x48 .f32
  | 0, hn => outsAt3_step V c ⟨0, hn⟩ (out3_of [])
  | n + 1, hn => outsAt3_step V c ⟨n + 1, hn⟩ (outsAt3 c n (Nat.lt_of_succ_lt hn)).2

theorem outsAt3_A (h0 : cond3_0 (grid3.coords t)) (h1 : ¬cond3_1 (grid3.coords t)) :
    outsAt3 V c t.val t.isLt = out3_pair (kernelRun3_tA V c t h0 h1) := by
  obtain ⟨n, hn⟩ := t
  cases n <;> exact (dif_pos h0).trans (dif_neg h1)

theorem outsAt3_B (h0 : ¬cond3_0 (grid3.coords t)) (h1 : ¬cond3_1 (grid3.coords t)) :
    outsAt3 V c t.val t.isLt = out3_pair (kernelRun3_tB V c t h0 h1 (outsAt3 V c (t.val - 1) (Nat.lt_of_le_of_lt (Nat.sub_le _ _) t.isLt)).2) := by
  obtain ⟨n, hn⟩ := t
  cases n with
  | zero => exact absurd ((hcond3_0 _).2 (Nat.zero_mod _)) h0
  | succ n => exact (dif_neg h0).trans (dif_neg h1)

theorem outsAt3_C (h0 : ¬cond3_0 (grid3.coords t)) (h1 : cond3_1 (grid3.coords t)) :
    outsAt3 V c t.val t.isLt = out3_pair (kernelRun3_tC V c t h0 h1 (outsAt3 V c (t.val - 1) (Nat.lt_of_le_of_lt (Nat.sub_le _ _) t.isLt)).2) := by
  obtain ⟨n, hn⟩ := t
  cases n with
  | zero => exact absurd ((hcond3_0 _).2 (Nat.zero_mod _)) h0
  | succ n => exact (dif_neg h0).trans (dif_pos h1)

def PhiS3 (c : Dev nD) : (n : ℕ) → n ≤ cfg3.N → sProp 𝕄
  | 0, _ => iprop(∃ d, owns (c : Thread nD τ) scM3_0 fullShare d)
  | n + 1, hn => owns (c : Thread nD τ) scM3_0 fullShare (outsAt3 V c n hn).2

theorem PhiS3_le (n : ℕ) (h : n ≤ cfg3.N) : PhiS3 V c n h ⊢ ∃ d, owns (c : Thread nD τ) scM3_0 fullShare d := by
  cases n
  · exact Entails.refl _
  · show owns (c : Thread nD τ) scM3_0 fullShare _ ⊢ _; exact exists_intro _

theorem PhiS3_pos (n : ℕ) (h : n ≤ cfg3.N) (hz : n ≠ 0) :
    PhiS3 V c n h = owns (c : Thread nD τ) scM3_0 fullShare (outsAt3 V c (n - 1) (by omega)).2 := by
  cases n
  exacts [absurd rfl hz, rfl]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := iprop(iprop(PhiS3 V c t.val (Nat.le_of_lt_succ t.isLt) ∗ Pipeline.scopedRestBut spec3 c [cc3_scratch0]) ∗ (∃ r, prngReg c r))
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = (outsAt3 V c t.val t.isLt).1 := rfl

theorem before3_0 (d) : (dat3 V c).before 0 t d = iblk3 V c 0 t := before3_0_of V _ rfl (fun _ => rfl) t d
theorem before3_1 (d) : (dat3 V c).before 1 t d = iblk3 V c 1 t := before3_1_of V _ rfl (fun _ => rfl) t d
theorem before3_2 (d) : (dat3 V c).before 2 t d = iblk3 V c 2 t := before3_2_of V _ rfl (fun _ => rfl) t d

theorem leaves3_live (w : Fin cfg3.W) (h : cfg3.idle w (grid3.coords t) = false) :
    (dat3 V c).leavesExact w t = owns (c : Thread nD τ) ((cfg3.win w).stage (cfg3.slots t w)) fullShare ((dat3 V c).after w t) := by
  unfold Dat.leavesExact; rw [h]

def bodyPre3 : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = iprop(iprop(owns (c : Thread nD τ) scM3_0 fullShare (outsAt3 V c t.val t.isLt).2 ∗ _) ∗ _) from rfl,
    show (dat3 V c).Φ t.castSucc = iprop(iprop(PhiS3 V c t.val (Nat.le_of_lt t.isLt) ∗ _) ∗ _) from rfl,
    leaves3_live V c t 0 rfl, leaves3_live V c t 1 rfl, leaves3_live V c t 2 rfl]
  by_cases h0 : cond3_0 (grid3.coords t)
  · have h1 : ¬cond3_1 (grid3.coords t) := fun h => by have := (hcond3_0 t).1 h0; have := (hcond3_1 t).1 h; omega
    rw [Dat.leavesExact_idle _ 3 t ((idle3_3_iff _).2 h1) (noFlush3_3_of t h1), outsAt3_A V c t h0 h1]
    exact Cert.Lib.run_framed (fun _ K => (kernelRun3_tA V c t h0 h1).2.2 _ Set.univ K) (PhiS3_le V c _ _) (fun _ => Entails.refl _)
      (owns3_of_writes c _ (scover3_A_0 _ _)) (Entails.refl _)
  · have hz : t.val ≠ 0 := fun hz => h0 ((hcond3_0 t).2 (by rw [hz]))
    by_cases h1 : cond3_1 (grid3.coords t)
    · rw [leaves3_live V c t 3 (liveAt3_3_C t h0 h1), after3_3, outsAt3_C V c t h0 h1, PhiS3_pos V c _ _ hz]
      exact Cert.Lib.run_framed (fun _ K => (kernelRun3_tC V c t h0 h1 _).2.2 Set.univ K) (Entails.refl _) (fun _ => exists_intro _)
        (owns3_of_writes c _ (scover3_C_0 _ _)) (exists_elim fun _ => owns3_of_writes c _ (cover3_C_3 _ _))
    · rw [Dat.leavesExact_idle _ 3 t ((idle3_3_iff _).2 h1) (noFlush3_3_of t h1), outsAt3_B V c t h0 h1, PhiS3_pos V c _ _ hz]
      exact Cert.Lib.run_framed (fun _ K => (kernelRun3_tB V c t h0 h1 _).2.2 _ Set.univ K) (Entails.refl _) (fun _ => Entails.refl _)
        (owns3_of_writes c _ (scover3_B_0 _ _)) (Entails.refl _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; exact .rfl

theorem hout3 (c : Dev nD) : (dat3 V c).Φ (Fin.last cfg3.N) ⊢ Pipeline.ΦA spec3 c := by
  rw [PhiA3_eq]; exact sep_mono_left (sep_mono_left (PhiS3_le V c _ _))

end Cert.KernelIdeal.Hand

end
-- ==== Proof.KI.M4.Frame.lean ====
import proofs.«407864_j23167053595206_1_alg».proof.Proof.Gen.KernelIdeal.Launch
import proofs.«407864_j23167053595206_1_alg».proof.Proof.Gen.KernelIdeal.Skeleton
import proofs.«407864_j23167053595206_1_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x48 := Rect.unit (s := S2000x48) ![0, 0] S2000x48.size inb_S2000x48_S2000x48_0_0
abbrev r4_1 : Rect S48x128 := Rect.unit (s := S48x128) ![0, 0] S48x128.size inb_S48x128_S48x128_0_0
abbrev r4_2 : Rect S128 := Rect.unit (s := S128) ![0] S128.size inb_S128_S128_0
abbrev r4_3 : Rect S128x128 := Rect.unit (s := S128x128) ![0, 0] S128x128.size inb_S128x128_S128x128_0_0
abbrev r4_5 : Rect S2000x128 := Rect.unit (s := S2000x128) ![0, 0] S2000x128.size inb_S2000x128_S2000x128_0_0

def out4_5 (x0 : Vec F S2000x48 .f32) (x1 : Vec F S48x128 .f32) (x2 : Vec F S128 .f32) (x3 : Vec F S128x128 .f32) (x4 : Vec F S128 .f32) :
    Vec F S2000x128 .f32 :=
  View.canon [⟨r4_5, k4_pay1 (View.ld x0 r4_0) (View.ld x1 r4_1) (View.ld x2 r4_2) (View.ld x3 r4_3) (View.ld x4 r4_2)⟩]

theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

set_option maxHeartbeats 1000000 in

theorem sound_kernel4 (c : Dev nD) (E : Set ℕ) (i : grid4.Coords)
    (arg1 : Memref sig .tc .vmem S2000x48 .f32) (harg1 : arg1.IsWhole) (arg2 : Memref sig .tc .vmem S48x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2000x128 .f32) (harg6 : arg6.IsWhole)
    (x0 : Vec F S2000x48 .f32) (x1 : Vec F S48x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«407864_j23167053595206_1_alg».proof.Proof.Gen.KernelIdeal.Launch
import proofs.«407864_j23167053595206_1_alg».proof.Proof.Gen.KernelIdeal.Regions
import proofs.«407864_j23167053595206_1_alg».proof.Proof.KI.G0.Frame
import proofs.«407864_j23167053595206_1_alg».proof.Proof.KI.S1.Frame
import proofs.«407864_j23167053595206_1_alg».proof.Proof.KI.G2.Frame
import proofs.«407864_j23167053595206_1_alg».proof.Proof.KI.S3.Frame
import proofs.«407864_j23167053595206_1_alg».proof.Proof.KI.M4.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

section

variable (c : Dev nD) (r b : Ref sig .tc)

abbrev W1 : Dev nD → Valuation τ sig (Elt F) := fun c => StableHlo.after hostOps0 (W0 m ρ c)

theorem W1_of (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_of (h : r ∉ hostOps0_1_W) :
    W2 m ρ c (Proc.devRef .tc r) = W1 m ρ c (Proc.devRef .tc r) :=
  StableHlo.after_of_writes_sub hostOps0_1 _ hostOps0_1_writes h
abbrev V2 : (c : Dev nD) → (b : Ref sig .tc) → Buf (Elt F) ((c : Thread nD τ).loc b) := fun c b => W2 m ρ c b

abbrev W3 : Dev nD → Valuation τ sig (Elt F) := fun c => StableHlo.after hostOps0_2 (W2 m ρ c)

theorem W3_of (h : r ∉ hostOps0_2_W) :
    W3 m ρ c (Proc.devRef .tc r) = W2 m ρ c (Proc.devRef .tc r) :=
  StableHlo.after_of_writes_sub hostOps0_2 _ hostOps0_2_writes h

abbrev W4 : Dev nD → Valuation τ sig (Elt F) := fun c => StableHlo.after hostOps0_3 (W3 m ρ c)

theorem W4_of (h : r ∉ hostOps0_3_W) :
    W4 m ρ c (Proc.devRef .tc r) = W3 m ρ c (Proc.devRef .tc r) :=
  StableHlo.after_of_writes_sub hostOps0_3 _ hostOps0_3_writes h
abbrev V4 : (c : Dev nD) → (b : Ref sig .tc) → Buf (Elt F) ((c : Thread nD τ).loc b) := fun c b => W4 m ρ c b

abbrev W5 : Dev nD → Valuation τ sig (Elt F) := fun c => StableHlo.after hostOps0_4 (W4 m ρ c)

theorem W5_of (h : r ∉ hostOps0_4_W) :
    W5 m ρ c (Proc.devRef .tc r) = W4 m ρ c (Proc.devRef .tc r) :=
  StableHlo.after_of_writes_sub hostOps0_4 _ hostOps0_4_writes h

abbrev W6 : Dev nD → Valuation τ sig (Elt F) := fun c => StableHlo.after hostOps0_5 (W5 m ρ c)

theorem W6_of (h : r ∉ hostOps0_5_W) :
    W6 m ρ c (Proc.devRef .tc r) = W5 m ρ c (Proc.devRef .tc r) :=
  StableHlo.after_of_writes_sub hostOps0_5 _ hostOps0_5_writes h
abbrev V6 : (c : Dev nD) → (b : Ref sig .tc) → Buf (Elt F) ((c : Thread nD τ).loc b) := fun c b => W6 m ρ c b

abbrev W7 : Dev nD → Valuation τ sig (Elt F) := fun c => StableHlo.after hostOps0_6 (W6 m ρ c)

theorem W7_of (h : r ∉ hostOps0_6_W) :
    W7 m ρ c (Proc.devRef .tc r) = W6 m ρ c (Proc.devRef .tc r) :=
  StableHlo.after_of_writes_sub hostOps0_6 _ hostOps0_6_writes h

abbrev W8 : Dev nD → Valuation τ sig (Elt F) := fun c => StableHlo.after hostOps0_7 (W7 m ρ c)

theorem W8_of (h : r ∉ hostOps0_7_W) :
    W8 m ρ c (Proc.devRef .tc r) = W7 m ρ c (Proc.devRef .tc r) :=
  StableHlo.after_of_writes_sub hostOps0_7 _ hostOps0_7_writes h
abbrev V8 : (c : Dev nD) → (b : Ref sig .tc) → Buf (Elt F) ((c : Thread nD τ).loc b) := fun c b => W8 m ρ c b

abbrev W9 : Dev nD → Valuation τ sig (Elt F) := fun c => StableHlo.after hostOps0_8 (W8 m ρ c)

theorem W9_of (h : r ∉ hostOps0_8_W) :
    W9 m ρ c (Proc.devRef .tc r) = W8 m ρ c (Proc.devRef .tc r) :=
  StableHlo.after_of_writes_sub hostOps0_8 _ hostOps0_8_writes h

abbrev W10 : Dev nD → Valuation τ sig (Elt F) := fun c => StableHlo.after hostOps0_9 (W9 m ρ c)

theorem W10_of (h : r ∉ hostOps0_9_W) :
    W10 m ρ c (Proc.devRef .tc r) = W9 m ρ c (Proc.devRef .tc r) :=
  StableHlo.after_of_writes_sub hostOps0_9 _ hostOps0_9_writes h

abbrev W11 : Dev nD → Valuation τ sig (Elt F) := fun c => StableHlo.after hostOps0_10 (W10 m ρ c)

theorem W11_of (h : r ∉ hostOps0_10_W) :
    W11 m ρ c (Proc.devRef .tc r) = W10 m ρ c (Proc.devRef .tc r) :=
  StableHlo.after_of_writes_sub hostOps0_10 _ hostOps0_10_writes h
abbrev V11 : (c : Dev nD) → (b : Ref sig .tc) → Buf (Elt F) ((c : Thread nD τ).loc b) := fun c b => W11 m ρ c b

def W12 : Valuation τ sig (Elt F) :=
  Pipeline.withArrays spec0 c (W11 m ρ c) fun w => (dat0 (V11 m ρ) c).arrAt w cfg0.N
theorem W12_arr (w : Fin cfg0.W) :
    W12 m ρ c (Proc.devRef .tc (Pipeline.arrRef spec0 w)) = (dat0 (V11 m ρ) c).arrAt w cfg0.N :=
  Pipeline.withArrays_arr spec0 launch0.win.arr_inj c _ _ w
theorem W12_of_ne (hb : ∀ w, Pipeline.arrRef spec0 w ≠ b) :
    W12 m ρ c (Proc.devRef .tc b) = W11 m ρ c (Proc.devRef .tc b) :=
  Pipeline.withArrays_of_ne spec0 c _ _ b hb

theorem W12_in (w : Fin cfg0.W) (h : (cfg0.win w).isOut = false) :
    W12 m ρ c (Proc.devRef .tc (Pipeline.arrRef spec0 w)) = W11 m ρ c (Proc.devRef .tc (Pipeline.arrRef spec0 w)) :=
  (W12_arr m ρ c w).trans (((dat0 (V11 m ρ) c).arrAt_in w h _).trans (A_eq0 (V11 m ρ) c w))
abbrev V12 : (c : Dev nD) → (b : Ref sig .tc) → Buf (Elt F) ((c : Thread nD τ).loc b) := fun c b => W12 m ρ c b

def W13 : Valuation τ sig (Elt F) :=
  Pipeline.withArrays spec1 c (W12 m ρ c) fun w => (dat1 (V12 m ρ) c).arrAt w cfg1.N
theorem W13_arr (w : Fin cfg1.W) :
    W13 m ρ c (Proc.devRef .tc (Pipeline.arrRef spec1 w)) = (dat1 (V12 m ρ) c).arrAt w cfg1.N :=
  Pipeline.withArrays_arr spec1 launch1.win.arr_inj c _ _ w
theorem W13_of_ne (hb : ∀ w, Pipeline.arrRef spec1 w ≠ b) :
    W13 m ρ c (Proc.devRef .tc b) = W12 m ρ c (Proc.devRef .tc b) :=
  Pipeline.withArrays_of_ne spec1 c _ _ b hb

theorem W13_in (w : Fin cfg1.W) (h : (cfg1.win w).isOut = false) :
    W13 m ρ c (Proc.devRef .tc (Pipeline.arrRef spec1 w)) = W12 m ρ c (Proc.devRef .tc (Pipeline.arrRef spec1 w)) :=
  (W13_arr m ρ c w).trans (((dat1 (V12 m ρ) c).arrAt_in w h _).trans (A_eq1 (V12 m ρ) c w))
abbrev V13 : (c : Dev nD) → (b : Ref sig .tc) → Buf (Elt F) ((c : Thread nD τ).loc b) := fun c b => W13 m ρ c b

abbrev W14 : Dev nD → Valuation τ sig (Elt F) := fun c => StableHlo.after hostOps2 (W13 m ρ c)

theorem W14_of (h : r ∉ hostOps2_W) :
    W14 m ρ c (Proc.devRef .tc r) = W13 m ρ c (Proc.devRef .tc r) :=
  StableHlo.after_of_writes_sub hostOps2 _ hostOps2_writes h

abbrev W15 : Dev nD → Valuation τ sig (Elt F) := fun c => StableHlo.after hostOps2_1 (W14 m ρ c)

theorem W15_of (h : r ∉ hostOps2_1_W) :
    W15 m ρ c (Proc.devRef .tc r) = W14 m ρ c (Proc.devRef .tc r) :=
  StableHlo.after_of_writes_sub hostOps2_1 _ hostOps2_1_writes h

abbrev W16 : Dev nD → Valuation τ sig (Elt F) := fun c => StableHlo.after hostOps2_2 (W15 m ρ c)

theorem W16_of (h : r ∉ hostOps2_2_W) :
    W16 m ρ c (Proc.devRef .tc r) = W15 m ρ c (Proc.devRef .tc r) :=
  StableHlo.after_of_writes_sub hostOps2_2 _ hostOps2_2_writes h
abbrev V16 : (c : Dev nD) → (b : Ref sig .tc) → Buf (Elt F) ((c : Thread nD τ).loc b) := fun c b => W16 m ρ c b

def W17 : Valuation τ sig (Elt F) :=
  Pipeline.withArrays spec2 c (W16 m ρ c) fun w => (dat2 (V16 m ρ) c).arrAt w cfg2.N
theorem W17_arr (w : Fin cfg2.W) :
    W17 m ρ c (Proc.devRef .tc (Pipeline.arrRef spec2 w)) = (dat2 (V16 m ρ) c).arrAt w cfg2.N :=
  Pipeline.withArrays_arr spec2 launch2.win.arr_inj c _ _ w
theorem W17_of_ne (hb : ∀ w, Pipeline.arrRef spec2 w ≠ b) :
    W17 m ρ c (Proc.devRef .tc b) = W16 m ρ c (Proc.devRef .tc b) :=
  Pipeline.withArrays_of_ne spec2 c _ _ b hb

theorem W17_in (w : Fin cfg2.W) (h : (cfg2.win w).isOut = false) :
    W17 m ρ c (Proc.devRef .tc (Pipeline.arrRef spec2 w)) = W16 m ρ c (Proc.devRef .tc (Pipeline.arrRef spec2 w)) :=
  (W17_arr m ρ c w).trans (((dat2 (V16 m ρ) c).arrAt_in w h _).trans (A_eq2 (V16 m ρ) c w))
abbrev V17 : (c : Dev nD) → (b : Ref sig .tc) → Buf (Elt F) ((c : Thread nD τ).loc b) := fun c b => W17 m ρ c b

def W18 : Valuation τ sig (Elt F) :=
  Pipeline.withArrays spec3 c (W17 m ρ c) fun w => (dat3 (V17 m ρ) c).arrAt w cfg3.N
theorem W18_arr (w : Fin cfg3.W) :
    W18 m ρ c (Proc.devRef .tc (Pipeline.arrRef spec3 w)) = (dat3 (V17 m ρ) c).arrAt w cfg3.N :=
  Pipeline.withArrays_arr spec3 launch3.win.arr_inj c _ _ w
theorem W18_of_ne (hb : ∀ w, Pipeline.arrRef spec3 w ≠ b) :
    W18 m ρ c (Proc.devRef .tc b) = W17 m ρ c (Proc.devRef .tc b) :=
  Pipeline.withArrays_of_ne spec3 c _ _ b hb

theorem W18_in (w : Fin cfg3.W) (h : (cfg3.win w).isOut = false) :
    W18 m ρ c (Proc.devRef .tc (Pipeline.arrRef spec3 w)) = W17 m ρ c (Proc.devRef .tc (Pipeline.arrRef spec3 w)) :=
  (W18_arr m ρ c w).trans (((dat3 (V17 m ρ) c).arrAt_in w h _).trans (A_eq3 (V17 m ρ) c w))
abbrev V18 : (c : Dev nD) → (b : Ref sig .tc) → Buf (Elt F) ((c : Thread nD τ).loc b) := fun c b => W18 m ρ c b

abbrev W19 : Dev nD → Valuation τ sig (Elt F) := fun c => StableHlo.after hostOps4 (W18 m ρ c)

theorem W19_of (h : r ∉ hostOps4_W) :
    W19 m ρ c (Proc.devRef .tc r) = W18 m ρ c (Proc.devRef .tc r) :=
  StableHlo.after_of_writes_sub hostOps4 _ hostOps4_writes h
abbrev V19 : (c : Dev nD) → (b : Ref sig .tc) → Buf (Elt F) ((c : Thread nD τ).loc b) := fun c b => W19 m ρ c b

def W20 : Valuation τ sig (Elt F) :=
  Pipeline.withArrays spec4 c (W19 m ρ c) fun w => (dat4 (V19 m ρ) c).arrAt w cfg4.N
theorem W20_arr (w : Fin cfg4.W) :
    W20 m ρ c (Proc.devRef .tc (Pipeline.arrRef spec4 w)) = (dat4 (V19 m ρ) c).arrAt w cfg4.N :=
  Pipeline.withArrays_arr spec4 launch4.win.arr_inj c _ _ w
theorem W20_of_ne (hb : ∀ w, Pipeline.arrRef spec4 w ≠ b) :
    W20 m ρ c (Proc.devRef .tc b) = W19 m ρ c (Proc.devRef .tc b) :=
  Pipeline.withArrays_of_ne spec4 c _ _ b hb

theorem W20_in (w : Fin cfg4.W) (h : (cfg4.win w).isOut = false) :
    W20 m ρ c (Proc.devRef .tc (Pipeline.arrRef spec4 w)) = W19 m ρ c (Proc.devRef .tc (Pipeline.arrRef spec4 w)) :=
  (W20_arr m ρ c w).trans (((dat4 (V19 m ρ) c).arrAt_in w h _).trans (A_eq4 (V19 m ρ) c w))

theorem V12_main_v8 : V12 m ρ c main_v8 = (dat0 (V11 m ρ) c).arrAt 3 cfg0.N := W12_arr m ρ c 3
theorem V13_main_v9 : V13 m ρ c main_v9 = (dat1 (V12 m ρ) c).arrAt 3 cfg1.N := W13_arr m ρ c 3
theorem V17_main_v13 : V17 m ρ c main_v13 = (dat2 (V16 m ρ) c).arrAt 3 cfg2.N := W17_arr m ρ c 3
theorem V18_main_v14 : V18 m ρ c main_v14 = (dat3 (V17 m ρ) c).arrAt 3 cfg3.N := W18_arr m ρ c 3
theorem W20_main_v16 : W20 m ρ c (Proc.devRef .tc main_v16) = (dat4 (V19 m ρ) c).arrAt 5 cfg4.N := W20_arr m ρ c 5

end

def pdats : (p : Fin 5) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V12 m ρ) c
  | ⟨2, _⟩ => fun c => dat2 (V16 m ρ) c
  | ⟨3, _⟩ => fun c => dat3 (V17 m ρ) c
  | ⟨4, _⟩ => fun c => dat4 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem pdats_facts : ∀ (p : Fin 5) (c : Dev nD),
    (∀ t, (pdats m ρ p c).owed t = 0) ∧ (∀ t x, x ∈ (pdats m ρ p c).recorded t) ∧ ∀ w, (pdats m ρ p c).q w = fullShare
  | ⟨0, _⟩, _ | ⟨1, _⟩, _ | ⟨2, _⟩, _ | ⟨3, _⟩, _ | ⟨4, _⟩, _ => ⟨fun _ => rfl, fun _ _ => trivial, fun _ => rfl⟩

set_option backward.isDefEq.respectTransparency.types false in
/-- A region entered with every unscoped buffer held at `W` and left with them held at `W'`, which is `W` with the region's arrays at their final contents. -/
def reg (p : Fin 5) (lf : Pipeline.LaunchFacts (nD := nD) (τ := τ) cfgs p) (W W' : Dev nD → Valuation τ sig (Elt F))
    (hW' : ∀ c, W' c = Pipeline.withArrays (cfgs p).spec c (W c) fun w => (pdats m ρ p c).arrAt w (cfgs p).N)
    (hb : ∀ c, BodyObligation (pdats m ρ p c) (defs₀ (F := F)) 𝒱₀ () Set.univ)
    (hA : ∀ c w, (pdats m ρ p c).A w = W c (Pipeline.arrRef (cfgs p).spec w))
    (hi : ∀ c, Pipeline.ΦA (cfgs p).spec c ⊢ (pdats m ρ p c).Φ 0)
    (ho : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m ρ p c).1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (pdats_facts m ρ p c).2.2) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m ρ p c).1]
      icases HO with ⟨%W, HO⟩; iexists W; isplitr; · ipureintro; exact fun _ _ => Or.inl ((pdats_facts m ρ p c).2.1 _ _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (pdats_facts m ρ p c).2.2)
      (fun b => W c b) (fun b => W' c b) ((pdats m ρ p c).arrAt · (cfgs p).N)
      (fun w => ((congrFun (hW' c) _).trans (Pipeline.withArrays_arr _ lf.win.arr_inj c _ _ w)).symm)
      (fun b h => (congrFun (hW' c) _).trans (Pipeline.withArrays_of_ne _ c _ _ b fun w e => h (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_facts m ρ p c).1]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg m ρ 0 launch0 (W11 m ρ) (W12 m ρ) (fun _ => rfl) (body_obligation0 (V11 m ρ)) (A_eq0 (V11 m ρ)) (hin0 (V11 m ρ)) (hout0 (V11 m ρ))),
    .region (reg m ρ 1 launch1 (W12 m ρ) (W13 m ρ) (fun _ => rfl) (body_obligation1 (V12 m ρ)) (A_eq1 (V12 m ρ)) (hin1 (V12 m ρ)) (hout1 (V12 m ρ))),
    .host (hseg hostOps2 hostOps2_sub hostOps2_fresh (W13 m ρ)),
    .host (hseg hostOps2_1 hostOps2_1_sub hostOps2_1_fresh (W14 m ρ)),
    .host (hseg hostOps2_2 hostOps2_2_sub hostOps2_2_fresh (W15 m ρ)),
    .region (reg m ρ 2 launch2 (W16 m ρ) (W17 m ρ) (fun _ => rfl) (body_obligation2 (V16 m ρ)) (A_eq2 (V16 m ρ)) (hin2 (V16 m ρ)) (hout2 (V16 m ρ))),
    .region (reg m ρ 3 launch3 (W17 m ρ) (W18 m ρ) (fun _ => rfl) (body_obligation3 (V17 m ρ)) (A_eq3 (V17 m ρ)) (hin3 (V17 m ρ)) (hout3 (V17 m ρ))),
    .host (hseg hostOps4 hostOps4_sub hostOps4_fresh (W18 m ρ)),
    .region (reg m ρ 4 launch4 (W19 m ρ) (W20 m ρ) (fun _ => rfl) (body_obligation4 (V19 m ρ)) (A_eq4 (V19 m ρ)) (fun _ => .rfl) fun _ => .rfl) ]

theorem main_run (c : Dev nD) : main (F := F) c = Pipeline.Seg.run (segs m ρ) := (main_chain c).trans (by chain_rfl)

set_option backward.isDefEq.respectTransparency.types false in

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W20 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W20 m ρ c) ∗ ∃ r, prngReg c r))
    (hch := by and_intros <;> intro <;> first | exact .rfl | exact sep_assoc.2)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := hQ)

noncomputable def Wn : ℕ → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | 11 => W11 m ρ | 12 => W12 m ρ | 13 => W13 m ρ
  | 14 => W14 m ρ | 15 => W15 m ρ | 16 => W16 m ρ | 17 => W17 m ρ | 18 => W18 m ρ | 19 => W19 m ρ | _ => W20 m ρ

noncomputable def wr : ℕ → List (Ref sig .tc)
  | 0 => hostOps0_W | 1 => hostOps0_1_W | 2 => hostOps0_2_W | 3 => hostOps0_3_W | 4 => hostOps0_4_W | 5 => hostOps0_5_W
  | 6 => hostOps0_6_W | 7 => hostOps0_7_W | 8 => hostOps0_8_W | 9 => hostOps0_9_W | 10 => hostOps0_10_W | 11 => [main_v8]
  | 12 => [main_v9] | 13 => hostOps2_W | 14 => hostOps2_1_W | 15 => hostOps2_2_W | 16 => [main_v13] | 17 => [main_v14] | 18 => hostOps4_W | 19 => [main_v16] | _ => []

/-- Two valuations that agree at a region's input arrays and off its arrays agree at every reference that is none of its output arrays. -/
theorem keep_of {n : ℕ} {arr : Fin n → Ref sig .tc} {out : Fin n → Bool} {X Y : Valuation τ sig (Elt F)}
    (hin : ∀ w, out w = false → X (Proc.devRef .tc (arr w)) = Y (Proc.devRef .tc (arr w)))
    (hne : ∀ b, (∀ w, arr w ≠ b) → X (Proc.devRef .tc b) = Y (Proc.devRef .tc b))
    {l : List (Ref sig .tc)} (hl : ∀ w, out w = true → arr w ∈ l) {b : Ref sig .tc} (hb : b ∉ l) :
    X (Proc.devRef .tc b) = Y (Proc.devRef .tc b) := by
  by_cases h : ∃ w, arr w = b
  · obtain ⟨w, rfl⟩ := h; exact hin w (eq_false_of_ne_true fun ho => hb (hl w ho))
  · exact hne b fun w e => h ⟨w, e⟩

theorem Wn_step (k : ℕ) (c : Dev nD) (b : Ref sig .tc) (h : b ∉ wr k) :
    Wn m ρ (k + 1) c (Proc.devRef .tc b) = Wn m ρ k c (Proc.devRef .tc b) :=
  match k, h with
  | 0, h => W1_of m ρ c b h
  | 1, h => W2_of m ρ c b h
  | 2, h => W3_of m ρ c b h
  | 3, h => W4_of m ρ c b h
  | 4, h => W5_of m ρ c b h
  | 5, h => W6_of m ρ c b h
  | 6, h => W7_of m ρ c b h
  | 7, h => W8_of m ρ c b h
  | 8, h => W9_of m ρ c b h
  | 9, h => W10_of m ρ c b h
  | 10, h => W11_of m ρ c b h
  | 11, h => keep_of (W12_in m ρ c) (W12_of_ne m ρ c) (by decide) h
  | 12, h => keep_of (W13_in m ρ c) (W13_of_ne m ρ c) (by decide) h
  | 13, h => W14_of m ρ c b h
  | 14, h => W15_of m ρ c b h
  | 15, h => W16_of m ρ c b h
  | 16, h => keep_of (W17_in m ρ c) (W17_of_ne m ρ c) (by decide) h
  | 17, h => keep_of (W18_in m ρ c) (W18_of_ne m ρ c) (by decide) h
  | 18, h => W19_of m ρ c b h
  | 19, h => keep_of (W20_in m ρ c) (W20_of_ne m ρ c) (by decide) h
  | _ + 20, _ => rfl

/-- A reference that none of the `n` items after boundary `i` may change has at boundary `i + n` the contents it had at boundary `i`. -/
theorem Wn_walk (i n : ℕ) (c : Dev nD) (b : Ref sig .tc) (h : ∀ k < n, b ∉ wr (i + k)) :
    Wn m ρ (i + n) c (Proc.devRef .tc b) = Wn m ρ i c (Proc.devRef .tc b) := by
  induction n with
  | zero => rfl
  | succ n ih => exact (Wn_step m ρ (i + n) c b (h n n.lt_succ_self)).trans (ih fun k hk => h k (Nat.lt_succ_of_lt hk))

theorem kept {s : MemSt nD τ sig (Elt F)}
    (hs : ∀ c : Dev nD, ∀ b ∈ Pipeline.ucRefs τ sig, s.mem (((c : Thread nD τ)).1, b) = W20 m ρ c b) (c : Dev nD) (b : Ref sig .tc)
    (h0 : ¬ (Proc.devRef .tc b : DevRef τ sig).isScoped) (h : ∀ k < 20, b ∉ wr (0 + k)) :
    s.mem ((c.tc : Thread nD τ).loc b) = m ((c.tc : Thread nD τ).loc b) :=
  (hs c _ (mem_uc b h0)).trans (Wn_walk m ρ 0 20 c b h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c => by and_intros <;> exact kept m ρ h c _ (by decide) (by decide)

end Cert.KernelIdeal.Hand

end
-- ==== Proof.KI.Val.Pre.lean ====
import proofs.«407864_j23167053595206_1_alg».proof.Pre_finite_inputs
import Idealize.ShloMosaic.Lib.ReduceAll
import Idealize.ShloMosaic.Lib.ValueIdx

noncomputable section

namespace Cert.PreRange

open Idealize.ShloMosaic Cert.Pre_finite_inputs

instance : Subsingleton S_.Idx := ⟨fun a b => funext fun d => d.elim0⟩

theorem ofBool_eq_one (b : Bool) : BitVec.ofBool b = 1#1 ↔ b = true := by cases b <;> decide

theorem word_range (w : BitVec 32) (h0 : IntOp.cmpi .sge w (0#32) = 1#1) (h1 : IntOp.cmpi .slt w (100000#32) = 1#1) :
    0 ≤ w.toInt ∧ w.toInt < 100000 := by
  unfold IntOp.cmpi at h0 h1
  rw [ofBool_eq_one] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

theorem start_range [Cert.Pre_finite_inputs.Facts] {F : FTy → Type} [FloatOps F]
    (a0 : FVec F S100000x48 .f32) (a1 : IVec S1600000 32) (a2 : IVec S1600000 32) (a3 : FVec F S1600000x1 .f32)
    (a4 : FVec F S100000x1 .f32) (a5 : FVec F S48x128 .f32) (a6 : FVec F S128 .f32) (a7 : FVec F S128x128 .f32) (a8 : FVec F S128 .f32)
    (h : Cert.Pre_finite_inputs.fn (F := F) a0 a1 a2 a3 a4 a5 a6 a7 a8 = fun _ => 1#1) (e : S1600000.Idx) :
    0 ≤ (a1 e).toInt ∧ (a1 e).toInt < 100000 := by
  have e0 := congrFun h ValueIdx.ix0
  unfold Cert.Pre_finite_inputs.fn Cert.Pre_finite_inputs.fn_part1 Cert.Pre_finite_inputs.fn_part2 at e0
  dsimp only at e0
  obtain ⟨h37, h40⟩ := IntOp.andi_eq_one.1 e0
  obtain ⟨-, h36⟩ := IntOp.andi_eq_one.1 h37
  have hge := Host.reduce_andi_all _ _ _ _ _ h36 e
  have hlt := Host.reduce_andi_all _ _ _ _ _ h40 e
  exact word_range (a1 e) hge hlt

end Cert.PreRange

end
-- ==== Proof.LibScatter.lean ====
import Idealize.ShloMosaic.PureOps.Ideal
import Idealize.ShloMosaic.PureOps.Ideal.Laws
import Idealize.ShloMosaic.Lib.ValueIdx

noncomputable section

namespace Gnn.Scatter

open Idealize.ShloMosaic Idealize.ShloMosaic.ValueIdx Finset

abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowScatter (M E C : Nat) (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e ⟨0, Nat.one_pos⟩)).toInt.toNat (N - 1), by omega⟩ k) := by
  unfold Host.gather
  congr 1
  funext a
  refine Fin.ext ?_
  show (rowGather N E C wf).start (ix2 e k) idx a + (rowGather N E C wf).batchCoord (ix2 e k) a
      + (rowGather N E C wf).offCoord (ix2 e k) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowGather N E C wf).startIndexMap from List.mem_singleton.mpr rfl)]
    have hsi : (rowGather N E C wf).siIdx (ix2 e k) ⟨List.idxOf (⟨0, h0⟩ : Fin 2) (rowGather N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hn : (⟨1, h1⟩ : Fin 2) ∉ (rowGather N E C wf).startIndexMap := fun h =>
      absurd (congrArg Fin.val (List.mem_singleton.mp h)) Nat.one_ne_zero
    have hk : (⟨1, h1⟩ : Fin 2) ∈ (rowGather N E C wf).sKept :=
      (GatherDims.mem_sKept _ _).mpr ⟨fun h => absurd (congrArg Fin.val (List.mem_singleton.mp h)) Nat.one_ne_zero,
        List.not_mem_nil⟩
    unfold GatherDims.start GatherDims.offCoord
    rw [dif_neg hn, dif_pos hk, Nat.zero_add]
    rfl

section Row
variable {M E C w : Nat} (wf : ScatterDims.WF ⟨2, ![M, C]⟩ ⟨2, ![E, 1]⟩ ⟨2, ![E, C]⟩ [1] [0] [0] 1)
  (idx : IVec ⟨2, ![E, 1]⟩ w) (e : Fin E) (k' : Fin C)

private theorem row_land0 (h0 : 0 < 2) :
    (rowScatter M E C wf).start (ix2 e k') idx ⟨0, h0⟩ + ((rowScatter M E C wf).window (ix2 e k') ⟨0, h0⟩ : ℤ)
      = (idx (ix2 e ⟨0, Nat.one_pos⟩)).toInt := by
  have hm : (⟨0, h0⟩ : Fin 2) ∈ (rowScatter M E C wf).scatterDimsToOperandDims := List.mem_singleton.mpr rfl
  have hk : (⟨0, h0⟩ : Fin 2) ∉ (rowScatter M E C wf).sKept := fun h =>
    (List.mem_filter.mp h).2 |> fun h' => by simp at h'
  unfold ScatterDims.start ScatterDims.window
  rw [dif_pos hm, dif_neg hk]
  have hsi : (rowScatter M E C wf).siIdx (ix2 e k')
      ⟨List.idxOf (⟨0, h0⟩ : Fin 2) (rowScatter M E C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem row_land1 (h1 : 1 < 2) :
    (rowScatter M E C wf).start (ix2 e k') idx ⟨1, h1⟩ + ((rowScatter M E C wf).window (ix2 e k') ⟨1, h1⟩ : ℤ)
      = (k'.val : ℤ) := by
  have hm : (⟨1, h1⟩ : Fin 2) ∉ (rowScatter M E C wf).scatterDimsToOperandDims := fun h =>
    absurd (congrArg Fin.val (List.mem_singleton.mp h)) Nat.one_ne_zero
  have hk : (⟨1, h1⟩ : Fin 2) ∈ (rowScatter M E C wf).sKept :=
    List.mem_filter.mpr ⟨List.mem_finRange _, by simp⟩
  unfold ScatterDims.start ScatterDims.window
  rw [dif_neg hm, dif_pos hk, Int.zero_add]
  rfl

private theorem row_resultIdx_iff (q : Fin M) (k : Fin C) :
    (rowScatter M E C wf).resultIdx? (ix2 e k') idx = some (ix2 q k)
      ↔ (idx (ix2 e ⟨0, Nat.one_pos⟩)).toInt = (q.val : ℤ) ∧ k' = k := by
  unfold ScatterDims.resultIdx?
  constructor
  · intro h
    split at h
    · rename_i hall
      have hf := Option.some.inj h
      have e0 : ((rowScatter M E C wf).start (ix2 e k') idx ⟨0, Nat.zero_lt_two⟩
          + ((rowScatter M E C wf).window (ix2 e k') ⟨0, Nat.zero_lt_two⟩ : ℤ)).toNat = q.val :=
        congrArg Fin.val (congrFun hf ⟨0, Nat.zero_lt_two⟩)
      have e1 : ((rowScatter M E C wf).start (ix2 e k') idx ⟨1, Nat.one_lt_two⟩
          + ((rowScatter M E C wf).window (ix2 e k') ⟨1, Nat.one_lt_two⟩ : ℤ)).toNat = k.val :=
        congrArg Fin.val (congrFun hf ⟨1, Nat.one_lt_two⟩)
      have a0 := (hall ⟨0, Nat.zero_lt_two⟩).1
      rw [row_land0] at e0 a0
      rw [row_land1] at e1
      exact ⟨by omega, Fin.ext (by omega)⟩
    · exact absurd h (by simp)
  · rintro ⟨hq, rfl⟩
    have hall : ∀ a, 0 ≤ (rowScatter M E C wf).start (ix2 e k') idx a + ((rowScatter M E C wf).window (ix2 e k') a : ℤ)
        ∧ (rowScatter M E C wf).start (ix2 e k') idx a + ((rowScatter M E C wf).window (ix2 e k') a : ℤ)
          < (((⟨2, ![M, C]⟩ : Shape).size a : ℕ) : ℤ) := by
      intro a
      match a with
      | ⟨0, h0⟩ =>
        rw [row_land0, hq]
        have := q.isLt
        exact ⟨by omega, show (q.val : ℤ) < ((M : ℕ) : ℤ) by omega⟩
      | ⟨1, h1⟩ =>
        rw [row_land1]
        have := k'.isLt
        exact ⟨by omega, show (k'.val : ℤ) < ((C : ℕ) : ℤ) by omega⟩
    rw [dif_pos hall]
    congr 1
    funext a
    refine Fin.ext ?_
    match a with
    | ⟨0, h0⟩ =>
      show ((rowScatter M E C wf).start (ix2 e k') idx ⟨0, h0⟩
        + ((rowScatter M E C wf).window (ix2 e k') ⟨0, h0⟩ : ℤ)).toNat = q.val
      rw [row_land0, hq]; omega
    | ⟨1, h1⟩ =>
      show ((rowScatter M E C wf).start (ix2 e k') idx ⟨1, h1⟩
        + ((rowScatter M E C wf).window (ix2 e k') ⟨1, h1⟩ : ℤ)).toNat = k'.val
      rw [row_land1]; omega

end Row

theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w) (upd : (⟨2, ![E, C]⟩ : Shape).Idx → EReal)
    (q : Fin M) (k : Fin C) :
    Ideal.hostScatterAdd (rowScatter M E C wf) x idx upd (ix2 q k)
      = x (ix2 q k) + ∑ e ∈ univ.filter (fun e : Fin E => (idx (ix2 e ⟨0, Nat.one_pos⟩)).toInt = (q.val : ℤ)), upd (ix2 e k) := by
  unfold Ideal.hostScatterAdd
  congr 1
  refine Finset.sum_nbij' (fun j => (⟨(j ⟨0, Nat.zero_lt_two⟩).val, idx2_lt0 j⟩ : Fin E)) (fun e => ix2 e k) ?_ ?_ ?_ ?_ ?_
  · intro j hj
    have hj' := (Finset.mem_filter.mp hj).2
    rw [eq_ix2 j] at hj'
    exact Finset.mem_filter.mpr ⟨Finset.mem_univ _, ((row_resultIdx_iff wf idx _ _ q k).mp hj').1⟩
  · intro e he
    exact Finset.mem_filter.mpr ⟨Finset.mem_univ _,
      (row_resultIdx_iff wf idx e k q k).mpr ⟨(Finset.mem_filter.mp he).2, rfl⟩⟩
  · intro j hj
    have hj' := (Finset.mem_filter.mp hj).2
    rw [eq_ix2 j] at hj'
    have hk := ((row_resultIdx_iff wf idx _ _ q k).mp hj').2
    conv_rhs => rw [eq_ix2 j]
    rw [← hk]
    rfl
  · intro e _
    rfl
  · intro j hj
    have hj' := (Finset.mem_filter.mp hj).2
    rw [eq_ix2 j] at hj'
    have hk := ((row_resultIdx_iff wf idx _ _ q k).mp hj').2
    conv_lhs => rw [eq_ix2 j]
    rw [← hk]
    rfl

end Gnn.Scatter

end
-- ==== Proof.KI.Val.Spec.lean ====
import Idealize.ShloMosaic.Lib.ValueIdx
import proofs.«407864_j23167053595206_1_alg».proof.KernelIdeal

noncomputable section

open scoped BigOperators

namespace Cert.KernelIdeal.Val

open Idealize.ShloMosaic Idealize.ShloMosaic.ValueIdx Cert.KernelIdeal

def gatherAt (start : IVec S1600512 32) (dfs : S1600512.Idx → EReal) (y : S100352x48.Idx → EReal)
    (e : Fin 1600512) (d : Fin 48) : EReal :=
  (∑ n : Fin 100352, (if start (ix1 e) = BitVec.ofNat 32 n.val then (1 : EReal) else 0) * y (ix2 n d)) * dfs (ix1 e)

def Ggather (start : IVec S1600512 32) (dfs : S1600512.Idx → EReal) (y : S100352x48.Idx → EReal) :
    S1600512x48.Idx → EReal :=
  fun i => gatherAt start dfs y (i 0) (i 1)

theorem Ggather_apply (start : IVec S1600512 32) (dfs : S1600512.Idx → EReal) (y : S100352x48.Idx → EReal)
    (e : Fin 1600512) (d : Fin 48) :
    Ggather start dfs y (ix2 e d) =
      (∑ n : Fin 100352, (if start (ix1 e) = BitVec.ofNat 32 n.val then (1 : EReal) else 0) * y (ix2 n d)) * dfs (ix1 e) := rfl

def scatterAt (end_ : IVec S1600512 32) (msg : S1600512x48.Idx → EReal) (df : S100352.Idx → EReal)
    (n : Fin 100352) (d : Fin 48) : EReal :=
  (∑ e : Fin 1600512, (if BitVec.ofNat 32 n.val = end_ (ix1 e) then (1 : EReal) else 0) * msg (ix2 e d)) * df (ix1 n)

def Gscatter (end_ : IVec S1600512 32) (msg : S1600512x48.Idx → EReal) (df : S100352.Idx → EReal) :
    S100352x48.Idx → EReal :=
  fun i => scatterAt end_ msg df (i 0) (i 1)

theorem Gscatter_apply (end_ : IVec S1600512 32) (msg : S1600512x48.Idx → EReal) (df : S100352.Idx → EReal)
    (n : Fin 100352) (d : Fin 48) :
    Gscatter end_ msg df (ix2 n d) =
      (∑ e : Fin 1600512, (if BitVec.ofNat 32 n.val = end_ (ix1 e) then (1 : EReal) else 0) * msg (ix2 e d)) * df (ix1 n) := rfl

def mlpAt (y : S100000x48.Idx → EReal) (W1 : S48x128.Idx → EReal) (b1 : S128.Idx → EReal)
    (W2 : S128x128.Idx → EReal) (b2 : S128.Idx → EReal) (r : Fin 100000) (o : Fin 128) : EReal :=
  (∑ k : Fin 128, max ((∑ j : Fin 48, y (ix2 r j) * W1 (ix2 j k)) + b1 (ix1 k)) 0 * W2 (ix2 k o)) + b2 (ix1 o)

def Gmlp (y : S100000x48.Idx → EReal) (W1 : S48x128.Idx → EReal) (b1 : S128.Idx → EReal)
    (W2 : S128x128.Idx → EReal) (b2 : S128.Idx → EReal) : S100000x128.Idx → EReal :=
  fun i => mlpAt y W1 b1 W2 b2 (i 0) (i 1)

theorem Gmlp_apply (y : S100000x48.Idx → EReal) (W1 : S48x128.Idx → EReal) (b1 : S128.Idx → EReal)
    (W2 : S128x128.Idx → EReal) (b2 : S128.Idx → EReal) (r : Fin 100000) (o : Fin 128) :
    Gmlp y W1 b1 W2 b2 (ix2 r o) =
      (∑ k : Fin 128, max ((∑ j : Fin 48, y (ix2 r j) * W1 (ix2 j k)) + b1 (ix1 k)) 0 * W2 (ix2 k o)) + b2 (ix1 o) := rfl

end Cert.KernelIdeal.Val

end
-- ==== Proof.KI.Val.Pass.lean ====
import Idealize.ShloMosaic.Lib.ValueIdx
import Idealize.ShloMosaic.PureOps.Ideal
import proofs.«407864_j23167053595206_1_alg».proof.KernelIdeal

noncomputable section

open scoped BigOperators

namespace Cert.KernelIdeal.Val

open Idealize.ShloMosaic Idealize.ShloMosaic.ValueIdx Cert.KernelIdeal

theorem ofNat_eq_iff_toInt (n : ℕ) (hn : n < 2147483648) (v : BitVec 32) :
    BitVec.ofNat 32 n = v ↔ v.toInt = (n : ℤ) := by
  constructor
  · rintro rfl
    rw [BitVec.toInt_eq_toNat_cond, BitVec.toNat_ofNat]
    have h1 : n % 2 ^ 32 = n := Nat.mod_eq_of_lt (by omega)
    rw [h1]
    split <;> omega
  · intro h
    apply BitVec.eq_of_toNat_eq
    rw [BitVec.toNat_ofNat]
    have h1 : n % 2 ^ 32 = n := Nat.mod_eq_of_lt (by omega)
    rw [h1]
    rw [BitVec.toInt_eq_toNat_cond] at h
    have := v.isLt
    split at h <;> omega

theorem eq_ofNat_toNat_of_nonneg (v : BitVec 32) (h : 0 ≤ v.toInt) : v = BitVec.ofNat 32 v.toInt.toNat := by
  have hlt : v.toInt.toNat < 2147483648 := by
    have := BitVec.toInt_lt (x := v)
    omega
  exact ((ofNat_eq_iff_toInt _ hlt v).mpr (by omega)).symm

theorem sum_eq_sum_castLE {M : Type*} [AddCommMonoid M] {a b : ℕ} (hab : a ≤ b) (g : Fin b → M)
    (hg : ∀ e : Fin b, a ≤ e.val → g e = 0) : ∑ e : Fin b, g e = ∑ e : Fin a, g (Fin.castLE hab e) := by
  have h1 : ∑ e : Fin a, g (Fin.castLE hab e) = ∑ e ∈ Finset.univ.map (Fin.castLEEmb hab), g e := by
    rw [Finset.sum_map]; rfl
  rw [h1]
  symm
  refine Finset.sum_subset (Finset.subset_univ _) fun e _ he => hg e ?_
  by_contra hlt
  exact he (Finset.mem_map.mpr ⟨⟨e.val, by omega⟩, Finset.mem_univ _, Fin.ext rfl⟩)

theorem sum_ite_one_mul {ι : Type*} [Fintype ι] (p : ι → Prop) [DecidablePred p] (f : ι → EReal) :
    ∑ e : ι, (if p e then (1 : EReal) else 0) * f e = ∑ e ∈ Finset.univ.filter p, f e := by
  rw [Finset.sum_filter]
  refine Finset.sum_congr rfl fun e _ => ?_
  split
  · exact one_mul _
  · exact zero_mul _

def nodeOf (s : BitVec 32) : Fin 100000 := ⟨min s.toInt.toNat 99999, by omega⟩

theorem nodeOf_val_of_lt (s : BitVec 32) (h : s.toInt < 100000) : (nodeOf s).val = s.toInt.toNat := by
  show min s.toInt.toNat 99999 = s.toInt.toNat
  omega

def passAt (start end_ : IVec S1600000 32) (dfs : S1600000x1.Idx → EReal) (df : S100000x1.Idx → EReal)
    (y : S100000x48.Idx → EReal) (n : Fin 100000) (d : Fin 48) : EReal :=
  (∑ e ∈ Finset.univ.filter (fun e : Fin 1600000 => (end_ (ix1 e)).toInt = (n.val : ℤ)),
      y (ix2 (nodeOf (start (ix1 e))) d) * dfs (ix2 e (⟨0, Nat.one_pos⟩ : Fin 1))) * df (ix2 n (⟨0, Nat.one_pos⟩ : Fin 1))

def Gpass (start end_ : IVec S1600000 32) (dfs : S1600000x1.Idx → EReal) (df : S100000x1.Idx → EReal)
    (y : S100000x48.Idx → EReal) : S100000x48.Idx → EReal :=
  fun i => passAt start end_ dfs df y (i 0) (i 1)

theorem Gpass_apply (start end_ : IVec S1600000 32) (dfs : S1600000x1.Idx → EReal) (df : S100000x1.Idx → EReal)
    (y : S100000x48.Idx → EReal) (n : Fin 100000) (d : Fin 48) :
    Gpass start end_ dfs df y (ix2 n d) =
      (∑ e ∈ Finset.univ.filter (fun e : Fin 1600000 => (end_ (ix1 e)).toInt = (n.val : ℤ)),
        y (ix2 (nodeOf (start (ix1 e))) d) * dfs (ix2 e (⟨0, Nat.one_pos⟩ : Fin 1))) * df (ix2 n (⟨0, Nat.one_pos⟩ : Fin 1)) := rfl

end Cert.KernelIdeal.Val

end
-- ==== Proof.KI.Val.Ref.lean ====
import Idealize.ShloMosaic.Lib.ValueIdx
import Idealize.ShloMosaic.Lib.Affine
import Idealize.ShloMosaic.PureOps.Ideal
import Idealize.ShloMosaic.PureOps.Ideal.Laws
import proofs.«407864_j23167053595206_1_alg».proof.Proof.Gen.ReferenceIdeal.Run
import proofs.«407864_j23167053595206_1_alg».proof.Proof.Gen.ReferenceIdeal.Read
import proofs.«407864_j23167053595206_1_alg».proof.Proof.LibScatter
import proofs.«407864_j23167053595206_1_alg».proof.Proof.KI.Val.Spec
import proofs.«407864_j23167053595206_1_alg».proof.Proof.KI.Val.Pass

noncomputable section

open scoped BigOperators

namespace Cert.KernelIdeal.Val

open Idealize.ShloMosaic Idealize.ShloMosaic.ValueIdx Cert.KernelIdeal Cert.ReferenceIdeal.Read

theorem idx_col (e : Fin 1600000) (z : Fin 1) :
    idx_main_v5 (ix2 e z) = ix1 e := funext fun a => by match a with | ⟨0, _⟩ => rfl

theorem bcast_col_read (e : Fin 1600000) (d : Fin 48) :
    idx_main_v7 (ix2 e d) = ix2 e (⟨0, Nat.one_pos⟩ : Fin 1) :=
  funext fun a => by match a with | ⟨0, _⟩ => rfl | ⟨1, _⟩ => rfl

theorem bcast_node_read (n : Fin 100000) (d : Fin 48) :
    idx_main_v12 (ix2 n d) = ix2 n (⟨0, Nat.one_pos⟩ : Fin 1) :=
  funext fun a => by match a with | ⟨0, _⟩ => rfl | ⟨1, _⟩ => rfl

theorem wrap_id (a : BitVec 32) (h : 0 ≤ a.toInt) :
    Scalar.select (IntOp.cmpi .slt a 0#32) (IntOp.addi a 100000#32) a = a := by
  unfold Scalar.select
  rw [if_neg]
  intro hc
  have h1 := IntOp.cmpi_slt.mp hc
  rw [BitVec.toInt_zero] at h1
  omega

theorem gather_read (y : S100000x48.Idx → EReal) (idx : IVec S1600000x1 32) (e : Fin 1600000) (d : Fin 48) :
    Host.gather Cert.ReferenceIdeal.gather_S100000x48_S1600000x1_S1600000x48_1_0_n_n_0_1_148 y idx (ix2 e d)
      = y (ix2 (nodeOf (idx (ix2 e (⟨0, Nat.one_pos⟩ : Fin 1)))) d) :=
  Gnn.Scatter.gather_row_apply (by omega)
    Cert.ReferenceIdeal.Facts₀.gather_S100000x48_S1600000x1_S1600000x48_1_0_n_n_0_1_148_wf y idx e d

theorem scatter_read (x : S100000x48.Idx → EReal) (idx : IVec S1600000x1 32) (upd : Cert.ReferenceIdeal.S1600000x48.Idx → EReal)
    (n : Fin 100000) (d : Fin 48) :
    Host.scatterAdd (F := Ideal) (φ := .f32) Cert.ReferenceIdeal.scatter_S100000x48_S1600000x1_S1600000x48_1_0_0_1 x idx upd (ix2 n d)
      = x (ix2 n d) + ∑ e ∈ Finset.univ.filter
          (fun e : Fin 1600000 => (idx (ix2 e (⟨0, Nat.one_pos⟩ : Fin 1))).toInt = (n.val : ℤ)), upd (ix2 e d) :=
  Gnn.Scatter.scatterAdd_row_apply
    Cert.ReferenceIdeal.Facts₀.scatter_S100000x48_S1600000x1_S1600000x48_1_0_0_1_wf x idx upd n d

theorem pass_of_stages (y : S100000x48.Idx → EReal) (x1 x2 : IVec S1600000 32) (x3 : S1600000x1.Idx → EReal)
    (x4 : S100000x1.Idx → EReal) (idxS idxE : IVec S1600000x1 32) (zero : S100000x48.Idx → EReal)
    (dfsB : Cert.ReferenceIdeal.S1600000x48.Idx → EReal) (dfB : S100000x48.Idx → EReal)
    (hS : ∀ e : Fin 1600000, idxS (ix2 e (⟨0, Nat.one_pos⟩ : Fin 1)) = x1 (ix1 e))
    (hE : ∀ e : Fin 1600000, idxE (ix2 e (⟨0, Nat.one_pos⟩ : Fin 1)) = x2 (ix1 e))
    (hz : ∀ i, zero i = 0)
    (hdfs : ∀ (e : Fin 1600000) (d : Fin 48), dfsB (ix2 e d) = x3 (ix2 e (⟨0, Nat.one_pos⟩ : Fin 1)))
    (hdf : ∀ (n : Fin 100000) (d : Fin 48), dfB (ix2 n d) = x4 (ix2 n (⟨0, Nat.one_pos⟩ : Fin 1))) :
    mulf (F := Ideal) (φ := .f32)
        (Host.scatterAdd (F := Ideal) (φ := .f32) Cert.ReferenceIdeal.scatter_S100000x48_S1600000x1_S1600000x48_1_0_0_1 zero idxE
          (mulf (F := Ideal) (φ := .f32)
            (Host.gather Cert.ReferenceIdeal.gather_S100000x48_S1600000x1_S1600000x48_1_0_n_n_0_1_148 y idxS) dfsB))
        dfB
      = Gpass x1 x2 x3 x4 y := by
  funext i
  obtain ⟨n, d, rfl⟩ : ∃ (n : Fin 100000) (d : Fin 48), i = ix2 n d := ⟨i 0, i 1, eq_ix2 i⟩
  rw [mulf_apply, scatter_read, hz, zero_add, hdf, Gpass_apply]
  refine congrArg (fun s => s * x4 (ix2 n (⟨0, Nat.one_pos⟩ : Fin 1))) ?_
  refine Finset.sum_congr (Finset.filter_congr fun e _ => by rw [hE]) fun e _ => ?_
  rw [mulf_apply, gather_read, hS, hdfs]

section Rounds
variable (x0 : S100000x48.Idx → EReal) (x1 x2 : IVec S1600000 32) (x3 : S1600000x1.Idx → EReal)
  (x4 : S100000x1.Idx → EReal)

theorem val_v13_eq (hstart : ∀ e : Fin 1600000, 0 ≤ (x1 (ix1 e)).toInt) :
    val_main_v13 (F := Ideal) x0 x1 x2 x3 x4 = Gpass x1 x2 x3 x4 x0 := by
  unfold val_main_v13 val_main_v11 val_main_v8 val_main_v6
  refine pass_of_stages x0 x1 x2 x3 x4 _ _ _ _ _ (fun e => ?_) (fun e => ?_) (fun i => ?_) (fun e d => ?_) (fun n d => ?_)
  · rw [val_main_v5_apply, idx_col, val_main_v4_apply, val_main_v1_apply, val_main_v3_apply, val_main_v0_apply,
      val_main_v2_apply, val_main_c_apply, val_main_c_0_apply]
    exact wrap_id _ (hstart e)
  · rw [val_main_v10_apply]
    exact congrArg x2 (idx_col e _)
  · rw [val_main_v9_apply, val_main_cst_apply]
    exact Ideal.ofBits_zero_f32
  · rw [val_main_v7_apply, bcast_col_read]
  · rw [val_main_v12_apply, bcast_node_read]

theorem val_v27_eq (hstart : ∀ e : Fin 1600000, 0 ≤ (x1 (ix1 e)).toInt) :
    val_main_v27 (F := Ideal) x0 x1 x2 x3 x4 = Gpass x1 x2 x3 x4 (val_main_v13 (F := Ideal) x0 x1 x2 x3 x4) := by
  unfold val_main_v27 val_main_v25 val_main_v22 val_main_v20
  generalize val_main_v13 (F := Ideal) x0 x1 x2 x3 x4 = y
  refine pass_of_stages y x1 x2 x3 x4 _ _ _ _ _ (fun e => ?_) (fun e => ?_) (fun i => ?_) (fun e d => ?_) (fun n d => ?_)
  · rw [val_main_v19_apply]
    show val_main_v18 (F := Ideal) x1 (idx_main_v5 (ix2 e _)) = _
    rw [idx_col, val_main_v18_apply, val_main_v15_apply, val_main_v17_apply, val_main_v14_apply,
      val_main_v16_apply, val_main_c_1_apply, val_main_c_2_apply]
    exact wrap_id _ (hstart e)
  · rw [val_main_v24_apply]
    exact congrArg x2 (idx_col e _)
  · rw [val_main_v23_apply, val_main_cst_3_apply]
    exact Ideal.ofBits_zero_f32
  · rw [val_main_v21_apply]
    exact congrArg x3 (bcast_col_read e d)
  · rw [val_main_v26_apply]
    exact congrArg x4 (bcast_node_read n d)

end Rounds

theorem lidx33 (r : Fin 100000) (o k : Fin 128) : lidx_main_v33 (ix2 r o) k = ix2 r k :=
  funext fun a => by match a with | ⟨0, _⟩ => rfl | ⟨1, _⟩ => rfl

theorem ridx33 (r : Fin 100000) (o k : Fin 128) : ridx_main_v33 (ix2 r o) k = ix2 k o :=
  funext fun a => by match a with | ⟨0, _⟩ => rfl | ⟨1, _⟩ => rfl

theorem lidx28 (r : Fin 100000) (k : Fin 128) (j : Fin 48) : lidx_main_v28 (ix2 r k) j = ix2 r j :=
  funext fun a => by match a with | ⟨0, _⟩ => rfl | ⟨1, _⟩ => rfl

theorem ridx28 (r : Fin 100000) (k : Fin 128) (j : Fin 48) : ridx_main_v28 (ix2 r k) j = ix2 j k :=
  funext fun a => by match a with | ⟨0, _⟩ => rfl | ⟨1, _⟩ => rfl

theorem idx_b1 (r : Fin 100000) (k : Fin 128) : idx_main_v29 (idx_main_v30 (ix2 r k)) = ix1 k :=
  funext fun a => by match a with | ⟨0, _⟩ => rfl

theorem idx_b2 (r : Fin 100000) (o : Fin 128) : idx_main_v34 (idx_main_v35 (ix2 r o)) = ix1 o :=
  funext fun a => by match a with | ⟨0, _⟩ => rfl

theorem val_v36_eq (x0 : S100000x48.Idx → EReal) (x1 x2 : IVec S1600000 32) (x3 : S1600000x1.Idx → EReal)
    (x4 : S100000x1.Idx → EReal) (x5 : S48x128.Idx → EReal) (x6 : S128.Idx → EReal) (x7 : S128x128.Idx → EReal)
    (x8 : S128.Idx → EReal) :
    val_main_v36 (F := Ideal) x0 x1 x2 x3 x4 x5 x6 x7 x8
      = Gmlp (val_main_v27 (F := Ideal) x0 x1 x2 x3 x4) x5 x6 x7 x8 := by
  funext i
  obtain ⟨r, o, rfl⟩ : ∃ (r : Fin 100000) (o : Fin 128), i = ix2 r o := ⟨i 0, i 1, eq_ix2 i⟩
  rw [Gmlp_apply, val_main_v36_apply, val_main_v33_apply, val_main_v35_apply, val_main_v34_apply, idx_b2]
  show (∑ k : Fin 128, _) + x8 (ix1 o) = _
  refine congrArg (fun s => s + x8 (ix1 o)) ?_
  refine Finset.sum_congr rfl fun k _ => ?_
  rw [lidx33, ridx33, val_main_v32_apply, val_main_v31_apply, val_main_v28_apply, val_main_v30_apply,
    val_main_v29_apply, idx_b1, val_main_call0_v0_apply, val_main_call0_cst_apply]
  show max ((∑ j : Fin 48, _) + x6 (ix1 k)) (Ideal.ofBits .f32 0x00000000#32) * x7 (ix2 k o) = _
  rw [Ideal.ofBits_zero_f32]
  refine congrArg (fun s => max (s + x6 (ix1 k)) 0 * x7 (ix2 k o)) ?_
  refine Finset.sum_congr rfl fun j _ => ?_
  rw [lidx28, ridx28]

theorem ref_value (x0 : S100000x48.Idx → EReal) (x1 x2 : IVec S1600000 32) (x3 : S1600000x1.Idx → EReal)
    (x4 : S100000x1.Idx → EReal) (x5 : S48x128.Idx → EReal) (x6 : S128.Idx → EReal) (x7 : S128x128.Idx → EReal)
    (x8 : S128.Idx → EReal) (hstart : ∀ e : Fin 1600000, 0 ≤ (x1 (ix1 e)).toInt) :
    val_main_v36 (F := Ideal) x0 x1 x2 x3 x4 x5 x6 x7 x8
      = Gmlp (Gpass x1 x2 x3 x4 (Gpass x1 x2 x3 x4 x0)) x5 x6 x7 x8 := by
  rw [val_v36_eq, val_v27_eq x0 x1 x2 x3 x4 hstart, val_v13_eq x0 x1 x2 x3 x4 hstart]

end Cert.KernelIdeal.Val

end
-- ==== Proof.KI.RunEntry.lean ====
import proofs.«407864_j23167053595206_1_alg».proof.Proof.KI.Run
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Entry
variable (c : Dev nD)

theorem W1_main_v0 : (W1 m ρ c (Proc.devRef .tc main_v0) : (⟨S1600000, .f32⟩ : BufTy).Contents (Elt F))
    = shapeCast S1600000 (W0 m ρ c (Proc.devRef .tc main_arg3) : (⟨S1600000x1, .f32⟩ : BufTy).Contents (Elt F)) shapeCasts_S1600000x1_S1600000 := by
  show StableHlo.after hostOps0 (W0 m ρ c) (Proc.devRef .tc main_v0) = _
  after_results <;> rfl

theorem W1_main_v1 : (W1 m ρ c (Proc.devRef .tc main_v1) : (⟨S100000, .f32⟩ : BufTy).Contents (Elt F))
    = shapeCast S100000 (W0 m ρ c (Proc.devRef .tc main_arg4) : (⟨S100000x1, .f32⟩ : BufTy).Contents (Elt F)) shapeCasts_S100000x1_S100000 := by
  show StableHlo.after hostOps0 (W0 m ρ c) (Proc.devRef .tc main_v1) = _
  after_results <;> rfl

theorem W1_main_c : (W1 m ρ c (Proc.devRef .tc main_c) : (⟨S_, .i32⟩ : BufTy).Contents (Elt F))
    = (constantI S_ 32 0#32 : (⟨S_, .i32⟩ : BufTy).Contents (Elt F)) := by
  show StableHlo.after hostOps0 (W0 m ρ c) (Proc.devRef .tc main_c) = _
  after_results <;> rfl

theorem W2_main_v2 : (W2 m ρ c (Proc.devRef .tc main_v2) : (⟨S1600512, .i32⟩ : BufTy).Contents (Elt F))
    = pad S1600512 ![0] ![512] ![0] (W1 m ρ c (Proc.devRef .tc main_arg1) : (⟨S1600000, .i32⟩ : BufTy).Contents (Elt F)) (W1 m ρ c (Proc.devRef .tc main_c) : (⟨S_, .i32⟩ : BufTy).Contents (Elt F)) pads_S1600000_S1600512_05120 h_S_ := by
  show StableHlo.after hostOps0_1 (W1 m ρ c) (Proc.devRef .tc main_v2) = _
  after_results <;> rfl

theorem W3_main_c_0 : (W3 m ρ c (Proc.devRef .tc main_c_0) : (⟨S_, .i32⟩ : BufTy).Contents (Elt F))
    = (constantI S_ 32 0#32 : (⟨S_, .i32⟩ : BufTy).Contents (Elt F)) := by
  show StableHlo.after hostOps0_2 (W2 m ρ c) (Proc.devRef .tc main_c_0) = _
  after_results <;> rfl

theorem W4_main_v3 : (W4 m ρ c (Proc.devRef .tc main_v3) : (⟨S1600512, .i32⟩ : BufTy).Contents (Elt F))
    = pad S1600512 ![0] ![512] ![0] (W3 m ρ c (Proc.devRef .tc main_arg2) : (⟨S1600000, .i32⟩ : BufTy).Contents (Elt F)) (W3 m ρ c (Proc.devRef .tc main_c_0) : (⟨S_, .i32⟩ : BufTy).Contents (Elt F)) pads_S1600000_S1600512_05120 h_S_ := by
  show StableHlo.after hostOps0_3 (W3 m ρ c) (Proc.devRef .tc main_v3) = _
  after_results <;> rfl

theorem W5_main_c_1 : (W5 m ρ c (Proc.devRef .tc main_c_1) : (⟨S_, .i32⟩ : BufTy).Contents (Elt F))
    = (constantI S_ 32 0#32 : (⟨S_, .i32⟩ : BufTy).Contents (Elt F)) := by
  show StableHlo.after hostOps0_4 (W4 m ρ c) (Proc.devRef .tc main_c_1) = _
  after_results <;> rfl

theorem W6_main_v4 : (W6 m ρ c (Proc.devRef .tc main_v4) : (⟨S1600512, .f32⟩ : BufTy).Contents (Elt F))
    = pad S1600512 ![0] ![512] ![0] (W5 m ρ c (Proc.devRef .tc main_v0) : (⟨S1600000, .f32⟩ : BufTy).Contents (Elt F)) (sitofp (F := F) .f32 (W5 m ρ c (Proc.devRef .tc main_c_1) : (⟨S_, .i32⟩ : BufTy).Contents (Elt F)) : (⟨S_, .f32⟩ : BufTy).Contents (Elt F)) pads_S1600000_S1600512_05120 h_S_ := by
  show StableHlo.after hostOps0_5 (W5 m ρ c) (Proc.devRef .tc main_v4) = _
  after_results <;> rfl

theorem W7_main_c_2 : (W7 m ρ c (Proc.devRef .tc main_c_2) : (⟨S_, .i32⟩ : BufTy).Contents (Elt F))
    = (constantI S_ 32 0#32 : (⟨S_, .i32⟩ : BufTy).Contents (Elt F)) := by
  show StableHlo.after hostOps0_6 (W6 m ρ c) (Proc.devRef .tc main_c_2) = _
  after_results <;> rfl

theorem W8_main_v5 : (W8 m ρ c (Proc.devRef .tc main_v5) : (⟨S100352, .f32⟩ : BufTy).Contents (Elt F))
    = pad S100352 ![0] ![352] ![0] (W7 m ρ c (Proc.devRef .tc main_v1) : (⟨S100000, .f32⟩ : BufTy).Contents (Elt F)) (sitofp (F := F) .f32 (W7 m ρ c (Proc.devRef .tc main_c_2) : (⟨S_, .i32⟩ : BufTy).Contents (Elt F)) : (⟨S_, .f32⟩ : BufTy).Contents (Elt F)) pads_S100000_S100352_03520 h_S_ := by
  show StableHlo.after hostOps0_7 (W7 m ρ c) (Proc.devRef .tc main_v5) = _
  after_results <;> rfl

theorem W9_main_c_3 : (W9 m ρ c (Proc.devRef .tc main_c_3) : (⟨S_, .i32⟩ : BufTy).Contents (Elt F))
    = (constantI S_ 32 0#32 : (⟨S_, .i32⟩ : BufTy).Contents (Elt F)) := by
  show StableHlo.after hostOps0_8 (W8 m ρ c) (Proc.devRef .tc main_c_3) = _
  after_results <;> rfl

theorem W10_main_v6 : (W10 m ρ c (Proc.devRef .tc main_v6) : (⟨S100352x48, .f32⟩ : BufTy).Contents (Elt F))
    = pad S100352x48 ![0, 0] ![352, 0] ![0, 0] (W9 m ρ c (Proc.devRef .tc main_arg0) : (⟨S100000x48, .f32⟩ : BufTy).Contents (Elt F)) (sitofp (F := F) .f32 (W9 m ρ c (Proc.devRef .tc main_c_3) : (⟨S_, .i32⟩ : BufTy).Contents (Elt F)) : (⟨S_, .f32⟩ : BufTy).Contents (Elt F)) pads_S100000x48_S100352x48_03520_000 h_S_ := by
  show StableHlo.after hostOps0_9 (W9 m ρ c) (Proc.devRef .tc main_v6) = _
  after_results <;> rfl

theorem W11_main_v7 : (W11 m ρ c (Proc.devRef .tc main_v7) : (⟨S100352x48, .bf16⟩ : BufTy).Contents (Elt F))
    = truncf .bf16 (W10 m ρ c (Proc.devRef .tc main_v6) : (⟨S100352x48, .f32⟩ : BufTy).Contents (Elt F)) bitsLt_bf16_f32 := by
  show StableHlo.after hostOps0_10 (W10 m ρ c) (Proc.devRef .tc main_v7) = _
  after_results <;> rfl

theorem W14_main_v10 : (W14 m ρ c (Proc.devRef .tc main_v10) : (⟨S100000x48, .f32⟩ : BufTy).Contents (Elt F))
    = extractStridedSlice S100000x48 ![0, 0] (W13 m ρ c (Proc.devRef .tc main_v9) : (⟨S100352x48, .f32⟩ : BufTy).Contents (Elt F)) slices_S100352x48_S100000x48_0_0 := by
  show StableHlo.after hostOps2 (W13 m ρ c) (Proc.devRef .tc main_v10) = _
  after_results <;> rfl

theorem W14_main_c_4 : (W14 m ρ c (Proc.devRef .tc main_c_4) : (⟨S_, .i32⟩ : BufTy).Contents (Elt F))
    = (constantI S_ 32 0#32 : (⟨S_, .i32⟩ : BufTy).Contents (Elt F)) := by
  show StableHlo.after hostOps2 (W13 m ρ c) (Proc.devRef .tc main_c_4) = _
  after_results <;> rfl

theorem W15_main_v11 : (W15 m ρ c (Proc.devRef .tc main_v11) : (⟨S100352x48, .f32⟩ : BufTy).Contents (Elt F))
    = pad S100352x48 ![0, 0] ![352, 0] ![0, 0] (W14 m ρ c (Proc.devRef .tc main_v10) : (⟨S100000x48, .f32⟩ : BufTy).Contents (Elt F)) (sitofp (F := F) .f32 (W14 m ρ c (Proc.devRef .tc main_c_4) : (⟨S_, .i32⟩ : BufTy).Contents (Elt F)) : (⟨S_, .f32⟩ : BufTy).Contents (Elt F)) pads_S100000x48_S100352x48_03520_000 h_S_ := by
  show StableHlo.after hostOps2_1 (W14 m ρ c) (Proc.devRef .tc main_v11) = _
  after_results <;> rfl

theorem W16_main_v12 : (W16 m ρ c (Proc.devRef .tc main_v12) : (⟨S100352x48, .bf16⟩ : BufTy).Contents (Elt F))
    = truncf .bf16 (W15 m ρ c (Proc.devRef .tc main_v11) : (⟨S100352x48, .f32⟩ : BufTy).Contents (Elt F)) bitsLt_bf16_f32 := by
  show StableHlo.after hostOps2_2 (W15 m ρ c) (Proc.devRef .tc main_v12) = _
  after_results <;> rfl

theorem W19_main_v15 : (W19 m ρ c (Proc.devRef .tc main_v15) : (⟨S100000x48, .f32⟩ : BufTy).Contents (Elt F))
    = extractStridedSlice S100000x48 ![0, 0] (W18 m ρ c (Proc.devRef .tc main_v14) : (⟨S100352x48, .f32⟩ : BufTy).Contents (Elt F)) slices_S100352x48_S100000x48_0_0 := by
  show StableHlo.after hostOps4 (W18 m ρ c) (Proc.devRef .tc main_v15) = _
  after_results <;> rfl

theorem V2_main_v2 : (V2 m ρ c main_v2 : (⟨S1600512, .i32⟩ : BufTy).Contents (Elt F)) = pad S1600512 ![0] ![512] ![0] (m ((c : Thread nD τ).loc main_arg1)) (constantI S_ 32 0#32 : (⟨S_, .i32⟩ : BufTy).Contents (Elt F)) pads_S1600000_S1600512_05120 h_S_ := by
  show W2 m ρ c (Proc.devRef .tc main_v2) = _
  rw [W2_main_v2, W1_main_c, W1_of m ρ c main_arg1 (by decide)] <;> rfl

theorem V4_main_v3 : (V4 m ρ c main_v3 : (⟨S1600512, .i32⟩ : BufTy).Contents (Elt F)) = pad S1600512 ![0] ![512] ![0] (m ((c : Thread nD τ).loc main_arg2)) (constantI S_ 32 0#32 : (⟨S_, .i32⟩ : BufTy).Contents (Elt F)) pads_S1600000_S1600512_05120 h_S_ := by
  show W4 m ρ c (Proc.devRef .tc main_v3) = _
  rw [W4_main_v3, W3_main_c_0, show W3 m ρ c (Proc.devRef .tc main_arg2) = W0 m ρ c (Proc.devRef .tc main_arg2) from
    Wn_walk m ρ 0 3 c main_arg2 (by decide)] <;> rfl

theorem V6_main_v4 : (V6 m ρ c main_v4 : (⟨S1600512, .f32⟩ : BufTy).Contents (Elt F)) = pad S1600512 ![0] ![512] ![0] (shapeCast S1600000 (m ((c : Thread nD τ).loc main_arg3)) shapeCasts_S1600000x1_S1600000) (sitofp (F := F) .f32 (constantI S_ 32 0#32) : (⟨S_, .f32⟩ : BufTy).Contents (Elt F)) pads_S1600000_S1600512_05120 h_S_ := by
  show W6 m ρ c (Proc.devRef .tc main_v4) = _
  rw [W6_main_v4, W5_main_c_1, show W5 m ρ c (Proc.devRef .tc main_v0) = W1 m ρ c (Proc.devRef .tc main_v0) from
    Wn_walk m ρ 1 4 c main_v0 (by decide), W1_main_v0] <;> rfl

theorem V8_main_v5 : (V8 m ρ c main_v5 : (⟨S100352, .f32⟩ : BufTy).Contents (Elt F)) = pad S100352 ![0] ![352] ![0] (shapeCast S100000 (m ((c : Thread nD τ).loc main_arg4)) shapeCasts_S100000x1_S100000) (sitofp (F := F) .f32 (constantI S_ 32 0#32) : (⟨S_, .f32⟩ : BufTy).Contents (Elt F)) pads_S100000_S100352_03520 h_S_ := by
  show W8 m ρ c (Proc.devRef .tc main_v5) = _
  rw [W8_main_v5, W7_main_c_2, show W7 m ρ c (Proc.devRef .tc main_v1) = W1 m ρ c (Proc.devRef .tc main_v1) from
    Wn_walk m ρ 1 6 c main_v1 (by decide), W1_main_v1] <;> rfl

theorem V11_main_v7 : (V11 m ρ c main_v7 : (⟨S100352x48, .bf16⟩ : BufTy).Contents (Elt F)) = truncf .bf16 (pad S100352x48 ![0, 0] ![352, 0] ![0, 0] (m ((c : Thread nD τ).loc main_arg0)) (sitofp (F := F) .f32 (constantI S_ 32 0#32) : (⟨S_, .f32⟩ : BufTy).Contents (Elt F)) pads_S100000x48_S100352x48_03520_000 h_S_) bitsLt_bf16_f32 := by
  show W11 m ρ c (Proc.devRef .tc main_v7) = _
  rw [W11_main_v7, W10_main_v6, W9_main_c_3, show W9 m ρ c (Proc.devRef .tc main_arg0) = W0 m ρ c (Proc.devRef .tc main_arg0) from
    Wn_walk m ρ 0 9 c main_arg0 (by decide)] <;> rfl

theorem V16_main_v12 : (V16 m ρ c main_v12 : (⟨S100352x48, .bf16⟩ : BufTy).Contents (Elt F))
    = truncf .bf16 (pad S100352x48 ![0, 0] ![352, 0] ![0, 0] (extractStridedSlice S100000x48 ![0, 0] (V13 m ρ c main_v9 : (⟨S100352x48, .f32⟩ : BufTy).Contents (Elt F)) slices_S100352x48_S100000x48_0_0) (sitofp (F := F) .f32 (constantI S_ 32 0#32) : (⟨S_, .f32⟩ : BufTy).Contents (Elt F)) pads_S100000x48_S100352x48_03520_000 h_S_) bitsLt_bf16_f32 := by
  show W16 m ρ c (Proc.devRef .tc main_v12) = _
  rw [W16_main_v12, W15_main_v11, W14_main_c_4, W14_main_v10] <;> rfl

theorem V19_main_v15 : (V19 m ρ c main_v15 : (⟨S100000x48, .f32⟩ : BufTy).Contents (Elt F)) = extractStridedSlice S100000x48 ![0, 0] (V18 m ρ c main_v14 : (⟨S100352x48, .f32⟩ : BufTy).Contents (Elt F)) slices_S100352x48_S100000x48_0_0 :=
  W19_main_v15 m ρ c

theorem V11_main_v2 : V11 m ρ c main_v2 = V2 m ρ c main_v2 :=
  show W11 m ρ c (Proc.devRef .tc main_v2) = W2 m ρ c (Proc.devRef .tc main_v2) from
  Wn_walk m ρ 2 9 c main_v2 (by decide)

theorem V11_main_v4 : V11 m ρ c main_v4 = V6 m ρ c main_v4 :=
  show W11 m ρ c (Proc.devRef .tc main_v4) = W6 m ρ c (Proc.devRef .tc main_v4) from
  Wn_walk m ρ 6 5 c main_v4 (by decide)

theorem V12_main_v3 : V12 m ρ c main_v3 = V4 m ρ c main_v3 :=
  show W12 m ρ c (Proc.devRef .tc main_v3) = W4 m ρ c (Proc.devRef .tc main_v3) from
  Wn_walk m ρ 4 8 c main_v3 (by decide)

theorem V12_main_v5 : V12 m ρ c main_v5 = V8 m ρ c main_v5 :=
  show W12 m ρ c (Proc.devRef .tc main_v5) = W8 m ρ c (Proc.devRef .tc main_v5) from
  Wn_walk m ρ 8 4 c main_v5 (by decide)

theorem V16_main_v2 : V16 m ρ c main_v2 = V2 m ρ c main_v2 :=
  show W16 m ρ c (Proc.devRef .tc main_v2) = W2 m ρ c (Proc.devRef .tc main_v2) from
  Wn_walk m ρ 2 14 c main_v2 (by decide)

theorem V16_main_v4 : V16 m ρ c main_v4 = V6 m ρ c main_v4 :=
  show W16 m ρ c (Proc.devRef .tc main_v4) = W6 m ρ c (Proc.devRef .tc main_v4) from
  Wn_walk m ρ 6 10 c main_v4 (by decide)

theorem V17_main_v3 : V17 m ρ c main_v3 = V4 m ρ c main_v3 :=
  show W17 m ρ c (Proc.devRef .tc main_v3) = W4 m ρ c (Proc.devRef .tc main_v3) from
  Wn_walk m ρ 4 13 c main_v3 (by decide)

theorem V17_main_v5 : V17 m ρ c main_v5 = V8 m ρ c main_v5 :=
  show W17 m ρ c (Proc.devRef .tc main_v5) = W8 m ρ c (Proc.devRef .tc main_v5) from
  Wn_walk m ρ 8 9 c main_v5 (by decide)

theorem V19_main_arg5 : V19 m ρ c main_arg5 = m ((c : Thread nD τ).loc main_arg5) :=
  show W19 m ρ c (Proc.devRef .tc main_arg5) = _ from
  Wn_walk m ρ 0 19 c main_arg5 (by decide)

theorem V19_main_arg6 : V19 m ρ c main_arg6 = m ((c : Thread nD τ).loc main_arg6) :=
  show W19 m ρ c (Proc.devRef .tc main_arg6) = _ from
  Wn_walk m ρ 0 19 c main_arg6 (by decide)

theorem V19_main_arg7 : V19 m ρ c main_arg7 = m ((c : Thread nD τ).loc main_arg7) :=
  show W19 m ρ c (Proc.devRef .tc main_arg7) = _ from
  Wn_walk m ρ 0 19 c main_arg7 (by decide)

theorem V19_main_arg8 : V19 m ρ c main_arg8 = m ((c : Thread nD τ).loc main_arg8) :=
  show W19 m ρ c (Proc.devRef .tc main_arg8) = _ from
  Wn_walk m ρ 0 19 c main_arg8 (by decide)

end Entry

end Cert.KernelIdeal.Hand

end
-- ==== Proof.KI.G0.Pieces.lean ====
import proofs.«407864_j23167053595206_1_alg».proof.Proof.KI.G0.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem offs1 : (![0] : Fin 1 → Nat) = fun _ => 0 := funext fun a => by fin_cases a <;> rfl
private theorem offs2 : (![0, 0] : Fin 2 → Nat) = fun _ => 0 := funext fun a => by fin_cases a <;> rfl

section Pieces

variable {c : Dev nD} {i : grid0.Coords}
  {arg2 : Memref sig .tc .vmem S3072 .i32} {harg2 : arg2.IsWhole}
  {arg3 : Memref sig .tc .vmem S3072 .f32} {harg3 : arg3.IsWhole}
  {arg4 : Memref sig .tc .vmem S2048x48 .bf16} {harg4 : arg4.IsWhole}
  {arg5 : Memref sig .tc .vmem S3072x48 .bf16} {harg5 : arg5.IsWhole}
  {arg6 : Memref sig .tc .vmem S3072x48 .f32} {harg6 : arg6.IsWhole}
  {x0 : Vec F S3072 .i32} {x1 : Vec F S3072 .f32} {x2 : Vec F S2048x48 .bf16}

theorem sout0_A_0_eq {hc0 : cond0_0 i} {hc1 : ¬cond0_1 i} :
    VS0_0.read (Elt F) (VS0_0.writes (Elt F) VS0_0.junk
      (kernelRun0_A c i arg2 harg2 arg3 harg3 arg4 harg4 arg5 harg5 arg6 harg6 hc0 hc1 x0 x1 x2).2.1)
      = k0_pay2 i x0 x2 k0_pay1 := by
  refine (View.read_writes_eq_canon _ _ _ (View.cover_of_tiledL _ S3072x48.size (by sl_kernel_rfl))).trans ?_
  unfold kernelRun0_A
  dsimp only
  sl_unfold_words
  rw [View.canon_cons_unit_zero (S := S3072x48) offs2, View.readCov_unit_zero (S := S3072x48) _ offs2]
  simp only [View.readAt_eq_ld, harg2.read_unread, harg4.read_unread,
    View.ld_unit_zero (S := S3072) offs1, View.ld_unit_zero (S := S2048x48) offs2]

theorem sout0_B_0_eq {hc0 : ¬cond0_0 i} {hc1 : ¬cond0_1 i} {xs0 : Vec F S3072x48 .f32} :
    VS0_0.read (Elt F) (VS0_0.writes (Elt F) VS0_0.junk
      (kernelRun0_B c i arg2 harg2 arg3 harg3 arg4 harg4 arg5 harg5 arg6 harg6 hc0 hc1 x0 x1 x2 xs0).2.1)
      = k0_pay2 i x0 x2 xs0 := by
  refine (View.read_writes_eq_canon _ _ _ (View.cover_of_tiledL _ S3072x48.size (by sl_kernel_rfl))).trans ?_
  unfold kernelRun0_B
  dsimp only
  sl_unfold_words
  rw [View.canon_unit_zero offs2]
  simp only [View.readAt_eq_ld, harg2.read_unread, harg4.read_unread, harg6.read_unread,
    View.ld_unit_zero (S := S3072) offs1, View.ld_unit_zero (S := S2048x48) offs2, View.ld_unit_zero (S := S3072x48) offs2]

theorem sout0_C_0_eq {hc0 : ¬cond0_0 i} {hc1 : cond0_1 i} {xs0 : Vec F S3072x48 .f32} :
    VS0_0.read (Elt F) (VS0_0.writes (Elt F) VS0_0.junk
      (kernelRun0_C c i arg2 harg2 arg3 harg3 arg4 harg4 arg5 harg5 arg6 harg6 hc0 hc1 x0 x1 x2 xs0).2.1)
      = k0_pay2 i x0 x2 xs0 := by
  refine (View.read_writes_eq_canon _ _ _ (View.cover_of_tiledL _ S3072x48.size (by sl_kernel_rfl))).trans ?_
  unfold kernelRun0_C
  dsimp only
  sl_unfold_words
  rw [View.canon_unit_zero offs2]
  simp only [View.readAt_eq_ld, harg2.read_unread, harg4.read_unread, harg6.read_unread,
    View.ld_unit_zero (S := S3072) offs1, View.ld_unit_zero (S := S2048x48) offs2, View.ld_unit_zero (S := S3072x48) offs2]

theorem out0_C_3_eq {hc0 : ¬cond0_0 i} {hc1 : cond0_1 i} {xs0 : Vec F S3072x48 .f32} :
    VO0_3.read (Elt F) (VO0_3.writes (Elt F) VO0_3.junk
      (kernelRun0_C c i arg2 harg2 arg3 harg3 arg4 harg4 arg5 harg5 arg6 harg6 hc0 hc1 x0 x1 x2 xs0).1)
      = k0_pay3 (k0_pay2 i x0 x2 xs0) x1 := by
  refine (View.read_writes_eq_canon _ _ _ (View.cover_of_tiledL _ S3072x48.size (by sl_kernel_rfl))).trans ?_
  unfold kernelRun0_C
  dsimp only
  sl_unfold_words
  rw [View.canon_unit_zero offs2]
  simp only [View.readAt_eq_ld, harg2.read_unread, harg3.read_unread, harg4.read_unread, harg6.read_unread,
    View.readCov_unit_zero (S := S3072x48) _ offs2,
    View.ld_unit_zero (S := S3072) offs1, View.ld_unit_zero (S := S2048x48) offs2, View.ld_unit_zero (S := S3072x48) offs2]

end Pieces

theorem outsAt0_first (c : Dev nD) (t : Fin cfg0.N) (h : t.val % 49 = 0) :
    (outsAt0 V c t.val t.isLt).2 = k0_pay2 (grid0.coords t) (iblk0 V c 0 t) (iblk0 V c 2 t) k0_pay1 := by
  have h1 : ¬t.val % 49 = 48 := by omega
  rw [outsAt0_A V c t h h1]
  unfold ptA0; dsimp only
  exact sout0_A_0_eq

theorem outsAt0_next (c : Dev nD) (t : Fin cfg0.N) (h : ¬t.val % 49 = 0) :
    (outsAt0 V c t.val t.isLt).2
      = k0_pay2 (grid0.coords t) (iblk0 V c 0 t) (iblk0 V c 2 t)
          (outsAt0 V c (t.val - 1) (Nat.lt_of_le_of_lt (Nat.sub_le _ _) t.isLt)).2 := by
  by_cases h1 : t.val % 49 = 48
  · rw [outsAt0_C V c t h h1]
    unfold ptC0; dsimp only
    exact sout0_C_0_eq
  · rw [outsAt0_B V c t h h1]
    unfold ptB0; dsimp only
    exact sout0_B_0_eq

theorem outsAt0_last (c : Dev nD) (t : Fin cfg0.N) (h : t.val % 49 = 48) :
    (outsAt0 V c t.val t.isLt).1 = k0_pay3 (outsAt0 V c t.val t.isLt).2 (iblk0 V c 1 t) := by
  rw [outsAt0_C V c t (by omega) h]
  unfold ptC0; dsimp only
  rw [sout0_C_0_eq]
  exact out0_C_3_eq

end Cert.KernelIdeal.Hand

end
-- ==== Proof.KI.G2.Pieces.lean ====
import proofs.«407864_j23167053595206_1_alg».proof.Proof.KI.G2.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem offs1 : (![0] : Fin 1 → Nat) = fun _ => 0 := funext fun a => by fin_cases a <;> rfl
private theorem offs2 : (![0, 0] : Fin 2 → Nat) = fun _ => 0 := funext fun a => by fin_cases a <;> rfl

section Pieces

variable {c : Dev nD} {i : grid2.Coords}
  {arg2 : Memref sig .tc .vmem S3072 .i32} {harg2 : arg2.IsWhole}
  {arg3 : Memref sig .tc .vmem S3072 .f32} {harg3 : arg3.IsWhole}
  {arg4 : Memref sig .tc .vmem S2048x48 .bf16} {harg4 : arg4.IsWhole}
  {arg5 : Memref sig .tc .vmem S3072x48 .bf16} {harg5 : arg5.IsWhole}
  {arg6 : Memref sig .tc .vmem S3072x48 .f32} {harg6 : arg6.IsWhole}
  {x0 : Vec F S3072 .i32} {x1 : Vec F S3072 .f32} {x2 : Vec F S2048x48 .bf16}

theorem sout2_A_0_eq {hc0 : cond2_0 i} {hc1 : ¬cond2_1 i} :
    VS2_0.read (Elt F) (VS2_0.writes (Elt F) VS2_0.junk
      (kernelRun2_A c i arg2 harg2 arg3 harg3 arg4 harg4 arg5 harg5 arg6 harg6 hc0 hc1 x0 x1 x2).2.1)
      = k2_pay2 i x0 x2 k2_pay1 := by
  refine (View.read_writes_eq_canon _ _ _ (View.cover_of_tiledL _ S3072x48.size (by sl_kernel_rfl))).trans ?_
  unfold kernelRun2_A
  dsimp only
  sl_unfold_words
  rw [View.canon_cons_unit_zero (S := S3072x48) offs2, View.readCov_unit_zero (S := S3072x48) _ offs2]
  simp only [View.readAt_eq_ld, harg2.read_unread, harg4.read_unread,
    View.ld_unit_zero (S := S3072) offs1, View.ld_unit_zero (S := S2048x48) offs2]

theorem sout2_B_0_eq {hc0 : ¬cond2_0 i} {hc1 : ¬cond2_1 i} {xs0 : Vec F S3072x48 .f32} :
    VS2_0.read (Elt F) (VS2_0.writes (Elt F) VS2_0.junk
      (kernelRun2_B c i arg2 harg2 arg3 harg3 arg4 harg4 arg5 harg5 arg6 harg6 hc0 hc1 x0 x1 x2 xs0).2.1)
      = k2_pay2 i x0 x2 xs0 := by
  refine (View.read_writes_eq_canon _ _ _ (View.cover_of_tiledL _ S3072x48.size (by sl_kernel_rfl))).trans ?_
  unfold kernelRun2_B
  dsimp only
  sl_unfold_words
  rw [View.canon_unit_zero offs2]
  simp only [View.readAt_eq_ld, harg2.read_unread, harg4.read_unread, harg6.read_unread,
    View.ld_unit_zero (S := S3072) offs1, View.ld_unit_zero (S := S2048x48) offs2, View.ld_unit_zero (S := S3072x48) offs2]

theorem sout2_C_0_eq {hc0 : ¬cond2_0 i} {hc1 : cond2_1 i} {xs0 : Vec F S3072x48 .f32} :
    VS2_0.read (Elt F) (VS2_0.writes (Elt F) VS2_0.junk
      (kernelRun2_C c i arg2 harg2 arg3 harg3 arg4 harg4 arg5 harg5 arg6 harg6 hc0 hc1 x0 x1 x2 xs0).2.1)
      = k2_pay2 i x0 x2 xs0 := by
  refine (View.read_writes_eq_canon _ _ _ (View.cover_of_tiledL _ S3072x48.size (by sl_kernel_rfl))).trans ?_
  unfold kernelRun2_C
  dsimp only
  sl_unfold_words
  rw [View.canon_unit_zero offs2]
  simp only [View.readAt_eq_ld, harg2.read_unread, harg4.read_unread, harg6.read_unread,
    View.ld_unit_zero (S := S3072) offs1, View.ld_unit_zero (S := S2048x48) offs2, View.ld_unit_zero (S := S3072x48) offs2]

theorem out2_C_3_eq {hc0 : ¬cond2_0 i} {hc1 : cond2_1 i} {xs0 : Vec F S3072x48 .f32} :
    VO2_3.read (Elt F) (VO2_3.writes (Elt F) VO2_3.junk
      (kernelRun2_C c i arg2 harg2 arg3 harg3 arg4 harg4 arg5 harg5 arg6 harg6 hc0 hc1 x0 x1 x2 xs0).1)
      = k2_pay3 (k2_pay2 i x0 x2 xs0) x1 := by
  refine (View.read_writes_eq_canon _ _ _ (View.cover_of_tiledL _ S3072x48.size (by sl_kernel_rfl))).trans ?_
  unfold kernelRun2_C
  dsimp only
  sl_unfold_words
  rw [View.canon_unit_zero offs2]
  simp only [View.readAt_eq_ld, harg2.read_unread, harg3.read_unread, harg4.read_unread, harg6.read_unread,
    View.readCov_unit_zero (S := S3072x48) _ offs2,
    View.ld_unit_zero (S := S3072) offs1, View.ld_unit_zero (S := S2048x48) offs2, View.ld_unit_zero (S := S3072x48) offs2]

end Pieces

theorem outsAt2_first (c : Dev nD) (t : Fin cfg2.N) (h : t.val % 49 = 0) :
    (outsAt2 V c t.val t.isLt).2 = k2_pay2 (grid2.coords t) (iblk2 V c 0 t) (iblk2 V c 2 t) k2_pay1 := by
  have h1 : ¬t.val % 49 = 48 := by omega
  rw [outsAt2_A V c t h h1]
  unfold ptA2; dsimp only
  exact sout2_A_0_eq

theorem outsAt2_next (c : Dev nD) (t : Fin cfg2.N) (h : ¬t.val % 49 = 0) :
    (outsAt2 V c t.val t.isLt).2
      = k2_pay2 (grid2.coords t) (iblk2 V c 0 t) (iblk2 V c 2 t)
          (outsAt2 V c (t.val - 1) (Nat.lt_of_le_of_lt (Nat.sub_le _ _) t.isLt)).2 := by
  by_cases h1 : t.val % 49 = 48
  · rw [outsAt2_C V c t h h1]
    unfold ptC2; dsimp only
    exact sout2_C_0_eq
  · rw [outsAt2_B V c t h h1]
    unfold ptB2; dsimp only
    exact sout2_B_0_eq

theorem outsAt2_last (c : Dev nD) (t : Fin cfg2.N) (h : t.val % 49 = 48) :
    (outsAt2 V c t.val t.isLt).1 = k2_pay3 (outsAt2 V c t.val t.isLt).2 (iblk2 V c 1 t) := by
  rw [outsAt2_C V c t (by omega) h]
  unfold ptC2; dsimp only
  rw [sout2_C_0_eq]
  exact out2_C_3_eq

end Cert.KernelIdeal.Hand

end
-- ==== Proof.KI.Val.Column.lean ====
import Idealize.ShloMosaic.Lib.Pipeline.Value
import Idealize.ShloMosaic.Lib.ValueIdx

noncomputable section

namespace Cert.KernelIdeal.Val

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Val

end
-- ==== Proof.KI.Val.BlockSum.lean ====
import Idealize.ShloMosaic.Lib.FinSumWindow

open scoped BigOperators

namespace Cert.KernelIdeal.Val

section
variable {R : Type*} [AddCommMonoid R] {N : ℕ}

theorem below_zero (W : ℕ) (g : Fin N → R) : (∑ P : Fin N, if P.val < 0 * W then g P else 0) = 0 :=
  Finset.sum_eq_zero fun P _ => if_neg (by omega)

theorem below_succ (W k : ℕ) (hk : k * W + W ≤ N) (g : Fin N → R) :
    (∑ P : Fin N, if P.val < (k + 1) * W then g P else 0)
      = (∑ P : Fin N, if P.val < k * W then g P else 0) + ∑ n : Fin W, g ⟨k * W + n.val, by omega⟩ := by
  have hs : (k + 1) * W = k * W + W := Nat.succ_mul k W
  have hw := Idealize.ShloMosaic.FinSumWindow.sum_window (k * W) hk
    (fun P : Fin N => if k * W ≤ P.val ∧ P.val < k * W + W then g P else 0) (fun P hP => if_neg hP)
  have e : (∑ n : Fin W, g ⟨k * W + n.val, by omega⟩)
      = ∑ P : Fin N, if k * W ≤ P.val ∧ P.val < k * W + W then g P else 0 := by
    rw [hw]
    refine Finset.sum_congr rfl fun n _ => ?_
    have hn := n.isLt
    exact (if_pos (show k * W ≤ k * W + n.val ∧ k * W + n.val < k * W + W from ⟨by omega, by omega⟩)).symm
  rw [e, ← Finset.sum_add_distrib]
  refine Finset.sum_congr rfl fun P _ => ?_
  by_cases h1 : P.val < k * W
  · rw [if_pos h1, if_pos (by omega), if_neg (by omega), add_zero]
  · by_cases h2 : P.val < k * W + W
    · rw [if_neg h1, if_pos (by omega), if_pos ⟨by omega, h2⟩, zero_add]
    · rw [if_neg h1, if_neg (by omega), if_neg (fun h => h2 h.2), zero_add]

theorem below_full (W k : ℕ) (hk : N ≤ k * W) (g : Fin N → R) :
    (∑ P : Fin N, if P.val < k * W then g P else 0) = ∑ P : Fin N, g P :=
  Finset.sum_congr rfl fun P _ => if_pos (by have := P.isLt; omega)

end

end Cert.KernelIdeal.Val
-- ==== Proof.KI.Val.GatherPoint.lean ====
import proofs.«407864_j23167053595206_1_alg».proof.Proof.Gen.KernelIdeal.Skeleton
import proofs.«407864_j23167053595206_1_alg».proof.Proof.KI.Val.Column
import proofs.«407864_j23167053595206_1_alg».proof.Proof.KI.Val.BlockSum
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

theorem indicator_of_cmpi (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · rw [if_pos h, beq_iff_eq.mpr h, show ((BitVec.ofBool true).setWidth 32).toInt = 1 by decide]; simp
  · rw [if_neg h, beq_eq_false_iff_ne.mpr h, show ((BitVec.ofBool false).setWidth 32).toInt = 0 by decide]; simp

theorem node_word (j n : ℕ) :
    IntOp.addi (Scalar.muli (BitVec.ofNat 32 j) 2048#32) (BitVec.ofNat 32 n) = BitVec.ofNat 32 (j * 2048 + n) := by
  show BitVec.ofNat 32 j * BitVec.ofNat 32 2048 + BitVec.ofNat 32 n = _
  rw [BitVec.ofNat_add, BitVec.ofNat_mul]

def onehot0 (j : grid0.Coords) (S : IVec S3072 32) : FVec Ideal S3072x2048 .bf16 :=
  truncf .bf16 (sitofp .f32 (extui 32 (cmpi .eq
    (broadcastTo S3072x2048 (shapeCast S3072x1 S shapeCasts_S3072_S3072x1) broadcasts_S3072x1_S3072x2048)
    (broadcastTo S3072x2048 (addi (broadcast S1x2048 (Scalar.muli (BitVec.ofNat 32 (j 1).val) 2048#32))
      (iota .tc S1x2048 32 [1] iota_S1x2048_d1_w32)) broadcasts_S1x2048_S3072x2048)) natLt_1_32)) bitsLt_bf16_f32

theorem onehot0_apply (j : grid0.Coords) (S : IVec S3072 32) (e : Fin 3072) (n : Fin 2048) :
    onehot0 j S (ix2 e n) = if S (ix1 e) = BitVec.ofNat 32 ((j 1).val * 2048 + n.val) then 1 else 0 := by
  show ((((IntOp.cmpi .eq
      (broadcastTo S3072x2048 (shapeCast S3072x1 S shapeCasts_S3072_S3072x1) broadcasts_S3072x1_S3072x2048 (ix2 e n))
      (broadcastTo S3072x2048 (addi (broadcast S1x2048 (Scalar.muli (BitVec.ofNat 32 (j 1).val) 2048#32))
        (iota .tc S1x2048 32 [1] iota_S1x2048_d1_w32)) broadcasts_S1x2048_S3072x2048 (ix2 e n))).setWidth 32).toInt : ℝ) : EReal) = _
  rw [broadcastTo_a1_ab_apply, shapeCast_a_a1_apply, broadcastTo_1b_ab_apply, indicator_of_cmpi]
  show (if S (ix1 e) = IntOp.addi (Scalar.muli (BitVec.ofNat 32 (j 1).val) 2048#32)
      (iota .tc S1x2048 32 [1] iota_S1x2048_d1_w32 (ix2 (0 : Fin 1) n)) then (1 : EReal) else 0) = _
  rw [iota_single_apply, node_word]

theorem matmul0_apply (L : FVec Ideal S3072x2048 .bf16) (R : FVec Ideal S2048x48 .bf16) (e : Fin 3072) (d : Fin 48) :
    matmul dot_S3072x2048_S2048x48_S3072x48_1_0_0_1_n_n none L R (constant S3072x48 .f32 0x00000000#32) (ix2 e d)
      = ∑ n : Fin 2048, L (ix2 e n) * R (ix2 n d) := by
  simp only [matmul]
  rw [Ideal.matmul_constant_zero_apply, ← Equiv.sum_comp (contrEquiv1 dot_S3072x2048_S2048x48_S3072x48_1_0_0_1_n_n 2048 rfl rfl).symm]
  refine Finset.sum_congr rfl fun k _ => ?_
  have hk := contrEquiv1_symm_val dot_S3072x2048_S2048x48_S3072x48_1_0_0_1_n_n 2048 rfl rfl k
  rw [show dot_S3072x2048_S2048x48_S3072x48_1_0_0_1_n_n.lhsIdx (ix2 e d) ((contrEquiv1 dot_S3072x2048_S2048x48_S3072x48_1_0_0_1_n_n 2048 rfl rfl).symm k) = ix2 e k from
      Shape.idx_ext₂ (by
        unfold DotDims.lhsIdx
        rw [dif_neg (show ¬(0 : Fin S3072x2048.rank) ∈ dot_S3072x2048_S2048x48_S3072x48_1_0_0_1_n_n.lhsBatch by decide),
          dif_pos (show (0 : Fin S3072x2048.rank) ∈ dot_S3072x2048_S2048x48_S3072x48_1_0_0_1_n_n.lhsNonContracting by decide)]
        rfl) ((dot_S3072x2048_S2048x48_S3072x48_1_0_0_1_n_n.lhsIdx_val_of_single rfl _ _).trans hk),
    show dot_S3072x2048_S2048x48_S3072x48_1_0_0_1_n_n.rhsIdx (ix2 e d) ((contrEquiv1 dot_S3072x2048_S2048x48_S3072x48_1_0_0_1_n_n 2048 rfl rfl).symm k) = ix2 k d from
      Shape.idx_ext₂ ((dot_S3072x2048_S2048x48_S3072x48_1_0_0_1_n_n.rhsIdx_val_of_single rfl _ _).trans hk) (by
        unfold DotDims.rhsIdx
        rw [dif_neg (show ¬(1 : Fin S2048x48.rank) ∈ dot_S3072x2048_S2048x48_S3072x48_1_0_0_1_n_n.rhsBatch by decide),
          dif_pos (show (1 : Fin S2048x48.rank) ∈ dot_S3072x2048_S2048x48_S3072x48_1_0_0_1_n_n.rhsNonContracting by decide)]
        rfl)]

theorem k0_pay1_apply (e : Fin 3072) (d : Fin 48) : k0_pay1 (F := Ideal) (ix2 e d) = 0 := by
  unfold k0_pay1
  simp only [shapeCast_self]
  exact Ideal.ofBits_zero_f32

theorem k0_pay2_eq (j : grid0.Coords) (S : Vec Ideal S3072 .i32) (Y : Vec Ideal S2048x48 .bf16) (acc : Vec Ideal S3072x48 .f32) :
    k0_pay2 (F := Ideal) j S Y acc = addf acc (matmul (φ₂ := .bf16) dot_S3072x2048_S2048x48_S3072x48_1_0_0_1_n_n none (onehot0 j S) Y
      (constant S3072x48 .f32 0x00000000#32)) := by
  unfold k0_pay2 onehot0
  simp only [shapeCast_self]

theorem k0_pay2_apply (j : grid0.Coords) (S : Vec Ideal S3072 .i32) (Y : Vec Ideal S2048x48 .bf16) (acc : Vec Ideal S3072x48 .f32)
    (e : Fin 3072) (d : Fin 48) :
    k0_pay2 (F := Ideal) j S Y acc (ix2 e d) = acc (ix2 e d) + ∑ n : Fin 2048,
      (if S (ix1 e) = BitVec.ofNat 32 ((j 1).val * 2048 + n.val) then (1 : EReal) else 0) * Y (ix2 n d) := by
  rw [k0_pay2_eq, addf_apply, matmul0_apply]
  exact congrArg (acc (ix2 e d) + ·) (Finset.sum_congr rfl fun n _ => by rw [onehot0_apply])

theorem k0_pay3_apply (acc : Vec Ideal S3072x48 .f32) (D : Vec Ideal S3072 .f32) (e : Fin 3072) (d : Fin 48) :
    k0_pay3 (F := Ideal) acc D (ix2 e d) = acc (ix2 e d) * D (ix1 e) := by
  unfold k0_pay3
  simp only [shapeCast_self]
  show acc (ix2 e d) * broadcastTo S3072x48 (shapeCast S3072x1 D shapeCasts_S3072_S3072x1) broadcasts_S3072x1_S3072x48 (ix2 e d) = _
  exact congrArg (acc (ix2 e d) * ·)
    ((broadcastTo_a1_ab_apply _ broadcasts_S3072x1_S3072x48 e d).trans (shapeCast_a_a1_apply D shapeCasts_S3072_S3072x1 e 0))

end Cert.KernelIdeal.Val

end
-- ==== Proof.KI.Val.GatherRow.lean ====
import proofs.«407864_j23167053595206_1_alg».proof.Proof.Gen.KernelIdeal.Launch
import proofs.«407864_j23167053595206_1_alg».proof.Proof.KI.Val.Spec
import proofs.«407864_j23167053595206_1_alg».proof.Proof.KI.Val.GatherPoint

noncomputable section

open scoped BigOperators

namespace Cert.KernelIdeal.Val

open Idealize.ShloMosaic Idealize.ShloMosaic.ValueIdx Cert.KernelIdeal Cert.KernelIdeal.Gen
open Idealize.ShloMosaic.TcCoe Idealize.SL.Sem

theorem word_back0 (n : ℕ) (h : n < 521) : (BitVec.ofNat 32 n).toNat = n := by
  rw [BitVec.toNat_ofNat]; exact Nat.mod_eq_of_lt (Nat.lt_trans h (by decide : 521 < 2 ^ 32))

theorem idx_facts0 (t : Fin cfg0.N) : win0_0.index t (0 : Fin 1) = t.val / 49 ∧ win0_1.index t (0 : Fin 1) = t.val / 49
    ∧ win0_2.index t (0 : Fin 2) = t.val % 49 ∧ win0_2.index t (1 : Fin 2) = 0
    ∧ win0_3.index t (0 : Fin 2) = t.val / 49 ∧ win0_3.index t (1 : Fin 2) = 0
    ∧ ((grid0.coords t) 1).val = t.val % 49 := by
  have hN : cfg0.N = 25529 := N_0
  have ht := t.isLt
  have c0 : ((grid0.coords t) 0).val = t.val / 49 := by
    show t.val / grid0.stride 0 % 521 = t.val / 49
    rw [show grid0.stride 0 = 49 by decide]; omega
  have c1 : ((grid0.coords t) 1).val = t.val % 49 := by
    show t.val / grid0.stride 1 % 49 = t.val % 49
    rw [show grid0.stride 1 = 1 by decide, Nat.div_one]
  have h0 := (word_back0 _ ((grid0.coords t) 0).isLt).trans c0
  exact ⟨h0, h0, (word_back0 _ (Nat.lt_trans ((grid0.coords t) 1).isLt (by decide))).trans c1, rfl, h0, rfl, c1⟩

theorem row_lt0 (t : Fin cfg0.N) : t.val / 49 < 521 := by
  have h : cfg0.N = 25529 := N_0
  have := t.isLt
  omega

abbrev edge0 (t : Fin cfg0.N) (e : Fin 3072) : Fin 1600512 :=
  ⟨t.val / 49 * 3072 + e.val, by have := row_lt0 t; have := e.isLt; omega⟩

abbrev node0 (t : Fin cfg0.N) (n : Fin 2048) : Fin 100352 :=
  ⟨t.val % 49 * 2048 + n.val, by have := n.isLt; omega⟩

theorem read_blk0_0 (t : Fin cfg0.N) (A : Vec Ideal S1600512 .i32) (e : Fin 3072) :
    ((cfg0.win 0).blk t).view.read (Elt Ideal) A (ix1 e) = A (ix1 (edge0 t e)) := by
  rw [View.read_apply]
  refine congrArg A (funext fun a => Fin.ext ?_)
  obtain ⟨h0, -⟩ := idx_facts0 t
  match a with
  | ⟨0, _⟩ => show win0_0.index t (0 : Fin 1) * 3072 + 1 * e.val = t.val / 49 * 3072 + e.val; rw [h0]; omega

theorem read_blk0_1 (t : Fin cfg0.N) (A : Vec Ideal S1600512 .f32) (e : Fin 3072) :
    ((cfg0.win 1).blk t).view.read (Elt Ideal) A (ix1 e) = A (ix1 (edge0 t e)) := by
  rw [View.read_apply]
  refine congrArg A (funext fun a => Fin.ext ?_)
  obtain ⟨-, h0, -⟩ := idx_facts0 t
  match a with
  | ⟨0, _⟩ => show win0_1.index t (0 : Fin 1) * 3072 + 1 * e.val = t.val / 49 * 3072 + e.val; rw [h0]; omega

theorem read_blk0_2 (t : Fin cfg0.N) (A : Vec Ideal S100352x48 .bf16) (n : Fin 2048) (d : Fin 48) :
    ((cfg0.win 2).blk t).view.read (Elt Ideal) A (ix2 n d) = A (ix2 (node0 t n) d) := by
  rw [View.read_apply]
  refine congrArg A (funext fun a => Fin.ext ?_)
  obtain ⟨-, -, h0, h1, -⟩ := idx_facts0 t
  match a with
  | ⟨0, _⟩ => show win0_2.index t (0 : Fin 2) * 2048 + 1 * n.val = t.val % 49 * 2048 + n.val; rw [h0]; omega
  | ⟨1, _⟩ => show win0_2.index t (1 : Fin 2) * 48 + 1 * d.val = d.val; rw [h1]; omega

theorem read_blk0_3 (t : Fin cfg0.N) (A : Vec Ideal S1600512x48 .bf16) (e : Fin 3072) (d : Fin 48) :
    ((cfg0.win 3).blk t).view.read (Elt Ideal) A (ix2 e d) = A (ix2 (edge0 t e) d) := by
  rw [View.read_apply]
  refine congrArg A (funext fun a => Fin.ext ?_)
  obtain ⟨-, -, -, -, h0, h1, -⟩ := idx_facts0 t
  match a with
  | ⟨0, _⟩ => show win0_3.index t (0 : Fin 2) * 3072 + 1 * e.val = t.val / 49 * 3072 + e.val; rw [h0]; omega
  | ⟨1, _⟩ => show win0_3.index t (1 : Fin 2) * 48 + 1 * d.val = d.val; rw [h1]; omega

theorem cover0_3 (i : S1600512x48.Idx) :
    ∃ t : Fin cfg0.N, t.val % 49 = 48 ∧ i ∈ ((cfg0.win 3).blk t).view.set := by
  have hi0 : (i 0).val < 1600512 := (i 0).isLt
  have hi1 : (i 1).val < 48 := (i 1).isLt
  have hN : cfg0.N = 25529 := N_0
  obtain ⟨t, ht⟩ : ∃ t : Fin cfg0.N, t.val = (i 0).val / 3072 * 49 + 48 := ⟨⟨_, by omega⟩, rfl⟩
  obtain ⟨-, -, -, -, h0, h1, -⟩ := idx_facts0 t
  refine ⟨t, by omega, ?_⟩
  show i ∈ ((View.whole main_v8).slice (win0_3.rect t)).set
  rw [View.set_slice_whole, Rect.mem_set_unit]
  intro a
  match a with
  | ⟨0, _⟩ =>
    show win0_3.index t (0 : Fin 2) * 3072 ≤ (i 0).val ∧ (i 0).val < win0_3.index t (0 : Fin 2) * 3072 + 3072
    rw [h0]; omega
  | ⟨1, _⟩ =>
    show win0_3.index t (1 : Fin 2) * 48 ≤ (i 1).val ∧ (i 1).val < win0_3.index t (1 : Fin 2) * 48 + 48
    rw [h1]; omega

abbrev sblk0 (A : Vec Ideal S1600512 .i32) (t : Fin cfg0.N) : Vec Ideal S3072 .i32 :=
  ((cfg0.win 0).blk t).view.read (Elt Ideal) A
abbrev dblk0 (A : Vec Ideal S1600512 .f32) (t : Fin cfg0.N) : Vec Ideal S3072 .f32 :=
  ((cfg0.win 1).blk t).view.read (Elt Ideal) A
abbrev yblk0 (A : Vec Ideal S100352x48 .bf16) (t : Fin cfg0.N) : Vec Ideal S2048x48 .bf16 :=
  ((cfg0.win 2).blk t).view.read (Elt Ideal) A

section Row
variable (start : Vec Ideal S1600512 .i32) (dfs : Vec Ideal S1600512 .f32) (y : Vec Ideal S100352x48 .bf16)

def term0 (E : Fin 1600512) (d : Fin 48) (P : Fin 100352) : EReal :=
  (if start (ix1 E) = BitVec.ofNat 32 P.val then (1 : EReal) else 0) * y (ix2 P d)

theorem update0_apply (t : Fin cfg0.N) (acc : Vec Ideal S3072x48 .f32) (e : Fin 3072) (d : Fin 48) :
    k0_pay2 (F := Ideal) (grid0.coords t) (sblk0 start t) (yblk0 y t) acc (ix2 e d)
      = acc (ix2 e d) + ∑ n : Fin 2048, term0 start y (edge0 t e) d (node0 t n) := by
  obtain ⟨-, -, -, -, -, -, hj⟩ := idx_facts0 t
  unfold term0
  rw [k0_pay2_apply]
  refine congrArg (acc (ix2 e d) + ·) (Finset.sum_congr rfl fun n _ => ?_)
  show (if ((cfg0.win 0).blk t).view.read (Elt Ideal) start (ix1 e)
        = BitVec.ofNat 32 (((grid0.coords t) 1).val * 2048 + n.val) then (1 : EReal) else 0)
      * ((cfg0.win 2).blk t).view.read (Elt Ideal) y (ix2 n d) = _
  rw [read_blk0_0, read_blk0_2, hj]

theorem step0 (t : Fin cfg0.N) (acc : Vec Ideal S3072x48 .f32) (e : Fin 3072) (d : Fin 48)
    (hacc : acc (ix2 e d) = ∑ P : Fin 100352, if P.val < t.val % 49 * 2048 then term0 start y (edge0 t e) d P else 0) :
    k0_pay2 (F := Ideal) (grid0.coords t) (sblk0 start t) (yblk0 y t) acc (ix2 e d)
      = ∑ P : Fin 100352, if P.val < (t.val % 49 + 1) * 2048 then term0 start y (edge0 t e) d P else 0 := by
  rw [update0_apply, hacc]
  exact (below_succ 2048 (t.val % 49) (by omega) (term0 start y (edge0 t e) d)).symm

variable (acc : (n : ℕ) → n < cfg0.N → Vec Ideal S3072x48 .f32)
    (hfirst : ∀ t : Fin cfg0.N, t.val % 49 = 0 →
      acc t.val t.isLt = k0_pay2 (F := Ideal) (grid0.coords t) (sblk0 start t) (yblk0 y t) (k0_pay1 (F := Ideal)))
    (hnext : ∀ (t : Fin cfg0.N) (h : ¬t.val % 49 = 0),
      acc t.val t.isLt = k0_pay2 (F := Ideal) (grid0.coords t) (sblk0 start t) (yblk0 y t)
        (acc (t.val - 1) (Nat.lt_of_le_of_lt (Nat.sub_le _ _) t.isLt)))
include hfirst hnext

theorem row_invariant0 : ∀ (n : ℕ) (hn : n < cfg0.N) (e : Fin 3072) (d : Fin 48), acc n hn (ix2 e d)
      = ∑ P : Fin 100352, if P.val < (n % 49 + 1) * 2048 then term0 start y (edge0 ⟨n, hn⟩ e) d P else 0 := by
  intro n
  induction n using Nat.strong_induction_on with
  | _ n ih =>
    intro hn e d
    by_cases h0 : n % 49 = 0
    · refine (congrFun (hfirst ⟨n, hn⟩ h0) (ix2 e d)).trans (step0 start y ⟨n, hn⟩ _ e d ?_)
      rw [k0_pay1_apply]
      show (0 : EReal) = ∑ P : Fin 100352, if P.val < n % 49 * 2048 then term0 start y (edge0 ⟨n, hn⟩ e) d P else 0
      rw [h0]
      exact (below_zero 2048 _).symm
    · refine (congrFun (hnext ⟨n, hn⟩ h0) (ix2 e d)).trans (step0 start y ⟨n, hn⟩ _ e d ?_)
      refine (ih (n - 1) (by omega) (Nat.lt_of_le_of_lt (Nat.sub_le _ _) hn) e d).trans ?_
      rw [show edge0 ⟨n - 1, Nat.lt_of_le_of_lt (Nat.sub_le _ _) hn⟩ e = edge0 ⟨n, hn⟩ e from
          Fin.ext (by show (n - 1) / 49 * 3072 + e.val = n / 49 * 3072 + e.val; omega),
        show (n - 1) % 49 + 1 = n % 49 by omega]

theorem row_flush0 (t : Fin cfg0.N) (h48 : t.val % 49 = 48) :
    k0_pay3 (F := Ideal) (acc t.val t.isLt) (dblk0 dfs t)
      = ((cfg0.win 3).blk t).view.read (Elt Ideal) (Ggather start dfs y) := by
  funext j
  obtain ⟨e, d, rfl⟩ : ∃ (e : Fin 3072) (d : Fin 48), j = ix2 e d := ⟨j 0, j 1, eq_ix2 j⟩
  rw [read_blk0_3, k0_pay3_apply, row_invariant0 start y acc hfirst hnext, Ggather_apply]
  show _ * ((cfg0.win 1).blk t).view.read (Elt Ideal) dfs (ix1 e) = _
  rw [read_blk0_1, h48, below_full 2048 (48 + 1) (by omega)]
  rfl

end Row

end Cert.KernelIdeal.Val

end
-- ==== Proof.KI.Val.GatherFinal.lean ====
import proofs.«407864_j23167053595206_1_alg».proof.Proof.KI.G0.Frame
import proofs.«407864_j23167053595206_1_alg».proof.Proof.KI.G0.Pieces
import proofs.«407864_j23167053595206_1_alg».proof.Proof.KI.G2.Frame
import proofs.«407864_j23167053595206_1_alg».proof.Proof.KI.G2.Pieces
import proofs.«407864_j23167053595206_1_alg».proof.Proof.KI.Val.GatherRow

noncomputable section

open scoped BigOperators

namespace Cert.KernelIdeal.Val

open Idealize.ShloMosaic Idealize.ShloMosaic.ValueIdx Cert.KernelIdeal Cert.KernelIdeal.Gen Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem final0 (c : Dev nD) :
    (dat0 (F := Ideal) V c).arrAt 3 cfg0.N = Ggather (V c main_v2) (V c main_v4) (V c main_v7) :=
  (dat0 (F := Ideal) V c).arrAt_eq_of_cover 3 _ (fun t hf => by
    have h48 : t.val % 49 = 48 := (flush0_3 t).mp hf
    show (cfg0.win 3).cut (grid0.coords t) ((dat0 (F := Ideal) V c).after 3 t) = _
    rw [after0_3, outsAt0_last V c t h48]
    exact row_flush0 _ _ _ (fun n hn => (outsAt0 V c n hn).2) (outsAt0_first V c) (outsAt0_next V c) t h48)
    fun i => (cover0_3 i).imp fun t h => ⟨(flush0_3 t).mpr h.1, h.2⟩

-- Region 2 runs region 0's program on region 0's grid, so region 0's row theorem applies as it stands.
theorem final2 (c : Dev nD) :
    (dat2 (F := Ideal) V c).arrAt 3 cfg2.N = Ggather (V c main_v2) (V c main_v4) (V c main_v12) :=
  (dat2 (F := Ideal) V c).arrAt_eq_of_cover 3 _ (fun t hf => by
    have h48 : t.val % 49 = 48 := (flush2_3 t).mp hf
    show (cfg2.win 3).cut (grid2.coords t) ((dat2 (F := Ideal) V c).after 3 t) = _
    rw [after2_3, outsAt2_last V c t h48]
    exact row_flush0 _ _ _ (fun n hn => (outsAt2 V c n hn).2) (outsAt2_first V c) (outsAt2_next V c) t h48)
    fun i => (cover0_3 i).imp fun t h => ⟨(flush2_3 t).mpr h.1, h.2⟩

end Cert.KernelIdeal.Val

end
-- ==== Proof.KI.S1.Pieces.lean ====
import proofs.«407864_j23167053595206_1_alg».proof.Proof.KI.S1.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero_off_2 : (![0, 0] : Fin 2 → Nat) = fun _ => 0 := funext fun a => by fin_cases a <;> rfl

private theorem zero_off_1 : (![0] : Fin 1 → Nat) = fun _ => 0 := funext fun a => by fin_cases a <;> rfl

section
variable (c : Dev nD) (i : grid1.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole)
  (x0 : Vec F S3072 .i32) (x1 : Vec F S3072x48 .bf16) (x2 : Vec F S2048 .f32) (xs0 : Vec F S2048x48 .f32)

theorem sout1_A_0_eq (hc0 : cond1_0 i) (hc1 : ¬cond1_1 i) :
    out1_of (kernelRun1_A c i arg2 harg2 arg3 harg3 arg4 harg4 arg5 harg5 arg6 harg6 hc0 hc1 x0 x1 x2).2.1 = k1_pay2 i x0 x1 (k1_pay1 (F := F)) := by
  unfold out1_of
  rw [View.read_writes_eq_canon _ _ _ (scover1_A_0 hc0 hc1)]
  unfold kernelRun1_A
  dsimp only
  sl_unfold_words
  rw [View.canon_cons_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem sout1_B_0_eq (hc0 : ¬cond1_0 i) (hc1 : ¬cond1_1 i) :
    out1_of (kernelRun1_B c i arg2 harg2 arg3 harg3 arg4 harg4 arg5 harg5 arg6 harg6 hc0 hc1 x0 x1 x2 xs0).2.1 = k1_pay2 i x0 x1 xs0 := by
  unfold out1_of
  rw [View.read_writes_eq_canon _ _ _ (scover1_B_0 hc0 hc1)]
  unfold kernelRun1_B
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem sout1_C_0_eq (hc0 : ¬cond1_0 i) (hc1 : cond1_1 i) :
    out1_of (kernelRun1_C c i arg2 harg2 arg3 harg3 arg4 harg4 arg5 harg5 arg6 harg6 hc0 hc1 x0 x1 x2 xs0).2.1 = k1_pay2 i x0 x1 xs0 := by
  unfold out1_of
  rw [View.read_writes_eq_canon _ _ _ (scover1_C_0 hc0 hc1)]
  unfold kernelRun1_C
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem out1_C_3_eq (hc0 : ¬cond1_0 i) (hc1 : cond1_1 i) :
    out1_of (kernelRun1_C c i arg2 harg2 arg3 harg3 arg4 harg4 arg5 harg5 arg6 harg6 hc0 hc1 x0 x1 x2 xs0).1 = k1_pay3 (k1_pay2 i x0 x1 xs0) x2 := by
  unfold out1_of
  rw [View.read_writes_eq_canon _ _ _ (cover1_C_3 hc0 hc1)]
  unfold kernelRun1_C
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

end

attribute [local irreducible] kernelRun1_A kernelRun1_B kernelRun1_C

variable (V : (c : Dev nD) → (b : Ref sig .tc) → Buf (Elt F) ((c : Thread nD τ).loc b))

theorem outsAt1_first (c : Dev nD) (t : Fin cfg1.N) (h : t.val % 521 = 0) :
    (outsAt1 V c t.val t.isLt).2 = k1_pay2 (grid1.coords t) (iblk1 V c 0 t) (iblk1 V c 1 t) (k1_pay1 (F := F)) := by
  rw [outsAt1_A V c t ((hcond1_0 t).2 h) fun hh => by have := (hcond1_1 t).1 hh; omega]
  exact sout1_A_0_eq (F := F) ..

theorem outsAt1_next (c : Dev nD) (t : Fin cfg1.N) (h : ¬t.val % 521 = 0) :
    (outsAt1 V c t.val t.isLt).2 = k1_pay2 (grid1.coords t) (iblk1 V c 0 t) (iblk1 V c 1 t) (outsAt1 V c (t.val - 1) (Nat.lt_of_le_of_lt (Nat.sub_le _ _) t.isLt)).2 := by
  have h0 : ¬cond1_0 (grid1.coords t) := fun hh => h ((hcond1_0 t).1 hh)
  by_cases h1 : cond1_1 (grid1.coords t)
  · rw [outsAt1_C V c t h0 h1]; exact sout1_C_0_eq (F := F) ..
  · rw [outsAt1_B V c t h0 h1]; exact sout1_B_0_eq (F := F) ..

theorem outsAt1_last (c : Dev nD) (t : Fin cfg1.N) (h : t.val % 521 = 520) :
    (outsAt1 V c t.val t.isLt).1 = k1_pay3 (outsAt1 V c t.val t.isLt).2 (iblk1 V c 2 t) := by
  rw [outsAt1_C V c t (fun hh => by have := (hcond1_0 t).1 hh; omega) ((hcond1_1 t).2 h)]
  exact (out1_C_3_eq (F := F) ..).trans (congrArg (k1_pay3 · _) (sout1_C_0_eq (F := F) ..).symm)

end Cert.KernelIdeal.Hand

end
-- ==== Proof.KI.S3.Pieces.lean ====
import proofs.«407864_j23167053595206_1_alg».proof.Proof.KI.S3.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero_off_2 : (![0, 0] : Fin 2 → Nat) = fun _ => 0 := funext fun a => by fin_cases a <;> rfl

private theorem zero_off_1 : (![0] : Fin 1 → Nat) = fun _ => 0 := funext fun a => by fin_cases a <;> rfl

section
variable (c : Dev nD) (i : grid3.Coords) (arg2 : Memref sig .tc .vmem S3072 .i32) (harg2 : arg2.IsWhole) (arg3 : Memref sig .tc .vmem S3072x48 .bf16) (harg3 : arg3.IsWhole) (arg4 : Memref sig .tc .vmem S2048 .f32) (harg4 : arg4.IsWhole) (arg5 : Memref sig .tc .vmem S2048x48 .f32) (harg5 : arg5.IsWhole) (arg6 : Memref sig .tc .vmem S2048x48 .f32) (harg6 : arg6.IsWhole)
  (x0 : Vec F S3072 .i32) (x1 : Vec F S3072x48 .bf16) (x2 : Vec F S2048 .f32) (xs0 : Vec F S2048x48 .f32)

theorem sout3_A_0_eq (hc0 : cond3_0 i) (hc1 : ¬cond3_1 i) :
    out3_of (kernelRun3_A c i arg2 harg2 arg3 harg3 arg4 harg4 arg5 harg5 arg6 harg6 hc0 hc1 x0 x1 x2).2.1 = k3_pay2 i x0 x1 (k3_pay1 (F := F)) := by
  unfold out3_of
  rw [View.read_writes_eq_canon _ _ _ (scover3_A_0 hc0 hc1)]
  unfold kernelRun3_A
  dsimp only
  sl_unfold_words
  rw [View.canon_cons_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem sout3_B_0_eq (hc0 : ¬cond3_0 i) (hc1 : ¬cond3_1 i) :
    out3_of (kernelRun3_B c i arg2 harg2 arg3 harg3 arg4 harg4 arg5 harg5 arg6 harg6 hc0 hc1 x0 x1 x2 xs0).2.1 = k3_pay2 i x0 x1 xs0 := by
  unfold out3_of
  rw [View.read_writes_eq_canon _ _ _ (scover3_B_0 hc0 hc1)]
  unfold kernelRun3_B
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem sout3_C_0_eq (hc0 : ¬cond3_0 i) (hc1 : cond3_1 i) :
    out3_of (kernelRun3_C c i arg2 harg2 arg3 harg3 arg4 harg4 arg5 harg5 arg6 harg6 hc0 hc1 x0 x1 x2 xs0).2.1 = k3_pay2 i x0 x1 xs0 := by
  unfold out3_of
  rw [View.read_writes_eq_canon _ _ _ (scover3_C_0 hc0 hc1)]
  unfold kernelRun3_C
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

theorem out3_C_3_eq (hc0 : ¬cond3_0 i) (hc1 : cond3_1 i) :
    out3_of (kernelRun3_C c i arg2 harg2 arg3 harg3 arg4 harg4 arg5 harg5 arg6 harg6 hc0 hc1 x0 x1 x2 xs0).1 = k3_pay3 (k3_pay2 i x0 x1 xs0) x2 := by
  unfold out3_of
  rw [View.read_writes_eq_canon _ _ _ (cover3_C_3 hc0 hc1)]
  unfold kernelRun3_C
  dsimp only
  sl_unfold_words
  rw [View.canon_unit_zero (S := S2048x48) zero_off_2]
  simp only [View.readAt_eq_ld, Memref.IsWhole.read_unread, View.ld_unit_zero (S := S3072) zero_off_1, View.ld_unit_zero (S := S3072x48) zero_off_2, View.ld_unit_zero (S := S2048) zero_off_1, View.ld_unit_zero (S := S2048x48) zero_off_2, View.readCov_unit_zero (S := S2048x48) _ zero_off_2]

end

attribute [local irreducible] kernelRun3_A kernelRun3_B kernelRun3_C

variable (V : (c : Dev nD) → (b : Ref sig .tc) → Buf (Elt F) ((c : Thread nD τ).loc b))

theorem outsAt3_first (c : Dev nD) (t : Fin cfg3.N) (h : t.val % 521 = 0) :
    (outsAt3 V c t.val t.isLt).2 = k3_pay2 (grid3.coords t) (iblk3 V c 0 t) (iblk3 V c 1 t) (k3_pay1 (F := F)) := by
  rw [outsAt3_A V c t ((hcond3_0 t).2 h) fun hh => by have := (hcond3_1 t).1 hh; omega]
  exact sout3_A_0_eq (F := F) ..

theorem outsAt3_next (c : Dev nD) (t : Fin cfg3.N) (h : ¬t.val % 521 = 0) :
    (outsAt3 V c t.val t.isLt).2 = k3_pay2 (grid3.coords t) (iblk3 V c 0 t) (iblk3 V c 1 t) (outsAt3 V c (t.val - 1) (Nat.lt_of_le_of_lt (Nat.sub_le _ _) t.isLt)).2 := by
  have h0 : ¬cond3_0 (grid3.coords t) := fun hh => h ((hcond3_0 t).1 hh)
  by_cases h1 : cond3_1 (grid3.coords t)
  · rw [outsAt3_C V c t h0 h1]; exact sout3_C_0_eq (F := F) ..
  · rw [outsAt3_B V c t h0 h1]; exact sout3_B_0_eq (F := F) ..

theorem outsAt3_last (c : Dev nD) (t : Fin cfg3.N) (h : t.val % 521 = 520) :
    (outsAt3 V c t.val t.isLt).1 = k3_pay3 (outsAt3 V c t.val t.isLt).2 (iblk3 V c 2 t) := by
  rw [outsAt3_C V c t (fun hh => by have := (hcond3_0 t).1 hh; omega) ((hcond3_1 t).2 h)]
  exact (out3_C_3_eq (F := F) ..).trans (congrArg (k3_pay3 · _) (sout3_C_0_eq (F := F) ..).symm)

end Cert.KernelIdeal.Hand

end
-- ==== Proof.KI.Val.ScatterPoint.lean ====
import proofs.«407864_j23167053595206_1_alg».proof.Proof.KI.Val.GatherPoint

noncomputable section

open scoped BigOperators
open Idealize.ShloMosaic Idealize.ShloMosaic.ValueIdx

namespace Cert.KernelIdeal.Val

open Cert.KernelIdeal Cert.KernelIdeal.Gen

theorem scatter_dot_apply (L : FVec Ideal S2048x3072 .bf16) (R : FVec Ideal S3072x48 .bf16) (r : Fin 2048) (d : Fin 48) :
    matmul dot_S2048x3072_S3072x48_S2048x48_1_0_0_1_n_n none L R (constant S2048x48 .f32 0x00000000#32) (ix2 r d)
      = ∑ e : Fin 3072, L (ix2 r e) * R (ix2 e d) := by
  show FloatOps.matmul _ none L R _ (ix2 r d) = _
  rw [Ideal.matmul_constant_zero_apply, ← Equiv.sum_comp (contrEquiv1 dot_S2048x3072_S3072x48_S2048x48_1_0_0_1_n_n 3072 rfl rfl).symm]
  refine Finset.sum_congr rfl fun k _ => ?_
  have hk := contrEquiv1_symm_val dot_S2048x3072_S3072x48_S2048x48_1_0_0_1_n_n 3072 rfl rfl k
  rw [show dot_S2048x3072_S3072x48_S2048x48_1_0_0_1_n_n.lhsIdx (ix2 r d) ((contrEquiv1 dot_S2048x3072_S3072x48_S2048x48_1_0_0_1_n_n 3072 rfl rfl).symm k) = ix2 r k from
      Shape.idx_ext₂ (by
        unfold DotDims.lhsIdx
        rw [dif_neg (show ¬(0 : Fin S2048x3072.rank) ∈ dot_S2048x3072_S3072x48_S2048x48_1_0_0_1_n_n.lhsBatch by decide),
          dif_pos (show (0 : Fin S2048x3072.rank) ∈ dot_S2048x3072_S3072x48_S2048x48_1_0_0_1_n_n.lhsNonContracting by decide)]
        rfl) ((dot_S2048x3072_S3072x48_S2048x48_1_0_0_1_n_n.lhsIdx_val_of_single rfl _ _).trans hk),
    show dot_S2048x3072_S3072x48_S2048x48_1_0_0_1_n_n.rhsIdx (ix2 r d) ((contrEquiv1 dot_S2048x3072_S3072x48_S2048x48_1_0_0_1_n_n 3072 rfl rfl).symm k) = ix2 k d from
      Shape.idx_ext₂ ((dot_S2048x3072_S3072x48_S2048x48_1_0_0_1_n_n.rhsIdx_val_of_single rfl _ _).trans hk) (by
        unfold DotDims.rhsIdx
        rw [dif_neg (show ¬(1 : Fin S3072x48.rank) ∈ dot_S2048x3072_S3072x48_S2048x48_1_0_0_1_n_n.rhsBatch by decide),
          dif_pos (show (1 : Fin S3072x48.rank) ∈ dot_S2048x3072_S3072x48_S2048x48_1_0_0_1_n_n.rhsNonContracting by decide)]
        rfl)]

theorem onehot_apply (a : Nat) (S : IVec S3072 32) (r : Fin 2048) (e : Fin 3072)
    (hi : S2048x1.Iotas Kind.tc 32 [0]) (hb1 : S2048x1.Broadcasts S2048x3072) (hb2 : S1x3072.Broadcasts S2048x3072)
    (hc1 : S3072.ShapeCasts S3072) (hc2 : S3072.ShapeCasts S1x3072) (hw : 1 < 32) (hf : FTy.bits .bf16 < FTy.bits .f32) :
    (truncf FTy.bf16
        (sitofp FTy.f32
          (extui 32
            (cmpi CmpIPredicate.eq
              (broadcastTo S2048x3072
                (addi (broadcast S2048x1 (Scalar.muli (BitVec.ofNat 32 a) 2048#32)) (iota Kind.tc S2048x1 32 [0] hi)) hb1)
              (broadcastTo S2048x3072 (shapeCast S1x3072 (shapeCast S3072 S hc1) hc2) hb2))
            hw))
        hf : FVec Ideal S2048x3072 .bf16) (ix2 r e)
      = if BitVec.ofNat 32 (a * 2048 + r.val) = S (ix1 e) then (1 : EReal) else 0 := by
  show ((((IntOp.cmpi CmpIPredicate.eq
      (broadcastTo S2048x3072
        (addi (broadcast S2048x1 (Scalar.muli (BitVec.ofNat 32 a) 2048#32)) (iota Kind.tc S2048x1 32 [0] hi)) hb1 (ix2 r e))
      (broadcastTo S2048x3072 (shapeCast S1x3072 (shapeCast S3072 S hc1) hc2) hb2 (ix2 r e))).setWidth 32).toInt : ℝ) : EReal) = _
  rw [broadcastTo_a1_ab_apply, broadcastTo_1b_ab_apply, shapeCast_a_1a_apply, shapeCast_self, indicator_of_cmpi]
  show (if IntOp.addi (Scalar.muli (BitVec.ofNat 32 a) 2048#32) (iota Kind.tc S2048x1 32 [0] hi (ix2 r 0)) = S (ix1 e) then (1 : EReal) else 0) = _
  rw [iota_single_apply, node_word]

theorem k1_pay1_apply (j : S2048x48.Idx) : k1_pay1 (F := Ideal) j = 0 := by
  unfold k1_pay1
  refine (congrFun (shapeCast_self _ _) j).trans ?_
  show Ideal.ofBits .f32 0x00000000#32 = 0
  exact Ideal.ofBits_zero_f32

theorem k1_pay2_apply (i : grid1.Coords) (S : Vec Ideal S3072 .i32) (M : Vec Ideal S3072x48 .bf16)
    (acc : Vec Ideal S2048x48 .f32) (r : Fin 2048) (d : Fin 48) :
    k1_pay2 (F := Ideal) i S M acc (ix2 r d)
      = acc (ix2 r d) + ∑ e : Fin 3072,
          (if BitVec.ofNat 32 ((i 0).val * 2048 + r.val) = S (ix1 e) then (1 : EReal) else 0) * M (ix2 e d) := by
  unfold k1_pay2
  refine (congrFun (shapeCast_self _ _) (ix2 r d)).trans ?_
  refine (addf_apply _ _ _).trans ?_
  refine congrArg (acc (ix2 r d) + ·) ?_
  refine (scatter_dot_apply _ _ r d).trans ?_
  refine Finset.sum_congr rfl fun e _ => ?_
  refine congrArg₂ (· * ·) (onehot_apply (i 0).val S r e _ _ _ _ _ _ _) ?_
  exact congrFun (shapeCast_self M _) (ix2 e d)

theorem k1_pay3_apply (acc : Vec Ideal S2048x48 .f32) (D : Vec Ideal S2048 .f32) (r : Fin 2048) (d : Fin 48) :
    k1_pay3 (F := Ideal) acc D (ix2 r d) = acc (ix2 r d) * D (ix1 r) := by
  unfold k1_pay3
  refine (mulf_apply _ _ _).trans ?_
  refine congrArg (acc (ix2 r d) * ·) ?_
  refine (broadcastTo_a1_ab_apply _ _ r d).trans ?_
  refine (shapeCast_a_a1_apply _ _ r 0).trans ?_
  exact congrFun (shapeCast_self D _) (ix1 r)

def tilePos {J B N : ℕ} (hN : N = J * B) (j : Fin J) (b : Fin B) : Fin N :=
  ⟨j.val * B + b.val, by
    subst hN
    exact Nat.lt_of_lt_of_le (Nat.add_lt_add_left b.isLt _)
      (by rw [← Nat.succ_mul]; exact Nat.mul_le_mul_right _ j.isLt)⟩

theorem sum_tiles {J B N : ℕ} (hN : N = J * B) (f : Fin N → EReal) :
    ∑ x : Fin N, f x = ∑ j : Fin J, ∑ b : Fin B, f (tilePos hN j b) := by
  subst hN
  rw [← Equiv.sum_comp finProdFinEquiv f, Fintype.sum_prod_type]
  refine Finset.sum_congr rfl fun j _ => Finset.sum_congr rfl fun b _ => congrArg f (Fin.ext ?_)
  show b.val + B * j.val = j.val * B + b.val
  rw [Nat.mul_comm, Nat.add_comm]

theorem prefix_zero {J : ℕ} (g : Fin J → EReal) (k : ℕ) (hk : k < J) (h0 : k = 0) :
    g ⟨k, hk⟩ = ∑ j : Fin J, if j.val ≤ k then g j else 0 := by
  subst h0
  rw [← Finset.sum_filter, show Finset.univ.filter (fun j : Fin J => j.val ≤ 0) = {⟨0, hk⟩} from by
    ext j; simp only [Finset.mem_filter, Finset.mem_univ, true_and, Finset.mem_singleton, Fin.ext_iff]; omega,
    Finset.sum_singleton]

theorem prefix_succ {J : ℕ} (g : Fin J → EReal) (m k : ℕ) (hk : k < J) (hmk : m + 1 = k) :
    (∑ j : Fin J, if j.val ≤ m then g j else 0) + g ⟨k, hk⟩ = ∑ j : Fin J, if j.val ≤ k then g j else 0 := by
  subst hmk
  rw [← Finset.sum_filter, ← Finset.sum_filter, show Finset.univ.filter (fun j : Fin J => j.val ≤ m + 1)
      = insert ⟨m + 1, hk⟩ (Finset.univ.filter fun j : Fin J => j.val ≤ m) from by
    ext j; simp only [Finset.mem_filter, Finset.mem_univ, true_and, Finset.mem_insert, Fin.ext_iff]; omega,
    Finset.sum_insert (by simp), add_comm]

theorem prefix_full {J : ℕ} (g : Fin J → EReal) (m : ℕ) (hm : J ≤ m + 1) :
    (∑ j : Fin J, if j.val ≤ m then g j else 0) = ∑ j : Fin J, g j :=
  Finset.sum_congr rfl fun j _ => if_pos (by have := j.isLt; omega)

theorem edges_eq : (1600512 : ℕ) = 521 * 3072 := by norm_num

abbrev edgePos (j : Fin 521) (e : Fin 3072) : Fin 1600512 := tilePos edges_eq j e

end Cert.KernelIdeal.Val

end
-- ==== Proof.KI.Val.ScatterRow.lean ====
import proofs.«407864_j23167053595206_1_alg».proof.Proof.Gen.KernelIdeal.Launch
import proofs.«407864_j23167053595206_1_alg».proof.Proof.KI.Val.Spec
import proofs.«407864_j23167053595206_1_alg».proof.Proof.KI.Val.ScatterPoint

noncomputable section

open scoped BigOperators

namespace Cert.KernelIdeal.Val

open Idealize.ShloMosaic Idealize.ShloMosaic.ValueIdx Cert.KernelIdeal Cert.KernelIdeal.Gen
open Idealize.ShloMosaic.TcCoe Idealize.SL.Sem

theorem word_back1 (n : ℕ) (h : n < 521) : (BitVec.ofNat 32 n).toNat = n := by
  rw [BitVec.toNat_ofNat]; exact Nat.mod_eq_of_lt (Nat.lt_trans h (by decide : 521 < 2 ^ 32))

theorem idx_facts1 (t : Fin cfg1.N) :
    win1_0.index t (0 : Fin 1) = t.val % 521
    ∧ win1_1.index t (0 : Fin 2) = t.val % 521 ∧ win1_1.index t (1 : Fin 2) = 0
    ∧ win1_2.index t (0 : Fin 1) = t.val / 521
    ∧ win1_3.index t (0 : Fin 2) = t.val / 521 ∧ win1_3.index t (1 : Fin 2) = 0
    ∧ ((grid1.coords t) 0).val = t.val / 521 := by
  have hN : cfg1.N = 25529 := N_1
  have ht := t.isLt
  have c0 : ((grid1.coords t) 0).val = t.val / 521 := by
    show t.val / grid1.stride 0 % 49 = t.val / 521
    rw [show grid1.stride 0 = 521 by decide]; omega
  have c1 : ((grid1.coords t) 1).val = t.val % 521 := by
    show t.val / grid1.stride 1 % 521 = t.val % 521
    rw [show grid1.stride 1 = 1 by decide, Nat.div_one]
  have h1 := (word_back1 _ ((grid1.coords t) 1).isLt).trans c1
  have h0 := (word_back1 _ (Nat.lt_trans ((grid1.coords t) 0).isLt (by decide))).trans c0
  exact ⟨h1, h1, rfl, h0, h0, rfl, c0⟩

theorem rowIdx_lt1 (t : Fin cfg1.N) : t.val / 521 < 49 := by
  have h : cfg1.N = 25529 := N_1
  have := t.isLt
  omega

abbrev edge1 (t : Fin cfg1.N) (e : Fin 3072) : Fin 1600512 :=
  edgePos ⟨t.val % 521, Nat.mod_lt _ (by decide)⟩ e

abbrev node1 (t : Fin cfg1.N) (r : Fin 2048) : Fin 100352 :=
  ⟨t.val / 521 * 2048 + r.val, by have := rowIdx_lt1 t; have := r.isLt; omega⟩

theorem read_blk1_0 (t : Fin cfg1.N) (A : Vec Ideal S1600512 .i32) (e : Fin 3072) :
    ((cfg1.win 0).blk t).view.read (Elt Ideal) A (ix1 e) = A (ix1 (edge1 t e)) := by
  rw [View.read_apply]
  refine congrArg A (funext fun a => Fin.ext ?_)
  obtain ⟨h0, -⟩ := idx_facts1 t
  match a with
  | ⟨0, _⟩ => show win1_0.index t (0 : Fin 1) * 3072 + 1 * e.val = t.val % 521 * 3072 + e.val; rw [h0]; omega

theorem read_blk1_1 (t : Fin cfg1.N) (A : Vec Ideal S1600512x48 .bf16) (e : Fin 3072) (d : Fin 48) :
    ((cfg1.win 1).blk t).view.read (Elt Ideal) A (ix2 e d) = A (ix2 (edge1 t e) d) := by
  rw [View.read_apply]
  refine congrArg A (funext fun a => Fin.ext ?_)
  obtain ⟨-, h0, h1, -⟩ := idx_facts1 t
  match a with
  | ⟨0, _⟩ => show win1_1.index t (0 : Fin 2) * 3072 + 1 * e.val = t.val % 521 * 3072 + e.val; rw [h0]; omega
  | ⟨1, _⟩ => show win1_1.index t (1 : Fin 2) * 48 + 1 * d.val = d.val; rw [h1]; omega

theorem read_blk1_2 (t : Fin cfg1.N) (A : Vec Ideal S100352 .f32) (r : Fin 2048) :
    ((cfg1.win 2).blk t).view.read (Elt Ideal) A (ix1 r) = A (ix1 (node1 t r)) := by
  rw [View.read_apply]
  refine congrArg A (funext fun a => Fin.ext ?_)
  obtain ⟨-, -, -, h0, -⟩ := idx_facts1 t
  match a with
  | ⟨0, _⟩ => show win1_2.index t (0 : Fin 1) * 2048 + 1 * r.val = t.val / 521 * 2048 + r.val; rw [h0]; omega

theorem read_blk1_3 (t : Fin cfg1.N) (A : Vec Ideal S100352x48 .f32) (r : Fin 2048) (d : Fin 48) :
    ((cfg1.win 3).blk t).view.read (Elt Ideal) A (ix2 r d) = A (ix2 (node1 t r) d) := by
  rw [View.read_apply]
  refine congrArg A (funext fun a => Fin.ext ?_)
  obtain ⟨-, -, -, -, h0, h1, -⟩ := idx_facts1 t
  match a with
  | ⟨0, _⟩ => show win1_3.index t (0 : Fin 2) * 2048 + 1 * r.val = t.val / 521 * 2048 + r.val; rw [h0]; omega
  | ⟨1, _⟩ => show win1_3.index t (1 : Fin 2) * 48 + 1 * d.val = d.val; rw [h1]; omega

theorem cover1_3 (i : S100352x48.Idx) :
    ∃ t : Fin cfg1.N, t.val % 521 = 520 ∧ i ∈ ((cfg1.win 3).blk t).view.set := by
  have hi0 : (i 0).val < 100352 := (i 0).isLt
  have hi1 : (i 1).val < 48 := (i 1).isLt
  have hN : cfg1.N = 25529 := N_1
  obtain ⟨t, ht⟩ : ∃ t : Fin cfg1.N, t.val = (i 0).val / 2048 * 521 + 520 := ⟨⟨_, by omega⟩, rfl⟩
  obtain ⟨-, -, -, -, h0, h1, -⟩ := idx_facts1 t
  refine ⟨t, by omega, ?_⟩
  show i ∈ ((View.whole main_v9).slice (win1_3.rect t)).set
  rw [View.set_slice_whole, Rect.mem_set_unit]
  intro a
  match a with
  | ⟨0, _⟩ =>
    show win1_3.index t (0 : Fin 2) * 2048 ≤ (i 0).val ∧ (i 0).val < win1_3.index t (0 : Fin 2) * 2048 + 2048
    rw [h0]; omega
  | ⟨1, _⟩ =>
    show win1_3.index t (1 : Fin 2) * 48 ≤ (i 1).val ∧ (i 1).val < win1_3.index t (1 : Fin 2) * 48 + 48
    rw [h1]; omega

abbrev eblk1 (A : Vec Ideal S1600512 .i32) (t : Fin cfg1.N) : Vec Ideal S3072 .i32 :=
  ((cfg1.win 0).blk t).view.read (Elt Ideal) A
abbrev mblk1 (A : Vec Ideal S1600512x48 .bf16) (t : Fin cfg1.N) : Vec Ideal S3072x48 .bf16 :=
  ((cfg1.win 1).blk t).view.read (Elt Ideal) A
abbrev dblk1 (A : Vec Ideal S100352 .f32) (t : Fin cfg1.N) : Vec Ideal S2048 .f32 :=
  ((cfg1.win 2).blk t).view.read (Elt Ideal) A

section Row
variable (endA : Vec Ideal S1600512 .i32) (msgA : Vec Ideal S1600512x48 .bf16) (dfA : Vec Ideal S100352 .f32)

def tileTerm1 (n : ℕ) (d : Fin 48) (j : Fin 521) : EReal :=
  ∑ e : Fin 3072, (if BitVec.ofNat 32 n = endA (ix1 (edgePos j e)) then (1 : EReal) else 0) * msgA (ix2 (edgePos j e) d)

theorem update1_apply (t : Fin cfg1.N) (acc : Vec Ideal S2048x48 .f32) (r : Fin 2048) (d : Fin 48) :
    k1_pay2 (F := Ideal) (grid1.coords t) (eblk1 endA t) (mblk1 msgA t) acc (ix2 r d)
      = acc (ix2 r d)
        + tileTerm1 endA msgA (t.val / 521 * 2048 + r.val) d ⟨t.val % 521, Nat.mod_lt _ (by decide)⟩ := by
  obtain ⟨-, -, -, -, -, -, hi⟩ := idx_facts1 t
  unfold tileTerm1
  rw [k1_pay2_apply]
  refine congrArg (acc (ix2 r d) + ·) (Finset.sum_congr rfl fun e _ => ?_)
  show (if BitVec.ofNat 32 (((grid1.coords t) 0).val * 2048 + r.val)
          = ((cfg1.win 0).blk t).view.read (Elt Ideal) endA (ix1 e) then (1 : EReal) else 0)
      * ((cfg1.win 1).blk t).view.read (Elt Ideal) msgA (ix2 e d) = _
  rw [read_blk1_0, read_blk1_1, hi]

variable (acc : (n : ℕ) → n < cfg1.N → Vec Ideal S2048x48 .f32)
    (hfirst : ∀ t : Fin cfg1.N, t.val % 521 = 0 →
      acc t.val t.isLt = k1_pay2 (F := Ideal) (grid1.coords t) (eblk1 endA t) (mblk1 msgA t) (k1_pay1 (F := Ideal)))
    (hnext : ∀ (t : Fin cfg1.N) (h : ¬t.val % 521 = 0),
      acc t.val t.isLt = k1_pay2 (F := Ideal) (grid1.coords t) (eblk1 endA t) (mblk1 msgA t)
        (acc (t.val - 1) (Nat.lt_of_le_of_lt (Nat.sub_le _ _) t.isLt)))
include hfirst hnext

theorem row_invariant1 : ∀ (n : ℕ) (hn : n < cfg1.N) (r : Fin 2048) (d : Fin 48), acc n hn (ix2 r d)
      = ∑ j : Fin 521, if j.val ≤ n % 521 then tileTerm1 endA msgA (n / 521 * 2048 + r.val) d j else 0 := by
  intro n
  induction n using Nat.strong_induction_on with
  | _ n ih =>
    intro hn r d
    by_cases h0 : n % 521 = 0
    · rw [hfirst ⟨n, hn⟩ h0, update1_apply, k1_pay1_apply, zero_add]
      exact prefix_zero (fun j => tileTerm1 endA msgA (n / 521 * 2048 + r.val) d j) (n % 521) _ h0
    · rw [hnext ⟨n, hn⟩ h0, update1_apply, ih (n - 1) (by omega), show (n - 1) / 521 = n / 521 by omega]
      exact prefix_succ (fun j => tileTerm1 endA msgA (n / 521 * 2048 + r.val) d j) ((n - 1) % 521) (n % 521) _ (by omega)

theorem row_flush1 (t : Fin cfg1.N) (h520 : t.val % 521 = 520) :
    k1_pay3 (F := Ideal) (acc t.val t.isLt) (dblk1 dfA t)
      = ((cfg1.win 3).blk t).view.read (Elt Ideal) (Gscatter endA msgA dfA) := by
  funext j
  obtain ⟨r, d, rfl⟩ : ∃ (r : Fin 2048) (d : Fin 48), j = ix2 r d := ⟨j 0, j 1, eq_ix2 j⟩
  rw [read_blk1_3, k1_pay3_apply, row_invariant1 endA msgA acc hfirst hnext, Gscatter_apply]
  show _ * ((cfg1.win 2).blk t).view.read (Elt Ideal) dfA (ix1 r) = _
  rw [read_blk1_2, h520, prefix_full (J := 521) _ 520 (by norm_num), sum_tiles edges_eq]
  exact congrArg (· * dfA (ix1 (node1 t r))) (Finset.sum_congr rfl fun j _ => rfl)

end Row

end Cert.KernelIdeal.Val

end
-- ==== Proof.KI.Val.ScatterFinal.lean ====
import proofs.«407864_j23167053595206_1_alg».proof.Proof.KI.S1.Frame
import proofs.«407864_j23167053595206_1_alg».proof.Proof.KI.S1.Pieces
import proofs.«407864_j23167053595206_1_alg».proof.Proof.KI.S3.Frame
import proofs.«407864_j23167053595206_1_alg».proof.Proof.KI.S3.Pieces
import proofs.«407864_j23167053595206_1_alg».proof.Proof.KI.Val.ScatterRow

noncomputable section

open scoped BigOperators

namespace Cert.KernelIdeal.Val

open Idealize.ShloMosaic Idealize.ShloMosaic.ValueIdx Cert.KernelIdeal Cert.KernelIdeal.Gen Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem final1 (c : Dev nD) :
    (dat1 (F := Ideal) V c).arrAt 3 cfg1.N = Gscatter (V c main_v3) (V c main_v8) (V c main_v5) :=
  (dat1 (F := Ideal) V c).arrAt_eq_of_cover 3 _ (fun t hf => by
    have h520 : t.val % 521 = 520 := (flush1_3 t).mp hf
    show (cfg1.win 3).cut (grid1.coords t) ((dat1 (F := Ideal) V c).after 3 t) = _
    rw [after1_3, outsAt1_last V c t h520]
    exact row_flush1 _ _ _ (fun n hn => (outsAt1 V c n hn).2) (outsAt1_first V c) (outsAt1_next V c) t h520)
    fun i => (cover1_3 i).imp fun t h => ⟨(flush1_3 t).mpr h.1, h.2⟩

-- Region 3 runs region 1's program on region 1's grid, so region 1's row theorem applies as it stands.
theorem final3 (c : Dev nD) :
    (dat3 (F := Ideal) V c).arrAt 3 cfg3.N = Gscatter (V c main_v3) (V c main_v13) (V c main_v5) :=
  (dat3 (F := Ideal) V c).arrAt_eq_of_cover 3 _ (fun t hf => by
    have h520 : t.val % 521 = 520 := (flush3_3 t).mp hf
    show (cfg3.win 3).cut (grid3.coords t) ((dat3 (F := Ideal) V c).after 3 t) = _
    rw [after3_3, outsAt3_last V c t h520]
    exact row_flush1 _ _ _ (fun n hn => (outsAt3 V c n hn).2) (outsAt3_first V c) (outsAt3_next V c) t h520)
    fun i => (cover1_3 i).imp fun t h => ⟨(flush3_3 t).mpr h.1, h.2⟩

end Cert.KernelIdeal.Val

end
-- ==== Proof.KI.Val.MlpPoint.lean ====
import proofs.«407864_j23167053595206_1_alg».proof.Proof.Gen.KernelIdeal.Skeleton
import Idealize.ShloMosaic.Lib.StackMember
import Idealize.ShloMosaic.Lib.KernelVsHost
import Idealize.ShloMosaic.Lib.ValueIdx
import Idealize.ShloMosaic.Lib.Pipeline.Value

noncomputable section

open scoped BigOperators

namespace Cert.KernelIdeal.Val

open Idealize.ShloMosaic Idealize.ShloMosaic.ValueIdx Cert.KernelIdeal Cert.KernelIdeal.Gen

theorem mlp_matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

theorem mlp_dot_first_eq : dot_S2000x48_S48x128_S2000x128_1_0_0_1_n_n = DotDims.plain 2000 48 128 := rfl

theorem mlp_dot_second_eq : dot_S2000x128_S128x128_S2000x128_1_0_0_1_n_n = DotDims.plain 2000 128 128 := rfl

theorem mlp_bias_row_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  refine (broadcastTo_apply (shapeCast ⟨2, ![1, n]⟩ x h1) hb (ix2 p q) (ix2 (0 : Fin 1) q) ?_).trans ?_
  ·
    intro a
    match a with
    | ⟨0, _⟩ => rfl
    | ⟨1, _⟩ =>
      show q.val = if n = 1 then 0 else q.val
      split
      · have := q.isLt; omega
      · rfl
  ·
    refine shapeCast_apply x h1 (ix2 (0 : Fin 1) q) (ix1 q) ?_
    rw [Shape.rowMajor_val_two, Shape.rowMajor_val_one]
    show q.val = 0 * n + q.val
    omega

theorem k4_pay1_apply (x : Vec Ideal S2000x48 .f32) (W1 : Vec Ideal S48x128 .f32) (b1 : Vec Ideal S128 .f32)
    (W2 : Vec Ideal S128x128 .f32) (b2 : Vec Ideal S128 .f32) (p : Fin 2000) (q : Fin 128) :
    k4_pay1 (F := Ideal) x W1 b1 W2 b2 (ix2 p q)
      = (∑ k : Fin 128, max ((∑ j : Fin 48, x (ix2 p j) * W1 (ix2 j k)) + b1 (ix1 k)) 0 * W2 (ix2 k q)) + b2 (ix1 q) := by
  unfold k4_pay1
  rw [mlp_dot_first_eq, mlp_dot_second_eq, shapeCast_self]

  refine (addf_apply _ _ _).trans ?_
  refine congrArg₂ (· + ·) ((mlp_matmul_zero_apply none _ _ p q).trans ?_) (mlp_bias_row_apply b2 _ _ p q)

  refine Finset.sum_congr rfl fun k _ => ?_
  refine congrArg₂ (· * ·) ?_ rfl

  show max (addf (matmul (DotDims.plain 2000 48 128) none (truncf FTy.bf16 x bitsLt_bf16_f32) (truncf FTy.bf16 W1 bitsLt_bf16_f32)
      (constant (F := Ideal) S2000x128 FTy.f32 0x00000000#32))
      (broadcastTo S2000x128 (shapeCast S1x128 b1 shapeCasts_S128_S1x128) broadcasts_S1x128_S2000x128) (ix2 p k))
      (Ideal.ofBits .f32 0x00000000#32) = _
  rw [Ideal.ofBits_zero_f32]
  refine congrArg (max · 0) ?_

  refine (addf_apply _ _ _).trans ?_
  refine congrArg₂ (· + ·) ((mlp_matmul_zero_apply none _ _ p k).trans ?_) (mlp_bias_row_apply b1 _ _ p k)
  rfl

end Cert.KernelIdeal.Val

end
-- ==== Proof.KI.Val.MlpFinal.lean ====
import proofs.«407864_j23167053595206_1_alg».proof.Proof.KI.M4.Frame
import proofs.«407864_j23167053595206_1_alg».proof.Proof.KI.Val.Spec
import proofs.«407864_j23167053595206_1_alg».proof.Proof.KI.Val.MlpPoint
import Idealize.ShloMosaic.Lib.Pipeline.Value
import Idealize.ShloMosaic.Lib.ValueIdx
import Idealize.ShloMosaic.Lib.Decide

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem mlp_zeros2 : (![0, 0] : Fin 2 → Nat) = fun _ => 0 := funext fun a => by fin_cases a <;> rfl

theorem mlp_zeros1 : (![0] : Fin 1 → Nat) = fun _ => 0 := funext fun a => by fin_cases a <;> rfl

theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

theorem mlp_rows_at (c : Dev nD) (t : Fin cfg4.N) (p : Fin 2000) (j : Fin 48) (h : t.val * 2000 + p.val < 100000) :
    (iblk4 V c 0 t : Vec Ideal S2000x48 .f32) (ix2 p j)
      = (V c main_v15 : S100000x48.Idx → EReal) (ix2 (⟨t.val * 2000 + p.val, h⟩ : Fin 100000) j) := by
  obtain ⟨e0, e1, -⟩ := block_indices4 t
  show (V c main_v15 : S100000x48.Idx → EReal) (((cfg4.win 0).blk t).view.emb (ix2 p j)) = _
  refine congrArg (V c main_v15 : S100000x48.Idx → EReal) ?_
  funext a; apply Fin.ext
  match a with
  | ⟨0, _⟩ => show win4_0.index t (0 : Fin 2) * 2000 + 1 * p.val = t.val * 2000 + p.val; rw [e0]; omega
  | ⟨1, _⟩ => show win4_0.index t (1 : Fin 2) * 48 + 1 * j.val = j.val; rw [e1]; omega

theorem mlp_W1_whole (c : Dev nD) (t : Fin cfg4.N) :
    (iblk4 V c 1 t : Vec Ideal S48x128 .f32) = (V c main_arg5 : S48x128.Idx → EReal) := by
  obtain ⟨-, -, e0, e1, -⟩ := block_indices4 t
  funext y
  exact congrArg (V c main_arg5 : S48x128.Idx → EReal) (funext fun a => Fin.ext (by
    match a with
    | ⟨0, _⟩ => exact win4_1.rect_emb_val_of_index_zero t 0 e0 y
    | ⟨1, _⟩ => exact win4_1.rect_emb_val_of_index_zero t 1 e1 y))

theorem mlp_b1_whole (c : Dev nD) (t : Fin cfg4.N) :
    (iblk4 V c 2 t : Vec Ideal S128 .f32) = (V c main_arg6 : S128.Idx → EReal) := by
  obtain ⟨-, -, -, -, e0, -⟩ := block_indices4 t
  funext y
  exact congrArg (V c main_arg6 : S128.Idx → EReal) (funext fun a => Fin.ext (by
    match a with
    | ⟨0, _⟩ => exact win4_2.rect_emb_val_of_index_zero t 0 e0 y))

theorem mlp_W2_whole (c : Dev nD) (t : Fin cfg4.N) :
    (iblk4 V c 3 t : Vec Ideal S128x128 .f32) = (V c main_arg7 : S128x128.Idx → EReal) := by
  obtain ⟨-, -, -, -, -, e0, e1, -⟩ := block_indices4 t
  funext y
  exact congrArg (V c main_arg7 : S128x128.Idx → EReal) (funext fun a => Fin.ext (by
    match a with
    | ⟨0, _⟩ => exact win4_3.rect_emb_val_of_index_zero t 0 e0 y
    | ⟨1, _⟩ => exact win4_3.rect_emb_val_of_index_zero t 1 e1 y))

theorem mlp_b2_whole (c : Dev nD) (t : Fin cfg4.N) :
    (iblk4 V c 4 t : Vec Ideal S128 .f32) = (V c main_arg8 : S128.Idx → EReal) := by
  obtain ⟨-, -, -, -, -, -, -, e0, -⟩ := block_indices4 t
  funext y
  exact congrArg (V c main_arg8 : S128.Idx → EReal) (funext fun a => Fin.ext (by
    match a with
    | ⟨0, _⟩ => exact win4_4.rect_emb_val_of_index_zero t 0 e0 y))

theorem flushed4_eq (c : Dev nD) (t : Fin cfg4.N) :
    (dat4 V c).flushed 5 t = ((cfg4.win 5).blk t).view.read (Elt Ideal)
      (Gmlp (V c main_v15) (V c main_arg5) (V c main_arg6) (V c main_arg7) (V c main_arg8)) := by
  show (cfg4.win 5).cut (grid4.coords t) ((dat4 V c).after 5 t) = _
  rw [after4_5]
  unfold out4_5

  rw [View.canon_unit_zero mlp_zeros2]
  simp only [View.ld_unit_zero (S := S2000x48) mlp_zeros2, View.ld_unit_zero (S := S48x128) mlp_zeros2,
    View.ld_unit_zero (S := S128) mlp_zeros1, View.ld_unit_zero (S := S128x128) mlp_zeros2]
  rw [mlp_W1_whole, mlp_b1_whole, mlp_W2_whole, mlp_b2_whole]
  funext j
  obtain ⟨p, q, rfl⟩ : ∃ (p : Fin 2000) (q : Fin 128), j = ix2 p q := ⟨j 0, j 1, eq_ix2 j⟩
  have hN : cfg4.N = 50 := N_4
  have ht : t.val < 50 := hN ▸ t.isLt
  have hp : t.val * 2000 + p.val < 100000 := by have := p.isLt; omega
  obtain ⟨-, -, -, -, -, -, -, -, e0, e1⟩ := block_indices4 t

  have hemb : ((cfg4.win 5).blk t).view.emb (ix2 p q) = (ix2 (⟨t.val * 2000 + p.val, hp⟩ : Fin 100000) q : S100000x128.Idx) := by
    funext a; apply Fin.ext
    match a with
    | ⟨0, _⟩ => show win4_5.index t (0 : Fin 2) * 2000 + 1 * p.val = t.val * 2000 + p.val; rw [e0]; omega
    | ⟨1, _⟩ => show win4_5.index t (1 : Fin 2) * 128 + 1 * q.val = q.val; rw [e1]; omega
  show k4_pay1 (F := Ideal) (iblk4 V c 0 t) (V c main_arg5) (V c main_arg6) (V c main_arg7) (V c main_arg8) (ix2 p q)
    = Gmlp (V c main_v15) (V c main_arg5) (V c main_arg6) (V c main_arg7) (V c main_arg8) (((cfg4.win 5).blk t).view.emb (ix2 p q))
  rw [hemb, Gmlp_apply]
  refine (k4_pay1_apply _ _ _ _ _ p q).trans ?_

  exact congrArg₂ (· + ·) (Finset.sum_congr rfl fun k _ => congrArg₂ (· * ·) (congrArg (max · 0) (congrArg₂ (· + ·)
    (Finset.sum_congr rfl fun j _ => congrArg₂ (· * ·) (mlp_rows_at V c t p j hp) rfl) rfl)) rfl) rfl

theorem covered4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 50 := N_4
  obtain ⟨t, ht⟩ : ∃ t : Fin cfg4.N, t.val = (i 0).val / 2000 := ⟨⟨_, by omega⟩, rfl⟩
  obtain ⟨-, -, -, -, -, -, -, -, e0, e1⟩ := block_indices4 t
  refine ⟨t, flush4_5 _, ?_⟩
  show i ∈ ((View.whole main_v16).slice (win4_5.rect t)).set
  rw [View.set_slice_whole, Rect.mem_set_unit]
  intro a
  match a with
  | ⟨0, _⟩ =>
    show win4_5.index t (0 : Fin 2) * 2000 ≤ (i 0).val ∧ (i 0).val < win4_5.index t (0 : Fin 2) * 2000 + 2000
    rw [e0]; omega
  | ⟨1, _⟩ =>
    show win4_5.index t (1 : Fin 2) * 128 ≤ (i 1).val ∧ (i 1).val < win4_5.index t (1 : Fin 2) * 128 + 128
    rw [e1]; omega

theorem final4 (c : Dev nD) :
    (dat4 V c).arrAt 5 cfg4.N = Gmlp (V c main_v15) (V c main_arg5) (V c main_arg6) (V c main_arg7) (V c main_arg8) :=
  (dat4 V c).arrAt_eq_of_cover 5 _ (fun t _ => flushed4_eq V c t) covered4

end Cert.KernelIdeal.Val

end
-- ==== Proof.KI.Val.Glue.lean ====
import Idealize.ShloMosaic.Lib.ValueIdx
import Idealize.ShloMosaic.Lib.Pipeline.Value
import Idealize.ShloMosaic.Lib.KernelVsHost
import Idealize.ShloMosaic.PureOps.Ideal
import Idealize.ShloMosaic.PureOps.Ideal.Laws
import proofs.«407864_j23167053595206_1_alg».proof.Proof.KI.Val.Spec
import proofs.«407864_j23167053595206_1_alg».proof.Proof.KI.Val.Pass

noncomputable section

open scoped BigOperators

namespace Cert.KernelIdeal.Val

open Idealize.ShloMosaic Idealize.ShloMosaic.ValueIdx Cert.KernelIdeal

section Layout
variable {α : Type}

theorem pad1_lt {N M p : ℕ} (x : (⟨1, ![N]⟩ : Shape).Idx → α) (v : S_.Idx → α)
    (h : (⟨1, ![N]⟩ : Shape).Pads (![0] : Fin 1 → Nat) ![p] ![0] ⟨1, ![M]⟩) (hu : 0 < S_.numel)
    (e : Fin M) (he : e.val < N) :
    pad ⟨1, ![M]⟩ ![0] ![p] ![0] x v h hu (ix1 e) = x (ix1 (⟨e.val, he⟩ : Fin N)) :=
  pad_apply_of_inside _ _ _ x v h hu _ _ (fun a => by
    match a with
    | ⟨0, _⟩ => show e.val = 0 + e.val * (0 + 1); omega)

theorem padE_ge (x : S1600000.Idx → α) (v : S_.Idx → α)
    (h : S1600000.Pads (![0] : Fin 1 → Nat) ![512] ![0] S1600512) (hu : 0 < S_.numel)
    (e : Fin 1600512) (he : 1600000 ≤ e.val) :
    pad S1600512 ![0] ![512] ![0] x v h hu (ix1 e) = v (Shape.Idx.first hu) :=
  pad_apply_of_not_inside _ _ _ x v h hu _ (0 : Fin 1) (by
    show ¬(0 ≤ e.val ∧ (e.val - 0) % (0 + 1) = 0 ∧ (e.val - 0) / (0 + 1) < 1600000)
    omega)

theorem padY_lt (x : S100000x48.Idx → α) (v : S_.Idx → α)
    (h : S100000x48.Pads (![0, 0] : Fin 2 → Nat) ![352, 0] ![0, 0] S100352x48) (hu : 0 < S_.numel)
    (n : Fin 100352) (d : Fin 48) (hn : n.val < 100000) :
    pad S100352x48 ![0, 0] ![352, 0] ![0, 0] x v h hu (ix2 n d) = x (ix2 (⟨n.val, hn⟩ : Fin 100000) d) :=
  pad_apply_of_inside _ _ _ x v h hu _ _ (fun a => by
    match a with
    | ⟨0, _⟩ => show n.val = 0 + n.val * (0 + 1); omega
    | ⟨1, _⟩ => show d.val = 0 + d.val * (0 + 1); omega)

theorem sliceY (x : S100352x48.Idx → α) (h : S100352x48.Slices ![0, 0] S100000x48) (n : Fin 100000) (d : Fin 48) :
    extractStridedSlice S100000x48 ![0, 0] x h (ix2 n d) = x (ix2 (⟨n.val, by omega⟩ : Fin 100352) d) :=
  extractStridedSlice_apply _ x h _ _ (fun a => by
    match a with
    | ⟨0, _⟩ => show n.val = 0 + n.val; omega
    | ⟨1, _⟩ => show d.val = 0 + d.val; omega)

theorem cast_a1_a {a : ℕ} (x : (⟨2, ![a, 1]⟩ : Shape).Idx → α) (h : (⟨2, ![a, 1]⟩ : Shape).ShapeCasts ⟨1, ![a]⟩) (e : Fin a) :
    shapeCast ⟨1, ![a]⟩ x h (ix1 e) = x (ix2 e (⟨0, Nat.one_pos⟩ : Fin 1)) :=
  shapeCast_apply x h _ _ (by
    rw [Shape.rowMajor_val_two, Shape.rowMajor_val_one]
    show e.val * 1 + 0 = e.val; omega)

end Layout

theorem sitofp_zero (i : S_.Idx) : (sitofp (F := Ideal) .f32 (constantI S_ 32 0#32)) i = (0 : EReal) := by
  show (((0#32 : BitVec 32).toInt : ℝ) : EReal) = 0
  simp

theorem Ggather_of_start (start : IVec S1600512 32) (dfs : S1600512.Idx → EReal) (y : S100352x48.Idx → EReal)
    (e : Fin 1600512) (d : Fin 48) (n : Fin 100352) (hn : start (ix1 e) = BitVec.ofNat 32 n.val) :
    Ggather start dfs y (ix2 e d) = y (ix2 n d) * dfs (ix1 e) := by
  rw [Ggather_apply]
  refine congrArg (fun s => s * dfs (ix1 e)) ?_
  rw [Finset.sum_eq_single n]
  · rw [if_pos hn, one_mul]
  · intro b _ hb
    rw [if_neg fun hb' => hb (Fin.ext (by
      have h1 := (ofNat_eq_iff_toInt b.val (by have := b.isLt; omega) _).mp hb'.symm
      have h2 := (ofNat_eq_iff_toInt n.val (by have := n.isLt; omega) _).mp hn.symm
      omega)), zero_mul]
  · intro h
    exact absurd (Finset.mem_univ _) h

theorem edges_le : 1600000 ≤ 1600512 := by omega

theorem Gscatter_of_msg (end_ : IVec S1600512 32) (msg : S1600512x48.Idx → EReal) (df : S100352.Idx → EReal)
    (hmsg : ∀ (e : Fin 1600512) (d : Fin 48), 1600000 ≤ e.val → msg (ix2 e d) = 0) (n : Fin 100352) (d : Fin 48) :
    Gscatter end_ msg df (ix2 n d) =
      (∑ e ∈ Finset.univ.filter (fun e : Fin 1600000 => (end_ (ix1 (Fin.castLE edges_le e))).toInt = (n.val : ℤ)),
          msg (ix2 (Fin.castLE edges_le e) d)) * df (ix1 n) := by
  rw [Gscatter_apply]
  refine congrArg (fun s => s * df (ix1 n)) ?_
  rw [sum_eq_sum_castLE edges_le _ (fun e he => by rw [hmsg e d he, mul_zero]), ← sum_ite_one_mul]
  refine Finset.sum_congr rfl fun e _ => ?_
  refine congrArg (fun s => s * msg (ix2 (Fin.castLE edges_le e) d)) ?_
  exact if_congr (ofNat_eq_iff_toInt n.val (by have := n.isLt; omega) _) rfl rfl

section Pass
variable (start end_ : IVec S1600000 32) (dfs : S1600000x1.Idx → EReal) (df : S100000x1.Idx → EReal)
    (y : S100000x48.Idx → EReal)

theorem pass_glue (startP endP : IVec S1600512 32) (dfsP : S1600512.Idx → EReal) (dfP : S100352.Idx → EReal) (yP : S100352x48.Idx → EReal)
    (hs : ∀ (e : Fin 1600512) (h : e.val < 1600000), startP (ix1 e) = start (ix1 (⟨e.val, h⟩ : Fin 1600000)))
    (he : ∀ (e : Fin 1600512) (h : e.val < 1600000), endP (ix1 e) = end_ (ix1 (⟨e.val, h⟩ : Fin 1600000)))
    (hd : ∀ (e : Fin 1600512) (h : e.val < 1600000), dfsP (ix1 e) = dfs (ix2 (⟨e.val, h⟩ : Fin 1600000) (⟨0, Nat.one_pos⟩ : Fin 1)))
    (hd0 : ∀ e : Fin 1600512, 1600000 ≤ e.val → dfsP (ix1 e) = 0)
    (hf : ∀ (n : Fin 100352) (h : n.val < 100000), dfP (ix1 n) = df (ix2 (⟨n.val, h⟩ : Fin 100000) (⟨0, Nat.one_pos⟩ : Fin 1)))
    (hy : ∀ (n : Fin 100352) (d : Fin 48) (h : n.val < 100000), yP (ix2 n d) = y (ix2 (⟨n.val, h⟩ : Fin 100000) d))
    (hstart : ∀ e : Fin 1600000, 0 ≤ (start (ix1 e)).toInt ∧ (start (ix1 e)).toInt < 100000)
    (hsl : S100352x48.Slices ![0, 0] S100000x48) :
    extractStridedSlice S100000x48 ![0, 0] (Gscatter endP (Ggather startP dfsP yP) dfP) hsl
      = Gpass start end_ dfs df y := by
  funext i
  obtain ⟨n, d, rfl⟩ : ∃ (n : Fin 100000) (d : Fin 48), i = ix2 n d := ⟨i 0, i 1, eq_ix2 i⟩
  rw [sliceY, Gpass_apply,
    Gscatter_of_msg endP (Ggather startP dfsP yP) dfP (fun e d' h => by rw [Ggather_apply, hd0 e h, mul_zero])]
  have hnn : n.val < 100000 := n.isLt
  rw [hf ⟨n.val, by omega⟩ hnn]
  refine congrArg (fun s => s * df (ix2 n (⟨0, Nat.one_pos⟩ : Fin 1))) ?_
  refine Finset.sum_congr (Finset.filter_congr fun e _ => ?_) fun e _ => ?_
  · rw [he (Fin.castLE edges_le e) e.isLt]
    exact Iff.rfl
  · obtain ⟨h0, h1⟩ := hstart e
    have hlt : (start (ix1 e)).toInt.toNat < 100352 := by omega
    have hsn : startP (ix1 (Fin.castLE edges_le e)) = BitVec.ofNat 32 ((⟨(start (ix1 e)).toInt.toNat, hlt⟩ : Fin 100352)).val := by
      rw [hs (Fin.castLE edges_le e) e.isLt]
      exact eq_ofNat_toNat_of_nonneg _ h0
    have hlt' : (start (ix1 e)).toInt.toNat < 100000 := by omega
    have hnode : (⟨(start (ix1 e)).toInt.toNat, hlt'⟩ : Fin 100000) = nodeOf (start (ix1 e)) :=
      Fin.ext (nodeOf_val_of_lt _ h1).symm
    rw [Ggather_of_start startP dfsP yP _ d _ hsn, hd (Fin.castLE edges_le e) e.isLt,
      hy ⟨(start (ix1 e)).toInt.toNat, hlt⟩ d hlt', hnode]
    rfl

variable (vS vE : IVec S_ 32) (vD vF vY vY' : S_.Idx → EReal)
    (hpE : S1600000.Pads (![0] : Fin 1 → Nat) ![512] ![0] S1600512)
    (hpN : S100000.Pads (![0] : Fin 1 → Nat) ![352] ![0] S100352)
    (hpY : S100000x48.Pads (![0, 0] : Fin 2 → Nat) ![352, 0] ![0, 0] S100352x48) (hu : 0 < S_.numel)
    (hcE : S1600000x1.ShapeCasts S1600000) (hcN : S100000x1.ShapeCasts S100000)
    (hb : FTy.bits .bf16 < FTy.bits .f32) (hsl : S100352x48.Slices ![0, 0] S100000x48)
    (hvD : vD (Shape.Idx.first hu) = 0)
    (hstart : ∀ e : Fin 1600000, 0 ≤ (start (ix1 e)).toInt ∧ (start (ix1 e)).toInt < 100000)
include hvD hstart

theorem pass_host :
    extractStridedSlice S100000x48 ![0, 0]
        (Gscatter (pad S1600512 ![0] ![512] ![0] end_ vE hpE hu)
          (Ggather (pad S1600512 ![0] ![512] ![0] start vS hpE hu)
            (pad S1600512 ![0] ![512] ![0] (shapeCast S1600000 dfs hcE) vD hpE hu)
            (truncf (F := Ideal) .bf16 (pad S100352x48 ![0, 0] ![352, 0] ![0, 0] y vY hpY hu) hb))
          (pad S100352 ![0] ![352] ![0] (shapeCast S100000 df hcN) vF hpN hu)) hsl
      = Gpass start end_ dfs df y :=
  pass_glue start end_ dfs df y _ _ _ _ _
    (fun e h => pad1_lt start vS hpE hu e h)
    (fun e h => pad1_lt end_ vE hpE hu e h)
    (fun e h => (pad1_lt _ vD hpE hu e h).trans (cast_a1_a dfs hcE _))
    (fun e h => (padE_ge _ vD hpE hu e h).trans hvD)
    (fun n h => (pad1_lt _ vF hpN hu n h).trans (cast_a1_a df hcN _))
    (fun n d h => (truncf_apply _ hb _).trans (padY_lt y vY hpY hu n d h))
    hstart hsl

theorem kernel_value (W1 : S48x128.Idx → EReal) (b1 : S128.Idx → EReal) (W2 : S128x128.Idx → EReal) (b2 : S128.Idx → EReal) :
    Gmlp (extractStridedSlice S100000x48 ![0, 0]
        (Gscatter (pad S1600512 ![0] ![512] ![0] end_ vE hpE hu)
          (Ggather (pad S1600512 ![0] ![512] ![0] start vS hpE hu)
            (pad S1600512 ![0] ![512] ![0] (shapeCast S1600000 dfs hcE) vD hpE hu)
            (truncf (F := Ideal) .bf16 (pad S100352x48 ![0, 0] ![352, 0] ![0, 0]
              (extractStridedSlice S100000x48 ![0, 0]
                (Gscatter (pad S1600512 ![0] ![512] ![0] end_ vE hpE hu)
                  (Ggather (pad S1600512 ![0] ![512] ![0] start vS hpE hu)
                    (pad S1600512 ![0] ![512] ![0] (shapeCast S1600000 dfs hcE) vD hpE hu)
                    (truncf (F := Ideal) .bf16 (pad S100352x48 ![0, 0] ![352, 0] ![0, 0] y vY hpY hu) hb))
                  (pad S100352 ![0] ![352] ![0] (shapeCast S100000 df hcN) vF hpN hu)) hsl)
              vY' hpY hu) hb))
          (pad S100352 ![0] ![352] ![0] (shapeCast S100000 df hcN) vF hpN hu)) hsl) W1 b1 W2 b2
      = Gmlp (Gpass start end_ dfs df (Gpass start end_ dfs df y)) W1 b1 W2 b2 := by
  rw [pass_host start end_ dfs df y vS vE vD vF vY hpE hpN hpY hu hcE hcN hb hsl hvD hstart,
    pass_host start end_ dfs df (Gpass start end_ dfs df y) vS vE vD vF vY' hpE hpN hpY hu hcE hcN hb hsl hvD hstart]

end Pass

end Cert.KernelIdeal.Val

end
-- ==== Proof.KI.Val.Chain.lean ====
import proofs.«407864_j23167053595206_1_alg».proof.Proof.KI.RunEntry
import proofs.«407864_j23167053595206_1_alg».proof.Proof.KI.Val.Spec
import proofs.«407864_j23167053595206_1_alg».proof.Proof.KI.Val.GatherFinal
import proofs.«407864_j23167053595206_1_alg».proof.Proof.KI.Val.ScatterFinal
import proofs.«407864_j23167053595206_1_alg».proof.Proof.KI.Val.MlpFinal
import proofs.«407864_j23167053595206_1_alg».proof.Proof.KI.Val.Glue

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

section Chain
variable (m : (ℓ : Loc nD τ sig) → Buf (Elt Ideal) ℓ) (ρ : Dev nD → PrngReg) (c : Dev nD)

abbrev zeroF : S_.Idx → EReal := sitofp (F := Ideal) .f32 (constantI S_ 32 0#32)

abbrev startP : IVec S1600512 32 :=
  pad S1600512 ![0] ![512] ![0] ((m ((c : Thread nD τ).loc main_arg1)) : IVec S1600000 32) (constantI S_ 32 0#32) pads_S1600000_S1600512_05120 h_S_

abbrev endP : IVec S1600512 32 :=
  pad S1600512 ![0] ![512] ![0] ((m ((c : Thread nD τ).loc main_arg2)) : IVec S1600000 32) (constantI S_ 32 0#32) pads_S1600000_S1600512_05120 h_S_

abbrev dfsP : S1600512.Idx → EReal :=
  pad S1600512 ![0] ![512] ![0] (shapeCast S1600000 ((m ((c : Thread nD τ).loc main_arg3)) : S1600000x1.Idx → EReal) shapeCasts_S1600000x1_S1600000) zeroF pads_S1600000_S1600512_05120 h_S_

abbrev dfP : S100352.Idx → EReal :=
  pad S100352 ![0] ![352] ![0] (shapeCast S100000 ((m ((c : Thread nD τ).loc main_arg4)) : S100000x1.Idx → EReal) shapeCasts_S100000x1_S100000) zeroF pads_S100000_S100352_03520 h_S_

abbrev featP (y : S100000x48.Idx → EReal) : S100352x48.Idx → EReal :=
  truncf (F := Ideal) .bf16 (pad S100352x48 ![0, 0] ![352, 0] ![0, 0] y zeroF pads_S100000x48_S100352x48_03520_000 h_S_) bitsLt_bf16_f32

abbrev aggP (y : S100000x48.Idx → EReal) : S100352x48.Idx → EReal :=
  Gscatter (endP m c) (Ggather (startP m c) (dfsP m c) (featP y)) (dfP m c)

abbrev roundP (y : S100000x48.Idx → EReal) : S100000x48.Idx → EReal :=
  extractStridedSlice S100000x48 ![0, 0] (aggP m c y) slices_S100352x48_S100000x48_0_0

theorem in0_v2 : V11 m ρ c main_v2 = startP m c := (V11_main_v2 m ρ c).trans (V2_main_v2 m ρ c)
theorem in0_v4 : V11 m ρ c main_v4 = dfsP m c := (V11_main_v4 m ρ c).trans (V6_main_v4 m ρ c)
theorem in0_v7 : V11 m ρ c main_v7 = featP (m ((c : Thread nD τ).loc main_arg0)) := V11_main_v7 m ρ c
theorem in1_v3 : V12 m ρ c main_v3 = endP m c := (V12_main_v3 m ρ c).trans (V4_main_v3 m ρ c)
theorem in1_v5 : V12 m ρ c main_v5 = dfP m c := (V12_main_v5 m ρ c).trans (V8_main_v5 m ρ c)
theorem in2_v2 : V16 m ρ c main_v2 = startP m c := (V16_main_v2 m ρ c).trans (V2_main_v2 m ρ c)
theorem in2_v4 : V16 m ρ c main_v4 = dfsP m c := (V16_main_v4 m ρ c).trans (V6_main_v4 m ρ c)
theorem in3_v3 : V17 m ρ c main_v3 = endP m c := (V17_main_v3 m ρ c).trans (V4_main_v3 m ρ c)
theorem in3_v5 : V17 m ρ c main_v5 = dfP m c := (V17_main_v5 m ρ c).trans (V8_main_v5 m ρ c)

theorem out0 : V12 m ρ c main_v8 = Ggather (startP m c) (dfsP m c) (featP (m ((c : Thread nD τ).loc main_arg0))) := by
  refine (V12_main_v8 m ρ c).trans ((final0 (V11 m ρ) c).trans ?_)
  rw [in0_v2 m ρ c, in0_v4 m ρ c, in0_v7 m ρ c] <;> rfl

theorem out1 : V13 m ρ c main_v9 = aggP m c (m ((c : Thread nD τ).loc main_arg0)) := by
  refine (V13_main_v9 m ρ c).trans ((final1 (V12 m ρ) c).trans ?_)
  rw [in1_v3 m ρ c, in1_v5 m ρ c, out0 m ρ c] <;> rfl

theorem mid : V16 m ρ c main_v12 = featP (roundP m c (m ((c : Thread nD τ).loc main_arg0))) := by
  refine (V16_main_v12 m ρ c).trans ?_
  rw [out1 m ρ c] <;> rfl

theorem out2 : V17 m ρ c main_v13 = Ggather (startP m c) (dfsP m c) (featP (roundP m c (m ((c : Thread nD τ).loc main_arg0)))) := by
  refine (V17_main_v13 m ρ c).trans ((final2 (V16 m ρ) c).trans ?_)
  rw [in2_v2 m ρ c, in2_v4 m ρ c, mid m ρ c] <;> rfl

theorem out3 : V18 m ρ c main_v14 = aggP m c (roundP m c (m ((c : Thread nD τ).loc main_arg0))) := by
  refine (V18_main_v14 m ρ c).trans ((final3 (V17 m ρ) c).trans ?_)
  rw [in3_v3 m ρ c, in3_v5 m ρ c, out2 m ρ c] <;> rfl

theorem in4_v15 : V19 m ρ c main_v15 = roundP m c (roundP m c (m ((c : Thread nD τ).loc main_arg0))) := by
  refine (V19_main_v15 m ρ c).trans ?_
  rw [out3 m ρ c] <;> rfl

theorem kernel_out : W20 (F := Ideal) m ρ c (Proc.devRef .tc main_v16)
    = Gmlp (roundP m c (roundP m c (m ((c : Thread nD τ).loc main_arg0)))) (m ((c : Thread nD τ).loc main_arg5)) (m ((c : Thread nD τ).loc main_arg6)) (m ((c : Thread nD τ).loc main_arg7)) (m ((c : Thread nD τ).loc main_arg8)) := by
  refine (W20_main_v16 m ρ c).trans ((final4 (V19 m ρ) c).trans ?_)
  rw [in4_v15 m ρ c, V19_main_arg5 m ρ c, V19_main_arg6 m ρ c, V19_main_arg7 m ρ c, V19_main_arg8 m ρ c] <;> rfl

end Chain

theorem kernel_eq_ref (m : (ℓ : Loc nD τ sig) → Buf (Elt Ideal) ℓ) (ρ : Dev nD → PrngReg) (c : Dev nD)
    (hstart : ∀ e : Fin 1600000, 0 ≤ ((m ((c : Thread nD τ).loc main_arg1)) (ix1 e)).toInt ∧ ((m ((c : Thread nD τ).loc main_arg1)) (ix1 e)).toInt < 100000) :
    W20 (F := Ideal) m ρ c (Proc.devRef .tc main_v16)
      = Gmlp (Gpass (m ((c : Thread nD τ).loc main_arg1)) (m ((c : Thread nD τ).loc main_arg2)) (m ((c : Thread nD τ).loc main_arg3)) (m ((c : Thread nD τ).loc main_arg4))
          (Gpass (m ((c : Thread nD τ).loc main_arg1)) (m ((c : Thread nD τ).loc main_arg2)) (m ((c : Thread nD τ).loc main_arg3)) (m ((c : Thread nD τ).loc main_arg4)) (m ((c : Thread nD τ).loc main_arg0))))
        (m ((c : Thread nD τ).loc main_arg5)) (m ((c : Thread nD τ).loc main_arg6)) (m ((c : Thread nD τ).loc main_arg7)) (m ((c : Thread nD τ).loc main_arg8)) :=
  (kernel_out m ρ c).trans
    (kernel_value (m ((c : Thread nD τ).loc main_arg1)) (m ((c : Thread nD τ).loc main_arg2)) (m ((c : Thread nD τ).loc main_arg3)) (m ((c : Thread nD τ).loc main_arg4)) (m ((c : Thread nD τ).loc main_arg0))
      (constantI S_ 32 0#32) (constantI S_ 32 0#32) zeroF zeroF zeroF zeroF
      pads_S1600000_S1600512_05120 pads_S100000_S100352_03520 pads_S100000x48_S100352x48_03520_000 h_S_
      shapeCasts_S1600000x1_S1600000 shapeCasts_S100000x1_S100000 bitsLt_bf16_f32 slices_S100352x48_S100000x48_0_0
      (sitofp_zero _) hstart (m ((c : Thread nD τ).loc main_arg5)) (m ((c : Thread nD τ).loc main_arg6)) (m ((c : Thread nD τ).loc main_arg7)) (m ((c : Thread nD τ).loc main_arg8)))

end Cert.KernelIdeal.Val

end
-- ==== Proof.lean ====
import proofs.«407864_j23167053595206_1_alg».proof.Defs
import proofs.«407864_j23167053595206_1_alg».proof.Proof.Gen.Kernel
import proofs.«407864_j23167053595206_1_alg».proof.Proof.Gen.KernelIdeal
import proofs.«407864_j23167053595206_1_alg».proof.Proof.Gen.ReferenceIdeal
import proofs.«407864_j23167053595206_1_alg».proof.Proof.Gen.Pre_finite_inputs
import proofs.«407864_j23167053595206_1_alg».proof.Proof.Gen.ReferenceIdeal.Run
import proofs.«407864_j23167053595206_1_alg».proof.Proof.Gen.ReferenceIdeal.Read
import proofs.«407864_j23167053595206_1_alg».proof.Proof.KB.Run
import proofs.«407864_j23167053595206_1_alg».proof.Proof.KI.Run
import proofs.«407864_j23167053595206_1_alg».proof.Proof.KI.Val.Pre
import proofs.«407864_j23167053595206_1_alg».proof.Proof.KI.Val.Ref
import proofs.«407864_j23167053595206_1_alg».proof.Proof.KI.Val.Chain
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

/-- The kernel program terminates and leaves its arguments as launched; the proof holds at every float instance, so it serves both readings. -/
theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the results forgotten. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Both programs end at the perceptron of two message-passing rounds: with every source index in range (the precondition), a row of the indicator matrix selects exactly the gathered row, and the padding contributes zero. -/
theorem algebraic : Cert.algebraic_KernelIdeal_ReferenceIdeal := by
  intro m ρ m' ρ' hpre hagree
  open Cert.KernelIdeal Cert.KernelIdeal.Hand in
  refine ⟨fun c => W20 (F := Ideal) m ρ c (Proc.devRef .tc main_v16), _, _, _, _,
    run_post (F := Ideal) m ρ fun s h c =>
      ⟨h c _ (mem_uc main_v16 (by decide)), by and_intros <;> exact kept m ρ h c _ (by decide) (by decide)⟩, ?_⟩
  refine (θ_run Cert.ReferenceIdeal.defs _ _).mono (fun _ h c => ?_) (Cert.ReferenceIdeal.Value.run (F := Ideal) m' ρ')
  obtain ⟨h36, h1, h2, h3, h4, hrest⟩ := h c
  obtain ⟨a0, a1, a2, a3, a4, a5, a6, a7, a8⟩ := hagree c
  refine ⟨?_, h1.trans a1, h2.trans a2, h3.trans a3, h4.trans a4, hrest⟩
  have hstart := fun e : Fin 1600000 => Cert.PreRange.start_range _ _ _ _ _ _ _ _ _ (hpre c) (ix1 e)
  rw [h36, a0, a1, a2, a3, a4, a5, a6, a7, a8, Cert.ReferenceIdeal.Read.val_main_v36_eq,
    Cert.KernelIdeal.Val.ref_value _ _ _ _ _ _ _ _ _ (fun e => (hstart e).1)]
  exact (Cert.KernelIdeal.Val.kernel_eq_ref m ρ c hstart).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
